-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8x4096 : Shape := ⟨3, ![1024, 8, 4096]⟩
abbrev S1024 : Shape := ⟨1, ![1024]⟩
abbrev S64x8x4096 : Shape := ⟨3, ![64, 8, 4096]⟩
abbrev S64 : Shape := ⟨1, ![64]⟩
abbrev S_ : Shape := ⟨0, ![]⟩

class Facts : Prop where
  bcast_S_S1024x8x4096 : S_.BroadcastsInDim S1024x8x4096 (![] : Fin 0 → Fin S1024x8x4096.rank)
  reducesTo_S1024x8x4096_S_d0_1_2 : S1024x8x4096.ReducesTo [0, 1, 2] S_
  h_S_ : 0 < S_.numel
  bcast_S_S64x8x4096 : S_.BroadcastsInDim S64x8x4096 (![] : Fin 0 → Fin S64x8x4096.rank)
  reducesTo_S64x8x4096_S_d0_1_2 : S64x8x4096.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1024x8x4096 .f32) (main_arg1 : IVec S1024 32) (main_arg2 : FVec F S64x8x4096 .f32) (main_arg3 : FVec F S64 .f32) : IVec S_ 1 :=
  let main_v0 : FVec F S1024x8x4096 .f32 := Host.absf main_arg0
  let main_cst : FVec F S_ .f32 := constant S_ .f32 0x7F800000#32
  let main_v1 : FVec F S1024x8x4096 .f32 := broadcastInDim S1024x8x4096 ![] bcast_S_S1024x8x4096 main_cst
  let main_v2 : IVec S1024x8x4096 1 := cmpf .olt main_v0 main_v1
  let main_c : IVec S_ 1 := constantI S_ 1 1#1
  let main_v3 : IVec S_ 1 := (fun x v => Host.reduce IntOp.andi x v reducesTo_S1024x8x4096_S_d0_1_2 h_S_) main_v2 main_c
  let main_v4 : FVec F S64x8x4096 .f32 := Host.absf main_arg2
  let main_cst_0 : FVec F S_ .f32 := constant S_ .f32 0x7F800000#32
  let main_v5 : FVec F S64x8x4096 .f32 := broadcastInDim S64x8x4096 ![] bcast_S_S64x8x4096 main_cst_0
  let main_v6 : IVec S64x8x4096 1 := cmpf .olt main_v4 main_v5
  let main_c_1 : IVec S_ 1 := constantI S_ 1 1#1
  let main_v7 : IVec S_ 1 := (fun x v => Host.reduce IntOp.andi x v reducesTo_S64x8x4096_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1024x8x4096 : Shape := ⟨3, ![1024, 8, 4096]⟩
abbrev S1024 : Shape := ⟨1, ![1024]⟩
abbrev S64x8x4096 : Shape := ⟨3, ![64, 8, 4096]⟩
abbrev S64 : Shape := ⟨1, ![64]⟩
abbrev S28 : Shape := ⟨1, ![28]⟩
abbrev S1024x1 : Shape := ⟨2, ![1024, 1]⟩
abbrev S1x64 : Shape := ⟨2, ![1, 64]⟩
abbrev S1024x64 : Shape := ⟨2, ![1024, 64]⟩
abbrev S_ : Shape := ⟨0, ![]⟩
abbrev S2x64x8x4096 : Shape := ⟨4, ![2, 64, 8, 4096]⟩
abbrev S64x64 : Shape := ⟨2, ![64, 64]⟩
abbrev S1x64x8x4096 : Shape := ⟨4, ![1, 64, 8, 4096]⟩
abbrev S64x1x4096 : Shape := ⟨3, ![64, 1, 4096]⟩
abbrev S64x4096 : Shape := ⟨2, ![64, 4096]⟩
abbrev S64x1 : Shape := ⟨2, ![64, 1]⟩
abbrev S64x1x1 : Shape := ⟨3, ![64, 1, 1]⟩
abbrev S64x8 : Shape := ⟨2, ![64, 8]⟩
abbrev S64x8x8 : Shape := ⟨3, ![64, 8, 8]⟩
abbrev S64x8x1 : Shape := ⟨3, ![64, 8, 1]⟩
abbrev S64x1x8 : Shape := ⟨3, ![64, 1, 8]⟩
abbrev S28x1 : Shape := ⟨2, ![28, 1]⟩
abbrev S28x2 : Shape := ⟨2, ![28, 2]⟩
abbrev S64x28 : Shape := ⟨2, ![64, 28]⟩
abbrev S2x64x1 : Shape := ⟨3, ![2, 64, 1]⟩
abbrev S1x64x1 : Shape := ⟨3, ![1, 64, 1]⟩

abbrev nBuf : Space → Nat
  | .hbm => 121
  | .vmem => 14
  | .smem => 0
  | _ => 0

abbrev bufTy : (tb : Table) → Fin (tcTables nBuf tb) → BufTy
  | .hbm, ⟨0, _⟩ => ⟨S1024x8x4096, .f32⟩
  | .hbm, ⟨1, _⟩ => ⟨S1024, .i32⟩
  | .hbm, ⟨2, _⟩ => ⟨S64x8x4096, .f32⟩
  | .hbm, ⟨3, _⟩ => ⟨S64, .f32⟩
  | .hbm, ⟨4, _⟩ => ⟨S28, .i32⟩
  | .hbm, ⟨5, _⟩ => ⟨S28, .i1⟩
  | .hbm, ⟨6, _⟩ => ⟨S28, .i32⟩
  | .hbm, ⟨7, _⟩ => ⟨S28, .i1⟩
  | .hbm, ⟨8, _⟩ => ⟨S1024x1, .i32⟩
  | .hbm, ⟨9, _⟩ => ⟨S1x64, .i32⟩
  | .hbm, ⟨10, _⟩ => ⟨S1024x64, .i32⟩
  | .hbm, ⟨11, _⟩ => ⟨S1024x64, .i32⟩
  | .hbm, ⟨12, _⟩ => ⟨S1024x64, .i1⟩
  | .hbm, ⟨13, _⟩ => ⟨S1024x64, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .i1⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S2x64x8x4096, .f32⟩
  | .hbm, ⟨26, _⟩ => ⟨S1x64x8x4096, .f32⟩
  | .hbm, ⟨27, _⟩ => ⟨S64x8x4096, .f32⟩
  | .hbm, ⟨28, _⟩ => ⟨S1x64x8x4096, .f32⟩
  | .hbm, ⟨29, _⟩ => ⟨S64x8x4096, .f32⟩
  | .hbm, ⟨30, _⟩ => ⟨S64x8x4096, .f32⟩
  | .hbm, ⟨31, _⟩ => ⟨S64x1x1, .f32⟩
  | .hbm, ⟨32, _⟩ => ⟨S64x8x4096, .f32⟩
  | .hbm, ⟨33, _⟩ => ⟨S64x8x4096, .f32⟩
  | .hbm, ⟨34, _⟩ => ⟨S64x8x4096, .f32⟩
  | .hbm, ⟨35, _⟩ => ⟨S_, .f32⟩
  | .hbm, ⟨36, _⟩ => ⟨S64x8, .f32⟩
  | .hbm, ⟨37, _⟩ => ⟨S64x8x8, .f32⟩
  | .hbm, ⟨38, _⟩ => ⟨S64x8x1, .f32⟩
  | .hbm, ⟨39, _⟩ => ⟨S64x1x8, .f32⟩
  | .hbm, ⟨40, _⟩ => ⟨S64x8x8, .f32⟩
  | .hbm, ⟨41, _⟩ => ⟨S64x8x8, .f32⟩
  | .hbm, ⟨42, _⟩ => ⟨S64x8x8, .f32⟩
  | .hbm, ⟨43, _⟩ => ⟨S_, .f32⟩
  | .hbm, ⟨44, _⟩ => ⟨S64x8x8, .f32⟩
  | .hbm, ⟨45, _⟩ => ⟨S64x8x8, .f32⟩
  | .hbm, ⟨46, _⟩ => ⟨S64x8x8, .f32⟩
  | .hbm, ⟨47, _⟩ => ⟨S_, .f32⟩
  | .hbm, ⟨48, _⟩ => ⟨S64x8x8, .f32⟩
  | .hbm, ⟨49, _⟩ => ⟨S64x8x8, .f32⟩
  | .hbm, ⟨50, _⟩ => ⟨S64x8x8, .f32⟩
  | .hbm, ⟨51, _⟩ => ⟨S_, .i32⟩
  | .hbm, ⟨52, _⟩ => ⟨S28, .i32⟩
  | .hbm, ⟨53, _⟩ => ⟨S28, .i32⟩
  | .hbm, ⟨54, _⟩ => ⟨S28, .i32⟩
  | .hbm, ⟨55, _⟩ => ⟨S_, .i32⟩
  | .hbm, ⟨56, _⟩ => ⟨S28, .i32⟩
  | .hbm, ⟨57, _⟩ => ⟨S28, .i32⟩
  | .hbm, ⟨58, _⟩ => ⟨S28, .i32⟩
  | .hbm, ⟨59, _⟩ => ⟨S28x1, .i32⟩
  | .hbm, ⟨60, _⟩ => ⟨S28x1, .i32⟩
  | .hbm, ⟨61, _⟩ => ⟨S28x2, .i32⟩
  | .hbm, ⟨62, _⟩ => ⟨S64x28, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64x28, .f32⟩
  | .hbm, ⟨67, _⟩ => ⟨S64x28, .f32⟩
  | .hbm, ⟨68, _⟩ => ⟨S_, .f32⟩
  | .hbm, ⟨69, _⟩ => ⟨S64x28, .f32⟩
  | .hbm, ⟨70, _⟩ => ⟨S64x28, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S64x1x1, .i1⟩
  | .hbm, ⟨84, _⟩ => ⟨S_, .f32⟩
  | .hbm, ⟨85, _⟩ => ⟨S64x8x4096, .f32⟩
  | .hbm, ⟨86, _⟩ => ⟨S64x8x4096, .f32⟩
  | .hbm, ⟨87, _⟩ => ⟨S_, .f32⟩
  | .hbm, ⟨88, _⟩ => ⟨S64x8x4096, .f32⟩
  | .hbm, ⟨89, _⟩ => ⟨S64x8x4096, .f32⟩
  | .hbm, ⟨90, _⟩ => ⟨S64x8x4096, .f32⟩
  | .hbm, ⟨91, _⟩ => ⟨S64x8x4096, .i1⟩
  | .hbm, ⟨92, _⟩ => ⟨S64x8x4096, .f32⟩
  | .hbm, ⟨93, _⟩ => ⟨S64x8x4096, .f32⟩
  | .hbm, ⟨94, _⟩ => ⟨S_, .f32⟩
  | .hbm, ⟨95, _⟩ => ⟨S64x8, .f32⟩
  | .hbm, ⟨96, _⟩ => ⟨S64x8x1, .f32⟩
  | .hbm, ⟨97, _⟩ => ⟨S64x8x1, .f32⟩
  | .hbm, ⟨98, _⟩ => ⟨S_, .f32⟩
  | .hbm, ⟨99, _⟩ => ⟨S64x8x1, .f32⟩
  | .hbm, ⟨100, _⟩ => ⟨S64x8x1, .f32⟩
  | .hbm, ⟨101, _⟩ => ⟨S64x8x4096, .f32⟩
  | .hbm, ⟨102, _⟩ => ⟨S64x8x4096, .f32⟩
  | .hbm, ⟨103, _⟩ => ⟨S1x64, .f32⟩
  | .hbm, ⟨104, _⟩ => ⟨S2x64x1, .f32⟩
  | .hbm, ⟨105, _⟩ => ⟨S1x64x1, .f32⟩
  | .hbm, ⟨106, _⟩ => ⟨S64x1, .f32⟩
  | .hbm, ⟨107, _⟩ => ⟨S1x64x1, .f32⟩
  | .hbm, ⟨108, _⟩ => ⟨S64x1, .f32⟩
  | .hbm, ⟨109, _⟩ => ⟨S64x1, .f32⟩
  | .hbm, ⟨110, _⟩ => ⟨S64, .f32⟩
  | .hbm, ⟨111, _⟩ => ⟨S64, .f32⟩
  | .hbm, ⟨112, _⟩ => ⟨S_, .f32⟩
  | .hbm, ⟨113, _⟩ => ⟨S_, .f32⟩
  | .hbm, ⟨114, _⟩ => ⟨S64, .f32⟩
  | .hbm, ⟨115, _⟩ => ⟨S64, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S64x8x4096, .f32⟩
  | .local _ .vmem, ⟨1, _⟩ => ⟨S64x8x4096, .f32⟩
  | .local _ .vmem, ⟨2, _⟩ => ⟨S64x64, .f32⟩
  | .local _ .vmem, ⟨3, _⟩ => ⟨S64x64, .f32⟩
  | .local _ .vmem, ⟨4, _⟩ => ⟨S1x64x8x4096, .f32⟩
  | .local _ .vmem, ⟨5, _⟩ => ⟨S64x8x4096, .f32⟩
  | .local _ .vmem, ⟨6, _⟩ => ⟨S64x8x4096, .f32⟩
  | .local _ .vmem, ⟨7, _⟩ => ⟨S64x8x4096, .f32⟩
  | .local _ .vmem, ⟨8, _⟩ => ⟨S64x64, .f32⟩
  | .local _ .vmem, ⟨9, _⟩ => ⟨S64x64, .f32⟩
  | .local _ .vmem, ⟨10, _⟩ => ⟨S64x8x4096, .f32⟩
  | .local _ .vmem, ⟨11, _⟩ => ⟨S1x64, .f32⟩
  | .local _ .vmem, ⟨12, _⟩ => ⟨S1x64x1, .f32⟩
  | .local _ .vmem, ⟨13, _⟩ => ⟨S64x1, .f32⟩
  | _, _ => ⟨S1024x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_3 : Ref sig .tc := ⟨.hbm, 16, rfl⟩
abbrev main_v2 : Ref sig .tc := ⟨.hbm, 17, rfl⟩
abbrev main_v3 : Ref sig .tc := ⟨.hbm, 18, rfl⟩
abbrev main_cst_4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_call1_cst : Ref sig .tc := ⟨.hbm, 68, rfl⟩
abbrev main_call1_v0 : Ref sig .tc := ⟨.hbm, 69, rfl⟩
abbrev main_v44 : Ref sig .tc := ⟨.hbm, 70, rfl⟩
abbrev main_cst_13 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_v47 : Ref sig .tc := ⟨.hbm, 75, rfl⟩
abbrev main_cst_15 : Ref sig .tc := ⟨.hbm, 76, rfl⟩
abbrev main_call2_v0 : Ref sig .tc := ⟨.hbm, 77, rfl⟩
abbrev main_call2_v1 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_17 : Ref sig .tc := ⟨.hbm, 84, rfl⟩
abbrev main_v52 : Ref sig .tc := ⟨.hbm, 85, rfl⟩
abbrev main_v53 : Ref sig .tc := ⟨.hbm, 86, rfl⟩
abbrev main_cst_18 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call3_v0 : Ref sig .tc := ⟨.hbm, 91, rfl⟩
abbrev main_v57 : Ref sig .tc := ⟨.hbm, 92, rfl⟩
abbrev main_v58 : Ref sig .tc := ⟨.hbm, 93, rfl⟩
abbrev main_cst_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_20 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_21 : Ref sig .tc := ⟨.hbm, 112, rfl⟩
abbrev main_call4_v0 : Ref sig .tc := ⟨.hbm, 113, rfl⟩
abbrev main_call4_v1 : Ref sig .tc := ⟨.hbm, 114, rfl⟩
abbrev main_v75 : Ref sig .tc := ⟨.hbm, 115, rfl⟩
abbrev main_cst_22 : Ref sig .tc := ⟨.hbm, 116, rfl⟩
abbrev main_v76 : Ref sig .tc := ⟨.hbm, 117, rfl⟩
abbrev main_cst_23 : Ref sig .tc := ⟨.hbm, 118, rfl⟩
abbrev main_v77 : Ref sig .tc := ⟨.hbm, 119, rfl⟩
abbrev main_v78 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v150 : BitVec 1 := Scalar.cmpi .eq arg1 c7_i32
  let v151 : BitVec 32 := Scalar.extui v150
  let c0_i32_90 : BitVec 32 := 0#32
  let v152 : BitVec 1 := Scalar.cmpi .ne v151 c0_i32_90
  v152

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v176 : BitVec 1 := Scalar.cmpi .eq arg1 c7_i32
  let v177 : BitVec 32 := Scalar.extui v176
  let c0_i32_84 : BitVec 32 := 0#32
  let v178 : BitVec 1 := Scalar.cmpi .ne v177 c0_i32_84
  v178

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x8x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  reducesTo_S1024x64_S64_d0 : S1024x64.ReducesTo [0] S64
  h_S_ : 0 < S_.numel
  bcast_S_S64 : S_.BroadcastsInDim S64 (![] : Fin 0 → Fin S64.rank)
  reducesTo_S64_S_d0 : S64.ReducesTo [0] S_
  inb_S64x8x4096_S64x8x4096_0_0_0 : ∀ a, (![0, 0, 0] : Fin 3 → Nat) a + S64x8x4096.size a ≤ S64x8x4096.size a
  h_S64x8x4096 : 0 < S64x8x4096.numel
  shapeCasts_S64x8x4096_S64x8x4096 : S64x8x4096.ShapeCasts S64x8x4096
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64x8x4096_S64x1x4096_0_0_0 : ∀ a, (![0, 0, 0] : Fin 3 → Nat) a + S64x1x4096.size a ≤ S64x8x4096.size a
  h_S64x1x4096 : 0 < S64x1x4096.numel
  shapeCasts_S64x1x4096_S64x4096 : S64x1x4096.ShapeCasts S64x4096
  reduces_S64x4096_S64 : S64x4096.Reduces [1] S64
  shapeCasts_S64_S64x1 : S64.ShapeCasts S64x1
  broadcasts_S64x1_S64x4096 : S64x1.Broadcasts S64x4096
  shapeCasts_S64x4096_S64x1x4096 : S64x4096.ShapeCasts S64x1x4096
  inb_S64x8x4096_S64x1x4096_0_1_0 : ∀ a, (![0, 1, 0] : Fin 3 → Nat) a + S64x1x4096.size a ≤ S64x8x4096.size a
  inb_S64x8x4096_S64x1x4096_0_2_0 : ∀ a, (![0, 2, 0] : Fin 3 → Nat) a + S64x1x4096.size a ≤ S64x8x4096.size a
  inb_S64x8x4096_S64x1x4096_0_3_0 : ∀ a, (![0, 3, 0] : Fin 3 → Nat) a + S64x1x4096.size a ≤ S64x8x4096.size a
  inb_S64x8x4096_S64x1x4096_0_4_0 : ∀ a, (![0, 4, 0] : Fin 3 → Nat) a + S64x1x4096.size a ≤ S64x8x4096.size a
  inb_S64x8x4096_S64x1x4096_0_5_0 : ∀ a, (![0, 5, 0] : Fin 3 → Nat) a + S64x1x4096.size a ≤ S64x8x4096.size a
  inb_S64x8x4096_S64x1x4096_0_6_0 : ∀ a, (![0, 6, 0] : Fin 3 → Nat) a + S64x1x4096.size a ≤ S64x8x4096.size a
  inb_S64x8x4096_S64x1x4096_0_7_0 : ∀ a, (![0, 7, 0] : Fin 3 → Nat) a + S64x1x4096.size a ≤ S64x8x4096.size a
  inb_S1x64x8x4096_S1x64x8x4096_0_0_0_0 : ∀ a, (![0, 0, 0, 0] : Fin 4 → Nat) a + S1x64x8x4096.size a ≤ S1x64x8x4096.size a
  h_S1x64x8x4096 : 0 < S1x64x8x4096.numel
  shapeCasts_S1x64x8x4096_S64x8x4096 : S1x64x8x4096.ShapeCasts S64x8x4096
  shapeCasts_S64x8x4096_S1x64x8x4096 : S64x8x4096.ShapeCasts S1x64x8x4096
  slices_S2x64x8x4096_S1x64x8x4096_0_0_0_0 : S2x64x8x4096.Slices ![0, 0, 0, 0] S1x64x8x4096
  slices_S2x64x8x4096_S1x64x8x4096_1_0_0_0 : S2x64x8x4096.Slices ![1, 0, 0, 0] S1x64x8x4096
  bcast_S64_S64x1x1_0 : S64.BroadcastsInDim S64x1x1 (![0] : Fin 1 → Fin S64x1x1.rank)
  bcast_S64x1x1_S64x8x4096_0_1_2 : S64x1x1.BroadcastsInDim S64x8x4096 (![0, 1, 2] : Fin 3 → Fin S64x8x4096.rank)
  reducesTo_S64x8x4096_S64x8_d2 : S64x8x4096.ReducesTo [2] S64x8
  bcast_S64x8_S64x8x1_0_1 : S64x8.BroadcastsInDim S64x8x1 (![0, 1] : Fin 2 → Fin S64x8x1.rank)
  bcast_S64x8_S64x1x8_0_2 : S64x8.BroadcastsInDim S64x1x8 (![0, 2] : Fin 2 → Fin S64x1x8.rank)
  bcast_S64x8x1_S64x8x8_0_1_2 : S64x8x1.BroadcastsInDim S64x8x8 (![0, 1, 2] : Fin 3 → Fin S64x8x8.rank)
  bcast_S64x1x8_S64x8x8_0_1_2 : S64x1x8.BroadcastsInDim S64x8x8 (![0, 1, 2] : Fin 3 → Fin S64x8x8.rank)
  bcast_S_S64x8x8 : S_.BroadcastsInDim S64x8x8 (![] : Fin 0 → Fin S64x8x8.rank)
  bcast_S_S28 : S_.BroadcastsInDim S28 (![] : Fin 0 → Fin S28.rank)
  bcast_S28_S28x1_0 : S28.BroadcastsInDim S28x1 (![0] : Fin 1 → Fin S28x1.rank)
  concatenates_S28x1_S28x1_S28x2_d1 : Shape.Concatenates [S28x1, S28x1] S28x2 1
  bcast_S_S64x28 : S_.BroadcastsInDim S64x28 (![] : Fin 0 → Fin S64x28.rank)
  reducesTo_S64x28_S64_d1 : S64x28.ReducesTo [1] S64
  bcast_S_S64x8x4096 : S_.BroadcastsInDim S64x8x4096 (![] : Fin 0 → Fin S64x8x4096.rank)
  bcast_S_S64x8x1 : S_.BroadcastsInDim S64x8x1 (![] : Fin 0 → Fin S64x8x1.rank)
  bcast_S64x8x1_S64x8x4096_0_1_2 : S64x8x1.BroadcastsInDim S64x8x4096 (![0, 1, 2] : Fin 3 → Fin S64x8x4096.rank)
  bcast_S64_S1x64_1 : S64.BroadcastsInDim S1x64 (![1] : Fin 1 → Fin S1x64.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  reduces_S64x64_S64 : S64x64.Reduces [1] S64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  slices_S2x64x1_S1x64x1_0_0_0 : S2x64x1.Slices ![0, 0, 0] S1x64x1
  slices_S2x64x1_S1x64x1_1_0_0 : S2x64x1.Slices ![1, 0, 0] S1x64x1
  shapeCasts_S64x1_S64 : S64x1.ShapeCasts S64
  dot_S64x64_S64x4096_S64x4096_0_0_1_1_n_n_wf : DotDims.WF S64x64 S64x4096 S64x4096 [0] [0] [1] [1] [] []
  dot_S64x8x4096_S64x8x4096_S64x8x8_2_2_1_1_0_0_wf : DotDims.WF S64x8x4096 S64x8x4096 S64x8x8 [2] [2] [1] [1] [0] [0]
  gather_S64x8x8_S28x2_S64x28_0_12_n_n_12_1_6411_wf : GatherDims.WF S64x8x8 S28x2 S64x28 [0] [1, 2] [] [1, 2] [] 1 ![64, 1, 1]
  dot_S64x64_S64x4096_S64x4096_1_0_0_1_n_n_wf : DotDims.WF S64x64 S64x4096 S64x4096 [1] [0] [0] [1] [] []
  dot_S64x64_S64x1_S64x1_0_0_1_1_n_n_wf : DotDims.WF S64x64 S64x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x4096.size a ≤ S1024x8x4096.size a
  hwx0_0 : ∀ i : grid0.Coords, EltTy.bits .f32 = 32 ∨ (Rect.block (s := S1024x8x4096) S64x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S1024x64.size a
  hwx0_1 : ∀ i : grid0.Coords, EltTy.bits .f32 = 32 ∨ (Rect.block (s := S1024x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x8x4096.size a ≤ S2x64x8x4096.size a
  hwx0_2 : ∀ i : grid0.Coords, EltTy.bits .f32 = 32 ∨ (Rect.block (s := S2x64x8x4096) S1x64x8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8x4096.size a ≤ S1024x8x4096.size a
  hwx1_0 : ∀ i : grid1.Coords, EltTy.bits .f32 = 32 ∨ (Rect.block (s := S1024x8x4096) S64x8x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S1024x64.size a
  hwx1_1 : ∀ i : grid1.Coords, EltTy.bits .f32 = 32 ∨ (Rect.block (s := S1024x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x8x4096.size a ≤ S64x8x4096.size a
  hwx1_2 : ∀ i : grid1.Coords, EltTy.bits .f32 = 32 ∨ (Rect.block (s := S64x8x4096) S64x8x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64x1.size a ≤ S2x64x1.size a
  hwx1_4 : ∀ i : grid1.Coords, EltTy.bits .f32 = 32 ∨ (Rect.block (s := S2x64x1) S1x64x1.size (cc1_transform_4 i) (hinb1_4 i)).WholeWords (EltTy.packing .f32)

variable [Facts₀]

def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S64x8x4096_S64x8x4096_S64x8x8_2_2_1_1_0_0 : DotDims S64x8x4096 S64x8x4096 S64x8x8 where
  lhsContracting := [2]
  rhsContracting := [2]
  lhsNonContracting := [1]
  rhsNonContracting := [1]
  lhsBatch := [0]
  rhsBatch := [0]
  wf := dot_S64x8x4096_S64x8x4096_S64x8x8_2_2_1_1_0_0_wf
def gather_S64x8x8_S28x2_S64x28_0_12_n_n_12_1_6411 : GatherDims S64x8x8 S28x2 S64x28 where
  offsetDims := [0]
  collapsedSliceDims := [1, 2]
  operandBatchingDims := []
  startIndicesBatchingDims := []
  startIndexMap := [1, 2]
  indexVectorDim := 1
  sliceSizes := ![64, 1, 1]
  wf := gather_S64x8x8_S28x2_S64x28_0_12_n_n_12_1_6411_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x64_S64x1_S64x1_0_0_1_1_n_n : DotDims S64x64 S64x1 S64x1 where
  lhsContracting := [0]
  rhsContracting := [0]
  lhsNonContracting := [1]
  rhsNonContracting := [1]
  lhsBatch := []
  rhsBatch := []
  wf := dot_S64x64_S64x1_S64x1_0_0_1_1_n_n_wf

abbrev win0_0 : Pipeline.Window sig grid0 :=
  Pipeline.Window.ofSpec (Memref.whole main_arg0) S64x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64x8x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S64x8x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S64x8x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x64x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x8x4096 : Shape := ⟨3, ![1024, 8, 4096]⟩
abbrev S1024 : Shape := ⟨1, ![1024]⟩
abbrev S64x8x4096 : Shape := ⟨3, ![64, 8, 4096]⟩
abbrev S64 : Shape := ⟨1, ![64]⟩
abbrev S_ : Shape := ⟨0, ![]⟩
abbrev S1024x8 : Shape := ⟨2, ![1024, 8]⟩
abbrev S1024x8x1 : Shape := ⟨3, ![1024, 8, 1]⟩
abbrev S1024x1 : Shape := ⟨2, ![1024, 1]⟩
abbrev S64x1x1 : Shape := ⟨3, ![64, 1, 1]⟩
abbrev S64x8 : Shape := ⟨2, ![64, 8]⟩
abbrev S64x8x8 : Shape := ⟨3, ![64, 8, 8]⟩
abbrev S64x8x1 : Shape := ⟨3, ![64, 8, 1]⟩
abbrev S64x1x8 : Shape := ⟨3, ![64, 1, 8]⟩
abbrev S8x8 : Shape := ⟨2, ![8, 8]⟩
abbrev S28 : Shape := ⟨1, ![28]⟩
abbrev S64x1 : Shape := ⟨2, ![64, 1]⟩
abbrev S28x1 : Shape := ⟨2, ![28, 1]⟩
abbrev S28x2 : Shape := ⟨2, ![28, 2]⟩
abbrev S64x28 : Shape := ⟨2, ![64, 28]⟩

abbrev nBuf : Space → Nat
  | .hbm => 281
  | .vmem => 0
  | .smem => 0
  | _ => 0

abbrev hbmTy0_0 (i : Nat) : BufTy := match i % 128 with
  | 0 => ⟨S1024x8x4096, .f32⟩
  | 1 => ⟨S1024, .i32⟩
  | 2 => ⟨S64x8x4096, .f32⟩
  | 3 => ⟨S64, .f32⟩
  | 4 => ⟨S1024x8x4096, .f32⟩
  | 5 => ⟨S_, .f32⟩
  | 6 => ⟨S1024x8, .f32⟩
  | 7 => ⟨S1024x8x1, .f32⟩
  | 8 => ⟨S1024x8x1, .f32⟩
  | 9 => ⟨S_, .f32⟩
  | 10 => ⟨S1024x8x1, .f32⟩
  | 11 => ⟨S1024x8x1, .f32⟩
  | 12 => ⟨S1024x8x4096, .f32⟩
  | 13 => ⟨S1024x8x4096, .f32⟩
  | 14 => ⟨S_, .f32⟩
  | 15 => ⟨S1024, .f32⟩
  | 16 => ⟨S_, .f32⟩
  | 17 => ⟨S64, .f32⟩
  | 18 => ⟨S1024x1, .i32⟩
  | 19 => ⟨S64, .f32⟩
  | 20 => ⟨S_, .f32⟩
  | 21 => ⟨S64x8x4096, .f32⟩
  | 22 => ⟨S1024x1, .i32⟩
  | 23 => ⟨S64x8x4096, .f32⟩
  | 24 => ⟨S_, .f32⟩
  | 25 => ⟨S64, .f32⟩
  | 26 => ⟨S64, .f32⟩
  | 27 => ⟨S64x1x1, .f32⟩
  | 28 => ⟨S64x8x4096, .f32⟩
  | 29 => ⟨S64x8x4096, .f32⟩
  | 30 => ⟨S_, .f32⟩
  | 31 => ⟨S64, .f32⟩
  | 32 => ⟨S64, .i1⟩
  | 33 => ⟨S64, .f32⟩
  | 34 => ⟨S_, .f32⟩
  | 35 => ⟨S_, .f32⟩
  | 36 => ⟨S64x8x4096, .f32⟩
  | 37 => ⟨S_, .f32⟩
  | 38 => ⟨S64x8, .f32⟩
  | 39 => ⟨S64x8x8, .f32⟩
  | 40 => ⟨S64x8x1, .f32⟩
  | 41 => ⟨S64x1x8, .f32⟩
  | 42 => ⟨S64x8x8, .f32⟩
  | 43 => ⟨S64x8x8, .f32⟩
  | 44 => ⟨S64x8x8, .f32⟩
  | 45 => ⟨S_, .f32⟩
  | 46 => ⟨S64x8x8, .f32⟩
  | 47 => ⟨S64x8x8, .f32⟩
  | 48 => ⟨S64x8x8, .f32⟩
  | 49 => ⟨S_, .f32⟩
  | 50 => ⟨S64x8x8, .f32⟩
  | 51 => ⟨S64x8x8, .f32⟩
  | 52 => ⟨S64x8x8, .f32⟩
  | 53 => ⟨S_, .f32⟩
  | 54 => ⟨S8x8, .f32⟩
  | 55 => ⟨S8x8, .i32⟩
  | 56 => ⟨S_, .i32⟩
  | 57 => ⟨S8x8, .i32⟩
  | 58 => ⟨S8x8, .i32⟩
  | 59 => ⟨S8x8, .i32⟩
  | 60 => ⟨S8x8, .i1⟩
  | 61 => ⟨S_, .f32⟩
  | 62 => ⟨S8x8, .f32⟩
  | 63 => ⟨S8x8, .f32⟩
  | 64 => ⟨S_, .f32⟩
  | 65 => ⟨S8x8, .f32⟩
  | 66 => ⟨S8x8, .i1⟩
  | 67 => ⟨S64, .i1⟩
  | 68 => ⟨S64, .i32⟩
  | 69 => ⟨S_, .i32⟩
  | 70 => ⟨S_, .i32⟩
  | 71 => ⟨S64, .i32⟩
  | 72 => ⟨S_, .i32⟩
  | 73 => ⟨S28, .i32⟩
  | 74 => ⟨S_, .i32⟩
  | 75 => ⟨S_, .i32⟩
  | 76 => ⟨S64, .i32⟩
  | 77 => ⟨S64, .i32⟩
  | 78 => ⟨S_, .i32⟩
  | 79 => ⟨S64, .i32⟩
  | 80 => ⟨S64, .i1⟩
  | 81 => ⟨S_, .i32⟩
  | 82 => ⟨S64, .i32⟩
  | 83 => ⟨S64, .i32⟩
  | 84 => ⟨S64, .i32⟩
  | 85 => ⟨S64x1, .i32⟩
  | 86 => ⟨S_, .i32⟩
  | 87 => ⟨S64, .i32⟩
  | 88 => ⟨S28, .i32⟩
  | 89 => ⟨S_, .i32⟩
  | 90 => ⟨S_, .i32⟩
  | 91 => ⟨S28, .i32⟩
  | 92 => ⟨S_, .i32⟩
  | 93 => ⟨S28, .i32⟩
  | 94 => ⟨S28, .i32⟩
  | 95 => ⟨S28, .i32⟩
  | 96 => ⟨S_, .i32⟩
  | 97 => ⟨S28, .i32⟩
  | 98 => ⟨S28, .i1⟩
  | 99 => ⟨S28, .i32⟩
  | 100 => ⟨S28, .i32⟩
  | 101 => ⟨S_, .i32⟩
  | 102 => ⟨S28, .i32⟩
  | 103 => ⟨S28, .i1⟩
  | 104 => ⟨S28, .i1⟩
  | 105 => ⟨S_, .i32⟩
  | 106 => ⟨S28, .i32⟩
  | 107 => ⟨S28, .i32⟩
  | 108 => ⟨S28, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S28, .i32⟩
  | 116 => ⟨S28, .i32⟩
  | 117 => ⟨S_, .i32⟩
  | 118 => ⟨S28, .i32⟩
  | 119 => ⟨S28, .i1⟩
  | 120 => ⟨S_, .i32⟩
  | 121 => ⟨S28, .i32⟩
  | 122 => ⟨S28, .i1⟩
  | 123 => ⟨S_, .i32⟩
  | 124 => ⟨S_, .i1⟩
  | 125 => ⟨S28, .i1⟩
  | 126 => ⟨S28, .i1⟩
  | 127 => ⟨S28, .i1⟩
  | _ => ⟨S1024x8x4096, .f32⟩

abbrev hbmTy0_1 (i : Nat) : BufTy := match i % 128 with
  | 0 => ⟨S28, .i32⟩
  | 1 => ⟨S28, .i32⟩
  | 2 => ⟨S28, .i32⟩
  | 3 => ⟨S_, .i32⟩
  | 4 => ⟨S28, .i32⟩
  | 5 => ⟨S28, .i32⟩
  | 6 => ⟨S28, .i32⟩
  | 7 => ⟨S_, .i32⟩
  | 8 => ⟨S28, .i32⟩
  | 9 => ⟨S28, .i1⟩
  | 10 => ⟨S28, .i32⟩
  | 11 => ⟨S28, .i32⟩
  | 12 => ⟨S_, .i32⟩
  | 13 => ⟨S28, .i32⟩
  | 14 => ⟨S28, .i1⟩
  | 15 => ⟨S28, .i1⟩
  | 16 => ⟨S_, .i32⟩
  | 17 => ⟨S28, .i32⟩
  | 18 => ⟨S28, .i32⟩
  | 19 => ⟨S28, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S28, .i32⟩
  | 27 => ⟨S28, .i32⟩
  | 28 => ⟨S_, .i32⟩
  | 29 => ⟨S28, .i32⟩
  | 30 => ⟨S28, .i1⟩
  | 31 => ⟨S_, .i32⟩
  | 32 => ⟨S28, .i32⟩
  | 33 => ⟨S28, .i1⟩
  | 34 => ⟨S_, .i32⟩
  | 35 => ⟨S_, .i1⟩
  | 36 => ⟨S28, .i1⟩
  | 37 => ⟨S28, .i1⟩
  | 38 => ⟨S28, .i1⟩
  | 39 => ⟨S28, .i32⟩
  | 40 => ⟨S28, .i32⟩
  | 41 => ⟨S28, .i32⟩
  | 42 => ⟨S_, .i32⟩
  | 43 => ⟨S28, .i32⟩
  | 44 => ⟨S28, .i1⟩
  | 45 => ⟨S_, .i32⟩
  | 46 => ⟨S28, .i32⟩
  | 47 => ⟨S28, .i32⟩
  | 48 => ⟨S28, .i32⟩
  | 49 => ⟨S_, .i32⟩
  | 50 => ⟨S28, .i32⟩
  | 51 => ⟨S28, .i1⟩
  | 52 => ⟨S_, .i32⟩
  | 53 => ⟨S28, .i32⟩
  | 54 => ⟨S28, .i32⟩
  | 55 => ⟨S28, .i32⟩
  | 56 => ⟨S28x1, .i32⟩
  | 57 => ⟨S28x1, .i32⟩
  | 58 => ⟨S28x2, .i32⟩
  | 59 => ⟨S64x28, .f32⟩
  | 60 => ⟨S_, .f32⟩
  | 61 => ⟨S_, .f32⟩
  | 62 => ⟨S_, .f32⟩
  | 63 => ⟨S64, .f32⟩
  | 64 => ⟨S_, .f32⟩
  | 65 => ⟨S64, .f32⟩
  | 66 => ⟨S64, .f32⟩
  | 67 => ⟨S_, .f32⟩
  | 68 => ⟨S_, .f32⟩
  | 69 => ⟨S64, .f32⟩
  | 70 => ⟨S64, .f32⟩
  | 71 => ⟨S_, .f32⟩
  | 72 => ⟨S_, .f32⟩
  | 73 => ⟨S_, .f32⟩
  | 74 => ⟨S_, .f32⟩
  | 75 => ⟨S64x28, .f32⟩
  | 76 => ⟨S64x28, .f32⟩
  | 77 => ⟨S_, .f32⟩
  | 78 => ⟨S64x28, .f32⟩
  | 79 => ⟨S64x28, .f32⟩
  | 80 => ⟨S_, .f32⟩
  | 81 => ⟨S64, .f32⟩
  | 82 => ⟨S_, .f32⟩
  | 83 => ⟨S64, .f32⟩
  | 84 => ⟨S64, .f32⟩
  | 85 => ⟨S_, .f32⟩
  | 86 => ⟨S_, .f32⟩
  | 87 => ⟨S64, .f32⟩
  | 88 => ⟨S64, .f32⟩
  | 89 => ⟨S_, .f32⟩
  | 90 => ⟨S_, .f32⟩
  | 91 => ⟨S_, .f32⟩
  | 92 => ⟨S64x1x1, .i1⟩
  | 93 => ⟨S_, .f32⟩
  | 94 => ⟨S64x8x4096, .f32⟩
  | 95 => ⟨S64x8x4096, .f32⟩
  | 96 => ⟨S_, .f32⟩
  | 97 => ⟨S64x8x4096, .f32⟩
  | 98 => ⟨S64x8x4096, .f32⟩
  | 99 => ⟨S64x8x4096, .f32⟩
  | 100 => ⟨S64x8x4096, .i1⟩
  | 101 => ⟨S64x8x4096, .f32⟩
  | 102 => ⟨S64x8x4096, .f32⟩
  | 103 => ⟨S_, .f32⟩
  | 104 => ⟨S64x8, .f32⟩
  | 105 => ⟨S64x8x1, .f32⟩
  | 106 => ⟨S64x8x1, .f32⟩
  | 107 => ⟨S_, .f32⟩
  | 108 => ⟨S64x8x1, .f32⟩
  | 109 => ⟨S64x8x1, .f32⟩
  | 110 => ⟨S64x8x4096, .f32⟩
  | 111 => ⟨S64x8x4096, .f32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S1024x1, .i32⟩
  | 120 => ⟨S1024x8x4096, .f32⟩
  | 121 => ⟨S1024x8x4096, .f32⟩
  | 122 => ⟨S1024x8x4096, .f32⟩
  | 123 => ⟨S_, .f32⟩
  | 124 => ⟨S1024, .f32⟩
  | 125 => ⟨S1024, .f32⟩
  | 126 => ⟨S_, .i32⟩
  | 127 => ⟨S1024, .i32⟩
  | _ => ⟨S1024x8x4096, .f32⟩

abbrev hbmTy0_2 (i : Nat) : BufTy := match i % 128 with
  | 0 => ⟨S1024, .i1⟩
  | 1 => ⟨S_, .i32⟩
  | 2 => ⟨S1024, .i32⟩
  | 3 => ⟨S1024, .i32⟩
  | 4 => ⟨S1024, .i32⟩
  | 5 => ⟨S1024x1, .i32⟩
  | 6 => ⟨S1024, .f32⟩
  | 7 => ⟨S1024, .f32⟩
  | 8 => ⟨S_, .f32⟩
  | 9 => ⟨S1024, .f32⟩
  | 10 => ⟨S1024, .f32⟩
  | 11 => ⟨S_, .f32⟩
  | 12 => ⟨S64, .f32⟩
  | 13 => ⟨S1024x1, .i32⟩
  | 14 => ⟨S64, .f32⟩
  | 15 => ⟨S64, .f32⟩
  | 16 => ⟨S_, .f32⟩
  | 17 => ⟨S_, .f32⟩
  | 18 => ⟨S64, .f32⟩
  | 19 => ⟨S64, .f32⟩
  | 20 => ⟨S_, .f32⟩
  | 21 => ⟨S_, .f32⟩
  | 22 => ⟨S_, .f32⟩
  | 23 => ⟨S_, .f32⟩
  | 24 => ⟨S_, .f32⟩
  | _ => ⟨S1024x8x4096, .f32⟩

abbrev hbmTy (i : Nat) : BufTy := match i / 128 with
  | 0 => hbmTy0_0 i
  | 1 => hbmTy0_1 i
  | 2 => hbmTy0_2 i
  | _ => ⟨S1024x8x4096, .f32⟩

abbrev bufTy : (tb : Table) → Fin (tcTables nBuf tb) → BufTy
  | .hbm, ⟨i, _⟩ => hbmTy i
  | _, _ => ⟨S1024x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_cst : Ref sig .tc := ⟨.hbm, 61, rfl⟩
abbrev main_call0_v5 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_v1 : Ref sig .tc := ⟨.hbm, 68, rfl⟩
abbrev main_call1_call0_c : Ref sig .tc := ⟨.hbm, 69, rfl⟩
abbrev main_call1_call0_v0 : Ref sig .tc := ⟨.hbm, 70, rfl⟩
abbrev main_v42 : Ref sig .tc := ⟨.hbm, 71, rfl⟩
abbrev main_c : Ref sig .tc := ⟨.hbm, 72, rfl⟩
abbrev main_v43 : Ref sig .tc := ⟨.hbm, 73, rfl⟩
abbrev main_c_12 : Ref sig .tc := ⟨.hbm, 74, rfl⟩
abbrev main_call2_v0 : Ref sig .tc := ⟨.hbm, 75, rfl⟩
abbrev main_call2_v1 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_c_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_15 : Ref sig .tc := ⟨.hbm, 86, rfl⟩
abbrev main_v51 : Ref sig .tc := ⟨.hbm, 87, rfl⟩
abbrev main_v52 : Ref sig .tc := ⟨.hbm, 88, rfl⟩
abbrev main_call3_call0_c : Ref sig .tc := ⟨.hbm, 89, rfl⟩
abbrev main_call3_call0_v0 : Ref sig .tc := ⟨.hbm, 90, rfl⟩
abbrev main_v53 : Ref sig .tc := ⟨.hbm, 91, rfl⟩
abbrev main_c_16 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_c : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_c_0 : Ref sig .tc := ⟨.hbm, 105, rfl⟩
abbrev main_call4_v11 : Ref sig .tc := ⟨.hbm, 106, rfl⟩
abbrev main_call4_v12 : Ref sig .tc := ⟨.hbm, 107, rfl⟩
abbrev main_v54 : Ref sig .tc := ⟨.hbm, 108, rfl⟩
abbrev main_c_17 : Ref sig .tc := ⟨.hbm, 109, rfl⟩
abbrev main_call5_v0 : Ref sig .tc := ⟨.hbm, 110, rfl⟩
abbrev main_call5_c : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_c_1 : Ref sig .tc := ⟨.hbm, 117, rfl⟩
abbrev main_call5_v5 : Ref sig .tc := ⟨.hbm, 118, rfl⟩
abbrev main_call5_v6 : Ref sig .tc := ⟨.hbm, 119, rfl⟩
abbrev main_call5_c_2 : Ref sig .tc := ⟨.hbm, 120, rfl⟩
abbrev main_call5_v7 : Ref sig .tc := ⟨.hbm, 121, rfl⟩
abbrev main_call5_v8 : Ref sig .tc := ⟨.hbm, 122, rfl⟩
abbrev main_call5_c_3 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_v12 : Ref sig .tc := ⟨.hbm, 127, rfl⟩
abbrev main_call5_v13 : Ref sig .tc := ⟨.hbm, 128, rfl⟩
abbrev main_call5_v14 : Ref sig .tc := ⟨.hbm, 129, rfl⟩
abbrev main_v55 : Ref sig .tc := ⟨.hbm, 130, rfl⟩
abbrev main_c_18 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_call6_v5 : Ref sig .tc := ⟨.hbm, 137, rfl⟩
abbrev main_call6_v6 : Ref sig .tc := ⟨.hbm, 138, rfl⟩
abbrev main_call6_v7 : Ref sig .tc := ⟨.hbm, 139, rfl⟩
abbrev main_call6_c : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_c_0 : Ref sig .tc := ⟨.hbm, 144, rfl⟩
abbrev main_call6_v11 : Ref sig .tc := ⟨.hbm, 145, rfl⟩
abbrev main_call6_v12 : Ref sig .tc := ⟨.hbm, 146, rfl⟩
abbrev main_v56 : Ref sig .tc := ⟨.hbm, 147, rfl⟩
abbrev main_c_19 : Ref sig .tc := ⟨.hbm, 148, rfl⟩
abbrev main_call7_v0 : Ref sig .tc := ⟨.hbm, 149, rfl⟩
abbrev main_call7_c : Ref sig .tc := ⟨.hbm, 150, rfl⟩
abbrev main_call7_v1 : Ref sig .tc := ⟨.hbm, 151, rfl⟩
abbrev main_call7_c_0 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_call7_c_1 : Ref sig .tc := ⟨.hbm, 156, rfl⟩
abbrev main_call7_v5 : Ref sig .tc := ⟨.hbm, 157, rfl⟩
abbrev main_call7_v6 : Ref sig .tc := ⟨.hbm, 158, rfl⟩
abbrev main_call7_c_2 : Ref sig .tc := ⟨.hbm, 159, rfl⟩
abbrev main_call7_v7 : Ref sig .tc := ⟨.hbm, 160, rfl⟩
abbrev main_call7_v8 : Ref sig .tc := ⟨.hbm, 161, rfl⟩
abbrev main_call7_c_3 : Ref sig .tc := ⟨.hbm, 162, rfl⟩
abbrev main_call7_v9 : Ref sig .tc := ⟨.hbm, 163, rfl⟩
abbrev main_call7_v10 : Ref sig .tc := ⟨.hbm, 164, rfl⟩
abbrev main_call7_v11 : Ref sig .tc := ⟨.hbm, 165, rfl⟩
abbrev main_call7_v12 : Ref sig .tc := ⟨.hbm, 166, rfl⟩
abbrev main_call7_v13 : Ref sig .tc := ⟨.hbm, 167, rfl⟩
abbrev main_call7_v14 : Ref sig .tc := ⟨.hbm, 168, rfl⟩
abbrev main_v57 : Ref sig .tc := ⟨.hbm, 169, rfl⟩
abbrev main_c_20 : Ref sig .tc := ⟨.hbm, 170, rfl⟩
abbrev main_v58 : Ref sig .tc := ⟨.hbm, 171, rfl⟩
abbrev main_v59 : Ref sig .tc := ⟨.hbm, 172, rfl⟩
abbrev main_c_21 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_c_22 : Ref sig .tc := ⟨.hbm, 177, rfl⟩
abbrev main_v63 : Ref sig .tc := ⟨.hbm, 178, rfl⟩
abbrev main_v64 : Ref sig .tc := ⟨.hbm, 179, rfl⟩
abbrev main_c_23 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_cst_24 : Ref sig .tc := ⟨.hbm, 188, rfl⟩
abbrev main_v72 : Ref sig .tc := ⟨.hbm, 189, rfl⟩
abbrev main_cst_25 : Ref sig .tc := ⟨.hbm, 190, rfl⟩
abbrev main_v73 : Ref sig .tc := ⟨.hbm, 191, rfl⟩
abbrev main_cst_26 : Ref sig .tc := ⟨.hbm, 192, rfl⟩
abbrev main_v74 : Ref sig .tc := ⟨.hbm, 193, rfl⟩
abbrev main_v75 : Ref sig .tc := ⟨.hbm, 194, rfl⟩
abbrev main_cst_27 : Ref sig .tc := ⟨.hbm, 195, rfl⟩
abbrev main_call8_v0 : Ref sig .tc := ⟨.hbm, 196, rfl⟩
abbrev main_call8_v1 : Ref sig .tc := ⟨.hbm, 197, rfl⟩
abbrev main_v76 : Ref sig .tc := ⟨.hbm, 198, rfl⟩
abbrev main_cst_28 : Ref sig .tc := ⟨.hbm, 199, rfl⟩
abbrev main_v77 : Ref sig .tc := ⟨.hbm, 200, rfl⟩
abbrev main_v78 : Ref sig .tc := ⟨.hbm, 201, rfl⟩
abbrev main_cst_29 : Ref sig .tc := ⟨.hbm, 202, rfl⟩
abbrev main_v79 : Ref sig .tc := ⟨.hbm, 203, rfl⟩
abbrev main_v80 : Ref sig .tc := ⟨.hbm, 204, rfl⟩
abbrev main_call9_cst : Ref sig .tc := ⟨.hbm, 205, rfl⟩
abbrev main_call9_v0 : Ref sig .tc := ⟨.hbm, 206, rfl⟩
abbrev main_v81 : Ref sig .tc := ⟨.hbm, 207, rfl⟩
abbrev main_cst_30 : Ref sig .tc := ⟨.hbm, 208, rfl⟩
abbrev main_v82 : Ref sig .tc := ⟨.hbm, 209, rfl⟩
abbrev main_cst_31 : Ref sig .tc := ⟨.hbm, 210, rfl⟩
abbrev main_v83 : Ref sig .tc := ⟨.hbm, 211, rfl⟩
abbrev main_v84 : Ref sig .tc := ⟨.hbm, 212, rfl⟩
abbrev main_cst_32 : Ref sig .tc := ⟨.hbm, 213, rfl⟩
abbrev main_call10_v0 : Ref sig .tc := ⟨.hbm, 214, rfl⟩
abbrev main_call10_v1 : Ref sig .tc := ⟨.hbm, 215, rfl⟩
abbrev main_v85 : Ref sig .tc := ⟨.hbm, 216, rfl⟩
abbrev main_cst_33 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_cst_34 : Ref sig .tc := ⟨.hbm, 221, rfl⟩
abbrev main_v89 : Ref sig .tc := ⟨.hbm, 222, rfl⟩
abbrev main_v90 : Ref sig .tc := ⟨.hbm, 223, rfl⟩
abbrev main_cst_35 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_call11_v0 : Ref sig .tc := ⟨.hbm, 228, rfl⟩
abbrev main_v94 : Ref sig .tc := ⟨.hbm, 229, rfl⟩
abbrev main_v95 : Ref sig .tc := ⟨.hbm, 230, rfl⟩
abbrev main_cst_36 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_cst_37 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_c_38 : Ref sig .tc := ⟨.hbm, 240, rfl⟩
abbrev main_v103 : Ref sig .tc := ⟨.hbm, 241, rfl⟩
abbrev main_v104 : Ref sig .tc := ⟨.hbm, 242, rfl⟩
abbrev main_c_39 : Ref sig .tc := ⟨.hbm, 243, rfl⟩
abbrev main_v105 : Ref sig .tc := ⟨.hbm, 244, rfl⟩
abbrev main_v106 : Ref sig .tc := ⟨.hbm, 245, rfl⟩
abbrev main_v107 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_cst_40 : Ref sig .tc := ⟨.hbm, 251, rfl⟩
abbrev main_v112 : Ref sig .tc := ⟨.hbm, 252, rfl⟩
abbrev main_v113 : Ref sig .tc := ⟨.hbm, 253, rfl⟩
abbrev main_c_41 : Ref sig .tc := ⟨.hbm, 254, rfl⟩
abbrev main_v114 : Ref sig .tc := ⟨.hbm, 255, rfl⟩
abbrev main_v115 : Ref sig .tc := ⟨.hbm, 256, rfl⟩
abbrev main_c_42 : Ref sig .tc := ⟨.hbm, 257, rfl⟩
abbrev main_v116 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_call12_cst : Ref sig .tc := ⟨.hbm, 264, rfl⟩
abbrev main_call12_v0 : Ref sig .tc := ⟨.hbm, 265, rfl⟩
abbrev main_v122 : Ref sig .tc := ⟨.hbm, 266, rfl⟩
abbrev main_cst_43 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_cst_44 : Ref sig .tc := ⟨.hbm, 272, rfl⟩
abbrev main_call13_v0 : Ref sig .tc := ⟨.hbm, 273, rfl⟩
abbrev main_call13_v1 : Ref sig .tc := ⟨.hbm, 274, rfl⟩
abbrev main_v127 : Ref sig .tc := ⟨.hbm, 275, rfl⟩
abbrev main_cst_45 : Ref sig .tc := ⟨.hbm, 276, rfl⟩
abbrev main_v128 : Ref sig .tc := ⟨.hbm, 277, rfl⟩
abbrev main_cst_46 : Ref sig .tc := ⟨.hbm, 278, rfl⟩
abbrev main_v129 : Ref sig .tc := ⟨.hbm, 279, rfl⟩
abbrev main_v130 : Ref sig .tc := ⟨.hbm, 280, rfl⟩

abbrev nD : Nat := 1
abbrev τ : Topo := Topo.v7x

variable {F : FTy → Type} [FloatOps F]

class Facts₀ : Prop where
  reducesTo_S1024x8x4096_S1024x8_d2 : S1024x8x4096.ReducesTo [2] S1024x8
  h_S_ : 0 < S_.numel
  bcast_S1024x8_S1024x8x1_0_1 : S1024x8.BroadcastsInDim S1024x8x1 (![0, 1] : Fin 2 → Fin S1024x8x1.rank)
  bcast_S_S1024x8x1 : S_.BroadcastsInDim S1024x8x1 (![] : Fin 0 → Fin S1024x8x1.rank)
  bcast_S1024x8x1_S1024x8x4096_0_1_2 : S1024x8x1.BroadcastsInDim S1024x8x4096 (![0, 1, 2] : Fin 3 → Fin S1024x8x4096.rank)
  bcast_S_S1024 : S_.BroadcastsInDim S1024 (![] : Fin 0 → Fin S1024.rank)
  bcast_S_S64 : S_.BroadcastsInDim S64 (![] : Fin 0 → Fin S64.rank)
  bcast_S1024_S1024x1_0 : S1024.BroadcastsInDim S1024x1 (![0] : Fin 1 → Fin S1024x1.rank)
  bcast_S_S64x8x4096 : S_.BroadcastsInDim S64x8x4096 (![] : Fin 0 → Fin S64x8x4096.rank)
  bcast_S64_S64x1x1_0 : S64.BroadcastsInDim S64x1x1 (![0] : Fin 1 → Fin S64x1x1.rank)
  bcast_S64x1x1_S64x8x4096_0_1_2 : S64x1x1.BroadcastsInDim S64x8x4096 (![0, 1, 2] : Fin 3 → Fin S64x8x4096.rank)
  reducesTo_S64_S_d0 : S64.ReducesTo [0] S_
  reducesTo_S64x8x4096_S64x8_d2 : S64x8x4096.ReducesTo [2] S64x8
  bcast_S64x8_S64x8x1_0_1 : S64x8.BroadcastsInDim S64x8x1 (![0, 1] : Fin 2 → Fin S64x8x1.rank)
  bcast_S64x8_S64x1x8_0_2 : S64x8.BroadcastsInDim S64x1x8 (![0, 2] : Fin 2 → Fin S64x1x8.rank)
  bcast_S64x8x1_S64x8x8_0_1_2 : S64x8x1.BroadcastsInDim S64x8x8 (![0, 1, 2] : Fin 3 → Fin S64x8x8.rank)
  bcast_S64x1x8_S64x8x8_0_1_2 : S64x1x8.BroadcastsInDim S64x8x8 (![0, 1, 2] : Fin 3 → Fin S64x8x8.rank)
  bcast_S_S64x8x8 : S_.BroadcastsInDim S64x8x8 (![] : Fin 0 → Fin S64x8x8.rank)
  bcast_S_S8x8 : S_.BroadcastsInDim S8x8 (![] : Fin 0 → Fin S8x8.rank)
  shapeCasts_S8x8_S64 : S8x8.ShapeCasts S64
  natLt_1_32 : 1 < 32
  bcast_S_S_ : S_.BroadcastsInDim S_ (![] : Fin 0 → Fin S_.rank)
  reduceWindows_S64_S64_w64s1p63_0 : S64.ReduceWindows (![64] : Fin 1 → Nat) ![1] ![63] ![0] S64
  bcast_S_S28 : S_.BroadcastsInDim S28 (![] : Fin 0 → Fin S28.rank)
  bcast_S64_S64x1_0 : S64.BroadcastsInDim S64x1 (![0] : Fin 1 → Fin S64x1.rank)
  reduceWindows_S28_S28_w28s1p27_0 : S28.ReduceWindows (![28] : Fin 1 → Nat) ![1] ![27] ![0] S28
  bcast_S28_S28x1_0 : S28.BroadcastsInDim S28x1 (![0] : Fin 1 → Fin S28x1.rank)
  concatenates_S28x1_S28x1_S28x2_d1 : Shape.Concatenates [S28x1, S28x1] S28x2 1
  reducesTo_S64x28_S64_d1 : S64x28.ReducesTo [1] S64
  bcast_S_S64x28 : S_.BroadcastsInDim S64x28 (![] : Fin 0 → Fin S64x28.rank)
  bcast_S_S64x8x1 : S_.BroadcastsInDim S64x8x1 (![] : Fin 0 → Fin S64x8x1.rank)
  bcast_S64x8x1_S64x8x4096_0_1_2 : S64x8x1.BroadcastsInDim S64x8x4096 (![0, 1, 2] : Fin 3 → Fin S64x8x4096.rank)
  reducesTo_S1024x8x4096_S1024_d1_2 : S1024x8x4096.ReducesTo [1, 2] S1024
  scatter_S64_S1024x1_S1024_n_0_0_1_wf : ScatterDims.WF S64 S1024x1 S1024 [] [0] [0] 1
  scatter_S64x8x4096_S1024x1_S1024x8x4096_12_0_0_1_wf : ScatterDims.WF S64x8x4096 S1024x1 S1024x8x4096 [1, 2] [0] [0] 1
  dot_S64x8x4096_S64x8x4096_S64x8x8_2_2_1_1_0_0_wf : DotDims.WF S64x8x4096 S64x8x4096 S64x8x8 [2] [2] [1] [1] [0] [0]
  scatter_S28_S64x1_S64_n_0_0_1_wf : ScatterDims.WF S28 S64x1 S64 [] [0] [0] 1
  gather_S64x8x8_S28x2_S64x28_0_12_n_n_12_1_6411_wf : GatherDims.WF S64x8x8 S28x2 S64x28 [0] [1, 2] [] [1, 2] [] 1 ![64, 1, 1]
  gather_S64x8x4096_S1024x1_S1024x8x4096_12_0_n_n_0_1_184096_wf : GatherDims.WF S64x8x4096 S1024x1 S1024x8x4096 [1, 2] [0] [] [0] [] 1 ![1, 8, 4096]
  gather_S64_S1024x1_S1024_n_0_n_n_0_1_1_wf : GatherDims.WF S64 S1024x1 S1024 [] [0] [] [0] [] 1 ![1]

variable [Facts₀]

def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf
def scatter_S64x8x4096_S1024x1_S1024x8x4096_12_0_0_1 : ScatterDims S64x8x4096 S1024x1 S1024x8x4096 where
  updateWindowDims := [1, 2]
  insertedWindowDims := [0]
  scatterDimsToOperandDims := [0]
  indexVectorDim := 1
  wf := scatter_S64x8x4096_S1024x1_S1024x8x4096_12_0_0_1_wf
def dot_S64x8x4096_S64x8x4096_S64x8x8_2_2_1_1_0_0 : DotDims S64x8x4096 S64x8x4096 S64x8x8 where
  lhsContracting := [2]
  rhsContracting := [2]
  lhsNonContracting := [1]
  rhsNonContracting := [1]
  lhsBatch := [0]
  rhsBatch := [0]
  wf := dot_S64x8x4096_S64x8x4096_S64x8x8_2_2_1_1_0_0_wf
def scatter_S28_S64x1_S64_n_0_0_1 : ScatterDims S28 S64x1 S64 where
  updateWindowDims := []
  insertedWindowDims := [0]
  scatterDimsToOperandDims := [0]
  indexVectorDim := 1
  wf := scatter_S28_S64x1_S64_n_0_0_1_wf
def gather_S64x8x8_S28x2_S64x28_0_12_n_n_12_1_6411 : GatherDims S64x8x8 S28x2 S64x28 where
  offsetDims := [0]
  collapsedSliceDims := [1, 2]
  operandBatchingDims := []
  startIndicesBatchingDims := []
  startIndexMap := [1, 2]
  indexVectorDim := 1
  sliceSizes := ![64, 1, 1]
  wf := gather_S64x8x8_S28x2_S64x28_0_12_n_n_12_1_6411_wf
def gather_S64x8x4096_S1024x1_S1024x8x4096_12_0_n_n_0_1_184096 : GatherDims S64x8x4096 S1024x1 S1024x8x4096 where
  offsetDims := [1, 2]
  collapsedSliceDims := [0]
  operandBatchingDims := []
  startIndicesBatchingDims := []
  startIndexMap := [0]
  indexVectorDim := 1
  sliceSizes := ![1, 8, 4096]
  wf := gather_S64x8x4096_S1024x1_S1024x8x4096_12_0_n_n_0_1_184096_wf
def gather_S64_S1024x1_S1024_n_0_n_n_0_1_1 : GatherDims S64 S1024x1 S1024 where
  offsetDims := []
  collapsedSliceDims := [0]
  operandBatchingDims := []
  startIndicesBatchingDims := []
  startIndexMap := [0]
  indexVectorDim := 1
  sliceSizes := ![1]
  wf := gather_S64_S1024x1_S1024_n_0_n_n_0_1_1_wf

class Facts : Prop extends Facts₀ where

variable [Facts]
-- ==== Proof.Bits.K0.Runs.lean ====
import proofs.«411162_j38354057953796_3_alg».proof.Proof.Gen.Kernel.Launch
import proofs.«411162_j38354057953796_3_alg».proof.Proof.Gen.Kernel.Skeleton
import proofs.«411162_j38354057953796_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Contents (F : FTy → Type) : Type := (c : Dev nD) → (b : Ref sig .tc) → Buf (Elt F) ((c : Thread nD τ).loc b)

def iblk (V : Contents F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (by decide +kernel : ∀ t : Fin grid0.N, cond0 (grid0.coords t) ↔ t.val % 8 = 0)

abbrev cond7 (i : grid0.Coords) : Prop := k0_cond2 i = 1#1

theorem hcond7 : ∀ t : Fin cfg0.N, cond7 (grid0.coords t) ↔ t.val % 8 = 7 :=
  (by decide +kernel : ∀ t : Fin grid0.N, cond7 (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel

theorem idle2 : ∀ t : Fin cfg0.N, ¬cond7 (grid0.coords t) → cfg0.idle 2 (grid0.coords t) = true := by decide +kernel

theorem noFlush2 : ∀ t : Fin cfg0.N, ¬cond7 (grid0.coords t) → (cfg0.win 2).flush t = false := by decide +kernel

theorem live2 : ∀ t : Fin cfg0.N, cond7 (grid0.coords t) → cfg0.idle 2 (grid0.coords t) = false := by decide +kernel

abbrev scM : Memref sig .tc .vmem S64x8x4096 .f32 := Memref.whole cc0_scratch0

def others (c : Dev nD) : sProp 𝕄 := Pipeline.scopedRestBut spec0 c [cc0_scratch0]

theorem PhiA_eq (c : Dev nD) :
    (Pipeline.ΦA spec0 c : sProp 𝕄) = iprop(((∃ d, owns (c : Thread nD τ) scM fullShare d) ∗ others c) ∗ (∃ r, prngReg c r)) := by
  unfold Pipeline.ΦA others; rw [Pipeline.scopedRest_split_of_list spec0 c [cc0_scratch0] (by decide) (by decide)]; simp only [scM, owns_whole]; try rfl

abbrev hd0 : Rect S64x8x4096 := Rect.unit (s := S64x8x4096) ![0, 0, 0] S64x1x4096.size inb_S64x8x4096_S64x1x4096_0_0_0
abbrev hd1 : Rect S64x8x4096 := Rect.unit (s := S64x8x4096) ![0, 1, 0] S64x1x4096.size inb_S64x8x4096_S64x1x4096_0_1_0
abbrev hd2 : Rect S64x8x4096 := Rect.unit (s := S64x8x4096) ![0, 2, 0] S64x1x4096.size inb_S64x8x4096_S64x1x4096_0_2_0
abbrev hd3 : Rect S64x8x4096 := Rect.unit (s := S64x8x4096) ![0, 3, 0] S64x1x4096.size inb_S64x8x4096_S64x1x4096_0_3_0
abbrev hd4 : Rect S64x8x4096 := Rect.unit (s := S64x8x4096) ![0, 4, 0] S64x1x4096.size inb_S64x8x4096_S64x1x4096_0_4_0
abbrev hd5 : Rect S64x8x4096 := Rect.unit (s := S64x8x4096) ![0, 5, 0] S64x1x4096.size inb_S64x8x4096_S64x1x4096_0_5_0
abbrev hd6 : Rect S64x8x4096 := Rect.unit (s := S64x8x4096) ![0, 6, 0] S64x1x4096.size inb_S64x8x4096_S64x1x4096_0_6_0
abbrev hd7 : Rect S64x8x4096 := Rect.unit (s := S64x8x4096) ![0, 7, 0] S64x1x4096.size inb_S64x8x4096_S64x1x4096_0_7_0

abbrev tab : Rect S64x64 := Rect.unit (s := S64x64) ![0, 0] S64x64.size inb_S64x64_S64x64_0_0
abbrev all3 : Rect S64x8x4096 := Rect.unit (s := S64x8x4096) ![0, 0, 0] S64x8x4096.size inb_S64x8x4096_S64x8x4096_0_0_0
abbrev all4 : Rect S1x64x8x4096 := Rect.unit (s := S1x64x8x4096) ![0, 0, 0, 0] S1x64x8x4096.size inb_S1x64x8x4096_S1x64x8x4096_0_0_0_0

def upd (x0 : Vec F S64x8x4096 .f32) (x1 : Vec F S64x64 .f32) (s : Vec F S64x8x4096 .f32) : Vec F S64x8x4096 .f32 :=
  View.canon [
    ⟨hd7, k0_pay1 (k0_pay4 (View.ld x1 tab)) (k0_pay18 (View.ld x0 hd7)) (k0_pay19 (View.ld x0 hd7)) (View.ld s hd7)⟩,
    ⟨hd6, k0_pay17 (k0_pay4 (View.ld x1 tab)) (View.ld x0 hd6) (View.ld s hd6)⟩,
    ⟨hd5, k0_pay16 (k0_pay4 (View.ld x1 tab)) (k0_pay13 (View.ld x0 hd5)) (k0_pay14 (View.ld x0 hd5)) (k0_pay15 (F := F)) (View.ld s hd5)⟩,
    ⟨hd4, k0_pay12 (k0_pay4 (View.ld x1 tab)) (View.ld x0 hd4) (View.ld s hd4)⟩,
    ⟨hd3, k0_pay11 (k0_pay4 (View.ld x1 tab)) (k0_pay9 (View.ld x0 hd3)) (k0_pay10 (View.ld x0 hd3)) (View.ld s hd3)⟩,
    ⟨hd2, k0_pay8 (k0_pay4 (View.ld x1 tab)) (View.ld x0 hd2) (View.ld s hd2)⟩,
    ⟨hd1, k0_pay7 (k0_pay4 (View.ld x1 tab)) (k0_pay6 (View.ld x0 hd1)) (View.ld s hd1)⟩,
    ⟨hd0, k0_pay5 (View.ld x1 tab) (View.ld x0 hd0) (View.ld s hd0)⟩]

def out2 (s : Vec F S64x8x4096 .f32) : Vec F S1x64x8x4096 .f32 :=
  View.canon [⟨all4, k0_pay2 (View.ld s all3)⟩]

theorem cover8 (p7 : hd7.shape.Idx → Elt F EltTy.f32) (p6 : hd6.shape.Idx → Elt F EltTy.f32) (p5 : hd5.shape.Idx → Elt F EltTy.f32) (p4 : hd4.shape.Idx → Elt F EltTy.f32)
    (p3 : hd3.shape.Idx → Elt F EltTy.f32) (p2 : hd2.shape.Idx → Elt F EltTy.f32) (p1 : hd1.shape.Idx → Elt F EltTy.f32) (p0 : hd0.shape.Idx → Elt F EltTy.f32) (y : S64x8x4096.Idx) :
    ∃ pc ∈ ([⟨hd7, p7⟩, ⟨hd6, p6⟩, ⟨hd5, p5⟩, ⟨hd4, p4⟩, ⟨hd3, p3⟩, ⟨hd2, p2⟩, ⟨hd1, p1⟩, ⟨hd0, p0⟩] : List (View.Piece (Elt F) S64x8x4096 EltTy.f32)), y ∈ pc.1.set :=
  View.cover_of_tiledL (s := S64x8x4096) _ S64x1x4096.size (by sl_kernel_rfl) y

def RunSpec (c : Dev nD) (i : grid0.Coords) (x0 : Vec F S64x8x4096 .f32) (x1 : Vec F S64x64 .f32) (xo o' : Vec F S1x64x8x4096 .f32)
    (S : Memref sig .tc .vmem S64x8x4096 .f32 → sProp 𝕄) (s' : Vec F S64x8x4096 .f32) : Prop :=
  ∀ (arg2 : Memref sig .tc .vmem S64x8x4096 .f32) (harg2 : arg2.IsWhole) (arg3 : Memref sig .tc .vmem S64x64 .f32) (harg3 : arg3.IsWhole) (arg4 : Memref sig .tc .vmem S1x64x8x4096 .f32) (harg4 : arg4.IsWhole) (arg5 : Memref sig .tc .vmem S64x8x4096 .f32) (harg5 : arg5.IsWhole) (E : Set ℕ) (K : PUnit → sProp 𝕄),
    iprop(owns (c : Thread nD τ) arg2 fullShare x0 ∗ owns (c : Thread nD τ) arg3 fullShare x1 ∗ owns (c : Thread nD τ) arg4 fullShare xo ∗ S arg5
        ∗ (iprop(owns (c : Thread nD τ) arg2 fullShare x0 ∗ owns (c : Thread nD τ) arg3 fullShare x1 ∗ owns (c : Thread nD τ) arg4 fullShare o' ∗ owns (c : Thread nD τ) arg5 fullShare s') -∗ K ⟨⟩))
      ⊢ wp frame (wpE (defs₀ (F := F)) Variants.none c none) E (cc0__stats_kernel i arg2 harg2 arg3 harg3 arg4 harg4 arg5 harg5) K

end Cert.Kernel.K0

end
-- ==== Proof.Bits.K0.RunB.lean ====
import proofs.«411162_j38354057953796_3_alg».proof.Proof.Bits.K0.Runs

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB (c : Dev nD) (i : grid0.Coords) (hc0 : ¬cond0 i) (hc7 : ¬cond7 i) (x0 : Vec F S64x8x4096 .f32) (x1 : Vec F S64x64 .f32) (xo : Vec F S1x64x8x4096 .f32) (xs : Vec F S64x8x4096 .f32) :
    RunSpec c i x0 x1 xo xo (fun m => owns (c : Thread nD τ) m fullShare xs) (upd x0 x1 xs) := by
  intro arg2 harg2 arg3 harg3 arg4 harg4 arg5 harg5 E K
  simp only [cc0__stats_kernel_eq_skeleton]; unfold cc0__stats_kernel_skel
  unfold owns
  iintro ⟨⟨%f0, %hf0, H0⟩, ⟨%f1, %hf1, H1⟩, ⟨%f4, %hf4, H4⟩, ⟨%f5, %hf5, H5⟩, Hk⟩
  subst hf0; subst hf1; subst hf5
  sl_exec (disch := first | exact hc0 | exact hc7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; exact hf4
    iexact H4
  iexists _; isplitr
  swap; · iexact H5
  ipureintro
  exact View.read_writes_eq_canon _ _ _ (cover8 _ _ _ _ _ _ _ _)

end Cert.Kernel.K0

end
-- ==== Proof.Bits.K0.RunC.lean ====
import proofs.«411162_j38354057953796_3_alg».proof.Proof.Bits.K0.RunB

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runC (c : Dev nD) (i : grid0.Coords) (hc0 : ¬cond0 i) (hc7 : cond7 i) (x0 : Vec F S64x8x4096 .f32) (x1 : Vec F S64x64 .f32) (xo : Vec F S1x64x8x4096 .f32) (xs : Vec F S64x8x4096 .f32) :
    RunSpec c i x0 x1 xo (out2 (upd x0 x1 xs)) (fun m => owns (c : Thread nD τ) m fullShare xs) (upd x0 x1 xs) := by
  intro arg2 harg2 arg3 harg3 arg4 harg4 arg5 harg5 E K
  simp only [cc0__stats_kernel_eq_skeleton]; unfold cc0__stats_kernel_skel
  unfold owns
  iintro ⟨⟨%f0, %hf0, H0⟩, ⟨%f1, %hf1, H1⟩, ⟨%f4, -, H4⟩, ⟨%f5, %hf5, H5⟩, Hk⟩
  subst hf0; subst hf1; subst hf5
  sl_exec (disch := first | exact hc0 | exact hc7)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro

    have e : runC.sl.v153 c arg2 arg3 arg5 f0 f1 f5
        = View.ld (upd (View.read (Elt F) arg2.view f0) (View.read (Elt F) arg3.view f1) (View.read (Elt F) arg5.view f5)) all3 :=
      View.readCov_eq_canon_ld _ _ all3 (cover8 _ _ _ _ _ _ _ _)
    rw [e]
    exact View.read_writes_eq_canon _ _ _ (View.cover_of_tiledL (s := S1x64x8x4096) _ S1x64x8x4096.size (by sl_kernel_rfl))
  iexists _; isplitr
  swap; · iexact H5
  ipureintro
  exact View.read_writes_eq_canon _ _ _ (cover8 _ _ _ _ _ _ _ _)

end Cert.Kernel.K0

end
-- ==== Proof.Bits.K0.RunA.lean ====
import proofs.«411162_j38354057953796_3_alg».proof.Proof.Bits.K0.RunC
import Idealize.ShloMosaic.Lib.Pipeline.Value

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem canon_append_of_disj {s : Shape} {e : EltTy} (L base : List (View.Piece (Elt F) s e)) (B : LoadRect s)
    (hd : LoadRect.disjAll (L.map Sigma.fst) B = true) (j : B.shape.Idx) :
    View.canon (L ++ base) (B.idx j) = View.canon base (B.idx j) := by
  induction L with
  | nil => rfl
  | cons p L ih =>
    have h : LoadRect.disj p.1 B = true ∧ LoadRect.disjAll (L.map Sigma.fst) B = true := by
      simpa only [LoadRect.disjAll, List.map_cons, List.all_cons, Bool.and_eq_true] using hd
    rw [List.cons_append, View.canon_cons_of_not_mem p _ (LoadRect.idx_not_mem_of_disj h.1 j)]
    exact ih h.2

theorem readCov_over_whole {κ : Kind} {sp : Space} (v : View sig κ sp S64x8x4096 EltTy.f32) (L : List (View.Piece (Elt F) S64x8x4096 EltTy.f32))
    (w : S64x8x4096.Idx → Elt F EltTy.f32) (r : Rect S64x8x4096) (hlast : L.getLast? = some ⟨all3, w⟩ := by rfl)
    (hd : LoadRect.disjAll (L.dropLast.map Sigma.fst) r.toLoadRect = true := by rfl) :
    v.readCov L r.toLoadRect = View.ld w r := by
  have hL : L.dropLast ++ [⟨all3, w⟩] = L := List.dropLast_append_getLast? _ (by rw [hlast]; rfl)
  rw [View.readCov_eq_canon', ← hL]
  funext j
  rw [canon_append_of_disj _ _ _ hd j]
  exact congrFun (View.canon_unit_zero (funext fun a => by fin_cases a <;> rfl) _ w) _

theorem read_writes_eq_canon_take {κ : Kind} {sp : Space} {s : Shape} {e : EltTy} (v : View sig κ sp s e) (f : v.ty.Contents (Elt F)) (L : List (View.Piece (Elt F) s e)) (n : ℕ)
    (h : ∀ y, ∃ p ∈ L.take n, y ∈ p.1.set) : v.read (Elt F) (v.writes (Elt F) f L) = View.canon (L.take n) := by
  have := View.read_writes_eq_canon v (v.writes (Elt F) f (L.drop n)) _ h
  rwa [← View.writes_append, List.take_append_drop] at this

theorem runA (c : Dev nD) (i : grid0.Coords) (hc0 : cond0 i) (hc7 : ¬cond7 i) (x0 : Vec F S64x8x4096 .f32) (x1 : Vec F S64x64 .f32) (xo : Vec F S1x64x8x4096 .f32) :
    RunSpec c i x0 x1 xo xo (fun m => iprop(∃ d, owns (c : Thread nD τ) m fullShare d)) (upd x0 x1 (k0_pay3 (F := F))) := by
  intro arg2 harg2 arg3 harg3 arg4 harg4 arg5 harg5 E K
  simp only [cc0__stats_kernel_eq_skeleton]; unfold cc0__stats_kernel_skel
  unfold owns
  iintro ⟨⟨%f0, %hf0, H0⟩, ⟨%f1, %hf1, H1⟩, ⟨%f4, %hf4, H4⟩, ⟨%d5, %f5, -, H5⟩, Hk⟩
  subst hf0; subst hf1
  sl_exec (disch := first | exact hc0 | exact hc7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; exact hf4
    iexact H4
  iexists _; isplitr
  swap; · iexact H5
  ipureintro

  have e0 : runA.sl.v18 (F := F) c arg5 = View.ld k0_pay3 hd0 := readCov_over_whole _ _ _ hd0
  have e1 : runA.sl.v36 c arg2 arg3 arg5 f0 f1 = View.ld k0_pay3 hd1 := readCov_over_whole _ _ _ hd1
  have e2 : runA.sl.v54 c arg2 arg3 arg5 f0 f1 = View.ld k0_pay3 hd2 := readCov_over_whole _ _ _ hd2
  have e3 : runA.sl.v72 c arg2 arg3 arg5 f0 f1 = View.ld k0_pay3 hd3 := readCov_over_whole _ _ _ hd3
  have e4 : runA.sl.v90 c arg2 arg3 arg5 f0 f1 = View.ld k0_pay3 hd4 := readCov_over_whole _ _ _ hd4
  have e5 : runA.sl.v108 c arg2 arg3 arg5 f0 f1 = View.ld k0_pay3 hd5 := readCov_over_whole _ _ _ hd5
  have e6 : runA.sl.v126 c arg2 arg3 arg5 f0 f1 = View.ld k0_pay3 hd6 := readCov_over_whole _ _ _ hd6
  have e7 : runA.sl.v144 c arg2 arg3 arg5 f0 f1 = View.ld k0_pay3 hd7 := readCov_over_whole _ _ _ hd7

  refine Eq.trans (read_writes_eq_canon_take _ _ _ 8 (cover8 _ _ _ _ _ _ _ _)) ?_
  show View.canon [_, _, _, _, _, _, _, _] = _
  rw [e0, e1, e2, e3, e4, e5, e6, e7]
  rfl

end Cert.Kernel.K0

end
-- ==== Proof.Bits.K0.lean ====
import proofs.«411162_j38354057953796_3_alg».proof.Proof.Bits.K0.RunA

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def scr (V : Contents F) (c : Dev nD) : (n : ℕ) → n < cfg0.N → Vec F S64x8x4096 .f32
  | 0, hn => upd (iblk V c 0 ⟨0, hn⟩) (iblk V c 1 ⟨0, hn⟩) (k0_pay3 (F := F))
  | n + 1, hn => upd (iblk V c 0 ⟨n + 1, hn⟩) (iblk V c 1 ⟨n + 1, hn⟩)
      (if (n + 1) % 8 = 0 then (k0_pay3 (F := F)) else scr V c n (Nat.lt_of_succ_lt hn))

theorem scr_A (V : Contents F) (c : Dev nD) (t : Fin cfg0.N) (h : t.val % 8 = 0) :
    scr V c t.val t.isLt = upd (iblk V c 0 t) (iblk V c 1 t) (k0_pay3 (F := F)) := by
  obtain ⟨n, hn⟩ := t
  cases n with
  | zero => rfl
  | succ n => exact congrArg (upd _ _) (if_pos h)

theorem scr_B (V : Contents F) (c : Dev nD) (t : Fin cfg0.N) (h : ¬t.val % 8 = 0) :
    scr V c t.val t.isLt = upd (iblk V c 0 t) (iblk V c 1 t) (scr V c (t.val - 1) (Nat.lt_of_le_of_lt (Nat.sub_le _ _) t.isLt)) := by
  obtain ⟨n, hn⟩ := t
  cases n with
  | zero => exact absurd (Nat.zero_mod _) h
  | succ n => exact congrArg (upd _ _) (if_neg h)

def PhiS (V : Contents F) (c : Dev nD) : (n : ℕ) → n ≤ cfg0.N → sProp 𝕄
  | 0, _ => Pipeline.ΦA spec0 c
  | n + 1, hn => iprop((owns (c : Thread nD τ) scM fullShare (scr V c n hn) ∗ others c) ∗ (∃ r, prngReg c r))

theorem PhiS_pos (V : Contents F) (c : Dev nD) (n : ℕ) (h : n ≤ cfg0.N) (hz : n ≠ 0) :
    PhiS V c n h = iprop((owns (c : Thread nD τ) scM fullShare (scr V c (n - 1) (by omega)) ∗ others c) ∗ (∃ r, prngReg c r)) := by
  cases n with
  | zero => exact absurd rfl hz
  | succ n => rfl

def dat (V : Contents F) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (scr V c t.val t.isLt)
  Φ t := PhiS V c t.val (Nat.le_of_lt_succ t.isLt)
  q _ := fullShare
  owed _ := 0

theorem A_eq (V : Contents F) (c : Dev nD) (w : Fin cfg0.W) : (dat V c).A w = V c (Pipeline.arrRef spec0 w) := by
  dsimp only [dat]

theorem q_eq (V : Contents F) (c : Dev nD) (w : Fin cfg0.W) : (dat V c).q w = fullShare := rfl

theorem owed_eq (V : Contents F) (c : Dev nD) (x) : (dat V c).owed x = 0 := rfl

theorem recorded_eq (V : Contents F) (c : Dev nD) (x) : (dat V c).recorded x = Set.univ := rfl

theorem after2 (V : Contents F) (c : Dev nD) (t : Fin cfg0.N) : (dat V c).after 2 t = out2 (scr V c t.val t.isLt) := by dsimp only [dat]

theorem before0 (V : Contents F) (c : Dev nD) (t : Fin cfg0.N) (d) : (dat V c).before 0 t d = iblk V c 0 t :=
  ((dat V c).before_in_eq_fetched 0 rfl (fun _ => rfl) (fun _ _ _ => rfl) (fun _ => rfl) t d).trans rfl
theorem before1 (V : Contents F) (c : Dev nD) (t : Fin cfg0.N) (d) : (dat V c).before 1 t d = iblk V c 1 t :=
  ((dat V c).before_in_eq_fetched 1 rfl (fun _ => rfl) (fun _ _ _ => rfl) (fun _ => rfl) t d).trans rfl

abbrev ms0 (t : Fin cfg0.N) : Memref sig .tc .vmem S64x8x4096 .f32 := win0_0.stage (cfg0.slots t 0)
abbrev ms1 (t : Fin cfg0.N) : Memref sig .tc .vmem S64x64 .f32 := win0_1.stage (cfg0.slots t 1)
abbrev ms2 (t : Fin cfg0.N) : Memref sig .tc .vmem S1x64x8x4096 .f32 := win0_2.stage (cfg0.slots t 2)

def bodyPre (V : Contents F) (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (V : Contents F) (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem Phi_out (V : Contents F) (c : Dev nD) (t : Fin (cfg0.N + 1)) : (dat V c).Φ t ⊢ (Pipeline.ΦA spec0 c : sProp 𝕄) := by
  by_cases ht : t.val = 0
  · rw [show t = 0 from Fin.ext ht]; rfl
  rw [show (dat V c).Φ t = PhiS V c t.val (Nat.le_of_lt_succ t.isLt) from rfl, PhiS_pos V c _ _ ht, PhiA_eq]
  iintro ⟨⟨HS, Hoth⟩, Hg⟩
  iframe Hoth Hg
  iexists _; iexact HS

theorem sound_tail (V : Contents F) (c : Dev nD) (t : Fin cfg0.N) (S : Memref sig .tc .vmem S64x8x4096 .f32 → sProp 𝕄) (P2 : sProp 𝕄) (s' : Vec F S64x8x4096 .f32)
    (o' : Vec F S1x64x8x4096 .f32 → Vec F S1x64x8x4096 .f32)
    (hΦ : (dat V c).Φ t.castSucc ⊢ iprop((S scM ∗ others c) ∗ (∃ r, prngReg c r)))
    (hrun : ∀ xo, RunSpec c (grid0.coords t) (iblk V c 0 t) (iblk V c 1 t) xo (o' xo) S s')
    (h2 : ∀ d, owns (c : Thread nD τ) (ms2 t) fullShare (o' ((dat V c).before 2 t d)) ⊢ P2) :
    bodyPre V c t ⊢ wp frame (wpE (defs₀ (F := F)) Variants.none c none) Set.univ (bodyAt0 t) (fun _ =>
      iprop(((owns (c : Thread nD τ) scM fullShare s' ∗ others c) ∗ (∃ r, prngReg c r)) ∗ (dat V c).owesAt () t.castSucc
        ∗ owns (c : Thread nD τ) (ms0 t) fullShare (iblk V c 0 t) ∗ owns (c : Thread nD τ) (ms1 t) fullShare (iblk V c 1 t) ∗ P2)) := by
  unfold bodyPre
  simp only [before0, before1]
  iintro ⟨HΦ, Ho, ⟨%d0, H0⟩, ⟨%d1, H1⟩, ⟨%d2, H2⟩⟩
  icases hΦ $$ HΦ with ⟨⟨HS, Hoth⟩, Hg⟩
  iapply hrun _ _ _ _ _ _ _ _ _ Set.univ _
  iframe H0 H1 H2 HS
  iintro ⟨H0, H1, H2, HS⟩
  iframe HS Hoth Hg Ho H0 H1
  iapply h2; iexact H2

theorem sound_body (V : Contents F) (c : Dev nD) (t : Fin cfg0.N) :
    bodyPre V c t ⊢ wp frame (wpE (defs₀ (F := F)) Variants.none c none) Set.univ (bodyAt0 t) (fun _ => bodyPost V c t) := by
  unfold bodyPost
  rw [show (dat V c).owesAt () t.succ = (dat V c).owesAt () t.castSucc from rfl,
    show (dat V c).Φ t.succ = iprop((owns (c : Thread nD τ) scM fullShare (scr V c t.val t.isLt) ∗ others c) ∗ (∃ r, prngReg c r)) from rfl,
    show (dat V c).leavesExact 0 t = owns (c : Thread nD τ) (ms0 t) fullShare (iblk V c 0 t) from by unfold Dat.leavesExact; rw [live0 t]; rfl,
    show (dat V c).leavesExact 1 t = owns (c : Thread nD τ) (ms1 t) fullShare (iblk V c 1 t) from by unfold Dat.leavesExact; rw [live1 t]; rfl]
  have hi := fun hc7 => Dat.leavesExact_idle (dat V c) 2 t (idle2 t hc7) (noFlush2 t hc7)
  have hw : ∀ d, owns (c : Thread nD τ) (ms2 t) fullShare (id ((dat V c).before 2 t d)) ⊢ (iprop(∃ d, owns (c : Thread nD τ) (ms2 t) fullShare ((dat V c).before 2 t d)) : sProp 𝕄) :=
    fun d => by iintro H; iexists d; iexact H
  by_cases h0 : t.val % 8 = 0
  · have hc7 : ¬cond7 (grid0.coords t) := fun h => by have := (hcond7 t).mp h; omega
    rw [hi hc7, scr_A V c t h0]
    exact sound_tail V c t _ _ _ id (by rw [← PhiA_eq]; exact Phi_out V c _) (fun xo => runA c _ ((hcond0 t).mpr h0) hc7 _ _ xo) hw
  have hc0 : ¬cond0 (grid0.coords t) := fun h => h0 ((hcond0 t).mp h)
  have hΦ : (dat V c).Φ t.castSucc = _ := PhiS_pos V c t.val (Nat.le_of_lt t.isLt) fun h => h0 (by rw [h])
  by_cases h7 : t.val % 8 = 7
  · have hc7 := (hcond7 t).mpr h7
    rw [show (dat V c).leavesExact 2 t = owns (c : Thread nD τ) (ms2 t) fullShare ((dat V c).after 2 t) from by unfold Dat.leavesExact; rw [live2 t hc7], after2, scr_B V c t h0]
    exact sound_tail V c t _ _ _ (fun _ => out2 _) (by rw [hΦ]) (fun xo => runC c _ hc0 hc7 _ _ xo _) fun _ => by iintro H; iexact H
  have hc7 : ¬cond7 (grid0.coords t) := fun h => h7 ((hcond7 t).mp h)
  rw [hi hc7, scr_B V c t h0]
  exact sound_tail V c t _ _ _ id (by rw [hΦ]) (fun xo => runB c _ hc0 hc7 _ _ xo _) hw

theorem body_obligation (V : Contents F) (c : Dev nD) : BodyObligation (dat (F := F) V c) (defs₀ (F := F)) Variants.none () Set.univ := fun t => by
  rw [bigSep_W0, bigSep_W0]
  exact sound_body V c t

theorem hin (V : Contents F) (c : Dev nD) : (Pipeline.ΦA spec0 c : sProp 𝕄) ⊢ (dat V c).Φ 0 := by rfl

theorem hout (V : Contents F) (c : Dev nD) : (dat V c).Φ (Fin.last cfg0.N) ⊢ (Pipeline.ΦA spec0 c : sProp 𝕄) :=
  Phi_out V c _

end Cert.Kernel.K0

end
-- ==== Proof.Bits.K1.Runs.lean ====
import proofs.«411162_j38354057953796_3_alg».proof.Proof.Gen.Kernel.Launch
import proofs.«411162_j38354057953796_3_alg».proof.Proof.Gen.Kernel.Skeleton
import proofs.«411162_j38354057953796_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

abbrev Contents (F : FTy → Type) : Type := (c : Dev nD) → (b : Ref sig .tc) → Buf (Elt F) ((c : Thread nD τ).loc b)

def iblk (V : Contents F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond0 (i : grid1.Coords) : Prop := (Scalar.cmpi .ne (Scalar.extui (Scalar.cmpi .eq (BitVec.ofNat 32 (i 1).val) 0#32)) 0#32) = 1#1

theorem hcond0 : ∀ t : Fin cfg1.N, cond0 (grid1.coords t) ↔ t.val % 8 = 0 :=
  (by decide +kernel : ∀ t : Fin grid1.N, cond0 (grid1.coords t) ↔ t.val % 8 = 0)

abbrev cond1 (i : grid1.Coords) : Prop := k1_cond2 i = 1#1

theorem hcond1 : ∀ t : Fin cfg1.N, cond1 (grid1.coords t) ↔ t.val % 8 = 7 :=
  (by decide +kernel : ∀ t : Fin grid1.N, cond1 (grid1.coords t) ↔ t.val % 8 = 7)

theorem out4 : ∀ t : Fin cfg1.N, (t.val % 8 = 7 → cfg1.idle 4 (grid1.coords t) = false)
    ∧ (¬t.val % 8 = 7 → cfg1.idle 4 (grid1.coords t) = true ∧ (cfg1.win 4).flush t = false) := by decide +kernel

abbrev scM : Memref sig .tc .vmem S64x1 .f32 := Memref.whole cc1_scratch0

abbrev rH0 : Rect S64x8x4096 := Rect.unit (s := S64x8x4096) ![0, 0, 0] S64x1x4096.size inb_S64x8x4096_S64x1x4096_0_0_0
abbrev rH1 : Rect S64x8x4096 := Rect.unit (s := S64x8x4096) ![0, 1, 0] S64x1x4096.size inb_S64x8x4096_S64x1x4096_0_1_0
abbrev rH2 : Rect S64x8x4096 := Rect.unit (s := S64x8x4096) ![0, 2, 0] S64x1x4096.size inb_S64x8x4096_S64x1x4096_0_2_0
abbrev rH3 : Rect S64x8x4096 := Rect.unit (s := S64x8x4096) ![0, 3, 0] S64x1x4096.size inb_S64x8x4096_S64x1x4096_0_3_0
abbrev rH4 : Rect S64x8x4096 := Rect.unit (s := S64x8x4096) ![0, 4, 0] S64x1x4096.size inb_S64x8x4096_S64x1x4096_0_4_0
abbrev rH5 : Rect S64x8x4096 := Rect.unit (s := S64x8x4096) ![0, 5, 0] S64x1x4096.size inb_S64x8x4096_S64x1x4096_0_5_0
abbrev rH6 : Rect S64x8x4096 := Rect.unit (s := S64x8x4096) ![0, 6, 0] S64x1x4096.size inb_S64x8x4096_S64x1x4096_0_6_0
abbrev rH7 : Rect S64x8x4096 := Rect.unit (s := S64x8x4096) ![0, 7, 0] S64x1x4096.size inb_S64x8x4096_S64x1x4096_0_7_0

abbrev rOH : Rect S64x64 := Rect.unit (s := S64x64) ![0, 0] S64x64.size inb_S64x64_S64x64_0_0
abbrev rD : Rect S1x64 := Rect.unit (s := S1x64) ![0, 0] S1x64.size inb_S1x64_S1x64_0_0

theorem hz2 : (![0, 0] : Fin 2 → ℕ) = fun _ => 0 := funext fun a => by fin_cases a <;> rfl

theorem hz3 : (![0, 0, 0] : Fin 3 → ℕ) = fun _ => 0 := funext fun a => by fin_cases a <;> rfl

theorem cover0 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

def addTo (x0 : Vec F S64x8x4096 .f32) (x1 : Vec F S64x64 .f32) (x2 : Vec F S64x8x4096 .f32) (x3 : Vec F S1x64 .f32)
    (s : Vec F S64x1 .f32) : FVec F S64x1 .f32 :=
  k1_pay1 (k1_pay4 (View.ld x1 rOH)) (k1_pay5 (View.ld x1 rOH))
    (k1_pay13 (k1_pay5 (View.ld x1 rOH))
      (k1_pay10 (k1_pay5 (View.ld x1 rOH))
        (k1_pay8 (k1_pay5 (View.ld x1 rOH)) (k1_pay6 (View.ld x1 rOH) (View.ld x0 rH0) (View.ld x2 rH0)) (k1_pay7 (View.ld x0 rH1))
          (View.ld x2 rH1) (View.ld x0 rH2) (View.ld x2 rH2))
        (k1_pay9 (View.ld x0 rH3)) (View.ld x2 rH3) (View.ld x0 rH4) (View.ld x2 rH4))
      (k1_pay11 (View.ld x0 rH5)) (k1_pay12 (View.ld x2 rH5)) (View.ld x0 rH6) (View.ld x2 rH6))
    (k1_pay14 (View.ld x0 rH7)) (k1_pay15 (View.ld x2 rH7)) (constant S64x4096 .f32 0x00000000#32) (View.ld x3 rD) s

end Cert.Kernel.K1

end
-- ==== Proof.Bits.K1.RunA.lean ====
import proofs.«411162_j38354057953796_3_alg».proof.Proof.Bits.K1.Runs
import Idealize.ShloMosaic.Lib.Pipeline.TableIdle

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem run (c : Dev nD) (i : grid1.Coords) (arg2 : Memref sig .tc .vmem S64x8x4096 .f32) (harg2 : arg2.IsWhole) (arg3 : Memref sig .tc .vmem S64x64 .f32) (harg3 : arg3.IsWhole) (arg4 : Memref sig .tc .vmem S64x8x4096 .f32) (harg4 : arg4.IsWhole) (arg5 : Memref sig .tc .vmem S1x64 .f32) (harg5 : arg5.IsWhole) (arg6 : Memref sig .tc .vmem S1x64x1 .f32) (harg6 : arg6.IsWhole) (arg7 : Memref sig .tc .vmem S64x1 .f32) (harg7 : arg7.IsWhole) (h01 : cond0 i → ¬cond1 i)
    (x0 : Vec F S64x8x4096 .f32) (x1 : Vec F S64x64 .f32) (x2 : Vec F S64x8x4096 .f32) (x3 : Vec F S1x64 .f32) (xo : Vec F S1x64x1 .f32) (s : Vec F S64x1 .f32)
    (XS : Vec F S64x1 .f32) (XO : Vec F S1x64x1 .f32) (hS : XS = addTo x0 x1 x2 x3 (if cond0 i then k1_pay3 else s)) (hO : XO = if cond1 i then k1_pay2 XS else xo)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare XO ∗ owns (c : Thread nD τ) arg7 fullShare XS) -∗ K ⟨⟩))
      ⊢ wp frame (wpE (defs₀ (F := F)) Variants.none c none) E (cc1__within_kernel i arg2 harg2 arg3 harg3 arg4 harg4 arg5 harg5 arg6 harg6 arg7 harg7) K := by
  subst hO hS
  by_cases hc0 : cond0 i <;> by_cases hc1 : cond1 i
  · exact absurd hc1 (h01 hc0)
  all_goals
    first | rw [if_pos hc0] | rw [if_neg hc0]
    first | rw [if_pos hc1] | rw [if_neg hc1]
    simp only [cc1__within_kernel_eq_skeleton]; unfold cc1__within_kernel_skel
    rw [owns_eq_rep (c : Thread nD τ) arg2, owns_eq_rep (c : Thread nD τ) arg3, owns_eq_rep (c : Thread nD τ) arg4, owns_eq_rep (c : Thread nD τ) arg5]; unfold owns
    iintro ⟨H0, H1, H2, H3, ⟨%f4, %hf4, H4⟩, ⟨%f5, %hf5, H5⟩, Hk⟩
    obtain rfl := harg6.eq_unread hf4; obtain rfl := harg7.eq_unread hf5
    sl_exec (disch := first | exact hc0 | exact hc1)
    sl_step
    iapply Hk
    iframe H0 H1 H2 H3
    isplitl [H4]
    · iexists _; isplitr
      swap; · iexact H4
      ipureintro
      first
      | exact harg6.read_unread _
      | sl_unfold_run_names
        rw [View.read_writes_eq_canon _ _ _ (cover0 hz3 _ _ _), View.canon_cons_unit_zero hz3]
        unfold addTo
        simp only [View.readAt_eq_ld, View.readCov_cons_toLoadRect, View.read_rep, harg7.read_unread, View.ld_unit_zero (S := S64x1) hz2]
    iexists _; isplitr
    swap; · iexact H5
    ipureintro
    sl_unfold_run_names
    rw [View.read_writes_eq_canon _ _ _ (cover0 hz2 _ _ _), View.canon_cons_unit_zero hz2]
    unfold addTo
    simp only [View.readAt_eq_ld, View.readCov_cons_toLoadRect, View.read_rep, harg7.read_unread, View.ld_unit_zero (S := S64x1) hz2]

end Cert.Kernel.K1

end
-- ==== Proof.Bits.K1.lean ====
import proofs.«411162_j38354057953796_3_alg».proof.Proof.Bits.K1.RunA

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def acc (V : Contents F) (c : Dev nD) : (n : ℕ) → n < cfg1.N → FVec F S64x1 .f32
  | 0, hn => addTo (iblk V c 0 ⟨0, hn⟩) (iblk V c 1 ⟨0, hn⟩) (iblk V c 2 ⟨0, hn⟩) (iblk V c 3 ⟨0, hn⟩) k1_pay3
  | n + 1, hn => addTo (iblk V c 0 ⟨n + 1, hn⟩) (iblk V c 1 ⟨n + 1, hn⟩) (iblk V c 2 ⟨n + 1, hn⟩) (iblk V c 3 ⟨n + 1, hn⟩)
      (if (n + 1) % 8 = 0 then k1_pay3 else acc V c n (Nat.lt_of_succ_lt hn))

theorem acc_first (V : Contents F) (c : Dev nD) (t : Fin cfg1.N) (h : t.val % 8 = 0) :
    acc V c t.val t.isLt = addTo (iblk V c 0 t) (iblk V c 1 t) (iblk V c 2 t) (iblk V c 3 t) k1_pay3 := by
  obtain ⟨n, hn⟩ := t
  cases n with
  | zero => rfl
  | succ n => exact congrArg (addTo _ _ _ _) (if_pos h)

theorem acc_next (V : Contents F) (c : Dev nD) (t : Fin cfg1.N) (h : ¬t.val % 8 = 0) :
    acc V c t.val t.isLt = addTo (iblk V c 0 t) (iblk V c 1 t) (iblk V c 2 t) (iblk V c 3 t)
      (acc V c (t.val - 1) (Nat.lt_of_le_of_lt (Nat.sub_le _ _) t.isLt)) := by
  obtain ⟨n, hn⟩ := t
  cases n with
  | zero => exact absurd (Nat.zero_mod _) h
  | succ n => exact congrArg (addTo _ _ _ _) (if_neg h)

theorem PhiA_split (c : Dev nD) : (Pipeline.ΦA spec1 c : sProp 𝕄)
    ⊢ iprop((∃ d, owns (c : Thread nD τ) scM fullShare d) ∗ ((∃ d, owns (c : Thread nD τ) scM fullShare d) -∗ Pipeline.ΦA spec1 c)) := by
  unfold Pipeline.ΦA; rw [scopedRest1_eq]; simp only [scM, owns_whole]
  iintro ⟨⟨R0, R1, R2, R3, R4, R5, HS⟩, Hg⟩
  iframe HS
  iintro HS
  iframe R0 R1 R2 R3 R4 R5 HS Hg

def PhiS (V : Contents F) (c : Dev nD) (n : ℕ) (h : n ≤ cfg1.N) : sProp 𝕄 :=
  iprop(∃ s, ⌜∀ hn : n ≠ 0, s = acc V c (n - 1) (by omega)⌝ ∗ owns (c : Thread nD τ) scM fullShare s
    ∗ ((∃ d, owns (c : Thread nD τ) scM fullShare d) -∗ Pipeline.ΦA spec1 c))

def dat (V : Contents F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay2 (acc V c t.val t.isLt)
  Φ t := PhiS V c t.val (Nat.le_of_lt_succ t.isLt)
  q _ := fullShare
  owed _ := 0

theorem A_eq (V : Contents F) (c : Dev nD) (w : Fin cfg1.W) : (dat V c).A w = V c (Pipeline.arrRef spec1 w) := by
  dsimp only [dat]

theorem q_eq (V : Contents F) (c : Dev nD) (w : Fin cfg1.W) : (dat V c).q w = fullShare := rfl

theorem owed_eq (V : Contents F) (c : Dev nD) (x) : (dat V c).owed x = 0 := rfl

theorem recorded_eq (V : Contents F) (c : Dev nD) (x) : (dat V c).recorded x = Set.univ := rfl

theorem after_out (V : Contents F) (c : Dev nD) (t : Fin cfg1.N) : (dat V c).after 4 t = k1_pay2 (acc V c t.val t.isLt) := by dsimp only [dat]

theorem before0 (V : Contents F) (c : Dev nD) (t : Fin cfg1.N) (d) : (dat V c).before 0 t d = iblk V c 0 t :=
  (dat V c).before_in_eq_fetched 0 rfl (fun _ => rfl) (fun _ _ _ => rfl) (fun _ => rfl) t d
theorem before1 (V : Contents F) (c : Dev nD) (t : Fin cfg1.N) (d) : (dat V c).before 1 t d = iblk V c 1 t :=
  (dat V c).before_in_eq_fetched 1 rfl (fun _ => rfl) (fun _ _ _ => rfl) (fun _ => rfl) t d
theorem before2 (V : Contents F) (c : Dev nD) (t : Fin cfg1.N) (d) : (dat V c).before 2 t d = iblk V c 2 t :=
  (dat V c).before_in_eq_fetched 2 rfl (fun _ => rfl) (fun _ _ _ => rfl) (fun _ => rfl) t d
theorem before3 (V : Contents F) (c : Dev nD) (t : Fin cfg1.N) (d) : (dat V c).before 3 t d = iblk V c 3 t :=
  (dat V c).before_in_eq_fetched 3 rfl (fun _ => rfl) (fun _ _ _ => rfl) (fun _ => rfl) t d

theorem body_obligation (V : Contents F) (c : Dev nD) : BodyObligation (dat (F := F) V c) (defs₀ (F := F)) Variants.none () Set.univ := fun t => by
  rw [bigSep_W1, bigSep_W1]
  simp only [before0, before1, before2, before3]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl]
  unfold PhiS
  iintro ⟨⟨%s, %hs, HS, Hw⟩, Ho, ⟨%d0, H0⟩, ⟨%d1, H1⟩, ⟨%d2, H2⟩, ⟨%d3, H3⟩, ⟨%d4, H4⟩⟩
  have h0 := hcond0 t
  have h1 := hcond1 t
  have hS : acc V c t.val t.isLt
      = addTo (iblk V c 0 t) (iblk V c 1 t) (iblk V c 2 t) (iblk V c 3 t) (if cond0 (grid1.coords t) then k1_pay3 else s) := by
    by_cases h : t.val % 8 = 0
    · rw [acc_first V c t h, if_pos (h0.mpr h)]
    · rw [acc_next V c t h, if_neg (mt h0.mp h), hs fun e => h (by rw [e])]
  obtain ⟨XO, hO, hL⟩ : ∃ XO, XO = (if cond1 (grid1.coords t) then k1_pay2 (acc V c t.val t.isLt) else (dat V c).before 4 t d4)
      ∧ (owns (c : Thread nD τ) (win1_4.stage (cfg1.slots t 4)) fullShare XO ⊢ (dat V c).leavesExact 4 t) := by
    by_cases h : t.val % 8 = 7
    · exact ⟨_, (if_pos (h1.mpr h)).symm, Entails.of_eq (by unfold Dat.leavesExact; rw [(out4 t).1 h, after_out])⟩
    · refine ⟨_, (if_neg (mt h1.mp h)).symm, ?_⟩
      rw [Dat.leavesExact_idle (dat V c) 4 t ((out4 t).2 h).1 ((out4 t).2 h).2]
      iintro H; iexists _; iexact H
  iapply (run c (grid1.coords t) _ _ _ _ _ _ _ _ _ _ _ _ (fun a b => by have := h0.mp a; have := h1.mp b; omega)
    (iblk V c 0 t) (iblk V c 1 t) (iblk V c 2 t) (iblk V c 3 t) _ s _ XO hS hO Set.univ _)
  iframe H0 H1 H2 H3 H4 HS
  iintro ⟨H0, H1, H2, H3, H4, HS⟩
  iframe Ho
  isplitl [HS Hw]
  · iexists acc V c t.val t.isLt; iframe HS Hw; ipureintro; exact fun _ => rfl
  isplitl [H0]; · iexact H0
  isplitl [H1]; · iexact H1
  isplitl [H2]; · iexact H2
  isplitl [H3]; · iexact H3
  iapply hL; iexact H4

theorem hin (V : Contents F) (c : Dev nD) : (Pipeline.ΦA spec1 c : sProp 𝕄) ⊢ (dat V c).Φ 0 := by
  refine (PhiA_split c).trans ?_
  rw [show (dat V c).Φ 0 = PhiS V c 0 (Nat.zero_le _) from rfl]; unfold PhiS
  iintro ⟨⟨%d, HS⟩, Hw⟩
  iexists d; iframe HS Hw; ipureintro; exact fun h => absurd rfl h

theorem hout (V : Contents F) (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl]; unfold PhiS
  iintro ⟨%s, -, HS, Hw⟩
  iapply Hw; iexists s; iexact HS

end Cert.Kernel.K1

end
-- ==== Proof.Bits.RunK.lean ====
import proofs.«411162_j38354057953796_3_alg».proof.Proof.Gen.Kernel.Regions
import proofs.«411162_j38354057953796_3_alg».proof.Proof.Bits.K0
import proofs.«411162_j38354057953796_3_alg».proof.Proof.Bits.K1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.RunK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 : K0.Contents F := fun c b => V3 m c (Proc.devRef .tc b)

def W4 (c : Dev nD) : Valuation τ sig (Elt F) :=
  Pipeline.withArrays spec0 c (V3 m c) fun w => (K0.dat (E0 m) c).arrAt w cfg0.N

def outs0 : Outs (F := F) := fun _ r c => W4 m c (Proc.devRef .tc r)

abbrev E1 : K1.Contents F := fun c b => V11 m (outs0 m) c (Proc.devRef .tc b)

def W12 (c : Dev nD) : Valuation τ sig (Elt F) :=
  Pipeline.withArrays spec1 c (V11 m (outs0 m) c) fun w => (K1.dat (E1 m) c).arrAt w cfg1.N

def outs : Outs (F := F) := fun J r c => if J ≤ 4 then W4 m c (Proc.devRef .tc r) else W12 m c (Proc.devRef .tc r)

theorem outs_4 (c : Dev nD) : outs m 4 main_v8 c = (K0.dat (E0 m) c).arrAt 2 cfg0.N := by
  show W4 m c (Proc.devRef .tc (Pipeline.arrRef spec0 2)) = _
  unfold W4; exact Pipeline.withArrays_arr spec0 launch0.win.arr_inj c _ _ 2

theorem outs_12 (c : Dev nD) : outs m 12 main_v67 c = (K1.dat (E1 m) c).arrAt 4 cfg1.N := by
  show W12 m c (Proc.devRef .tc (Pipeline.arrRef spec1 4)) = _
  unfold W12; exact Pipeline.withArrays_arr spec1 launch1.win.arr_inj c _ _ 4

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => K0.dat (E0 m) c
  | ⟨1, _⟩ => fun c => K1.dat (E1 m) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

set_option backward.isDefEq.respectTransparency.types false in
-- either region over the thread state: its proof data holds full shares, owes nothing, and changes only its own arrays
def reg (p : Fin 2) (lf : Pipeline.LaunchFacts (nD := nD) (τ := τ) cfgs p) (Vin Vout : Dev nD → Valuation τ sig (Elt F))
    (hbody : ∀ c, BodyObligation (pdats m p c) (defs₀ (F := F)) Variants.none () Set.univ)
    (hq : ∀ c w, (pdats m p c).q w = fullShare) (howed : ∀ c x, (pdats m p c).owed x = 0)
    (hrec : ∀ c, (pdats m p c).recorded 0 = Set.univ)
    (hA : ∀ c w, (pdats m p c).A w = Vin c (Proc.devRef .tc (Pipeline.arrRef (cfgs p).spec w)))
    (hpref : ∀ c, (BI.emp : sProp 𝕄) ⊢ Pipeline.prefHeld (pcfgs (F := F) p).pre c (fun _ => fullShare) (adm p).1)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (out : Fin (cfgs p).W) (hio : ∀ w, w ≠ out → ((cfgs p).win w).isOut = false)
    (hV : ∀ c (b : Ref sig .tc), b ≠ Pipeline.arrRef (cfgs p).spec out → Vout c (Proc.devRef .tc b) = Vin c (Proc.devRef .tc b))
    (hO : ∀ c, (pdats m p c).arrAt out (cfgs p).N = Vout c (Proc.devRef .tc (Pipeline.arrRef (cfgs p).spec out))) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vin c (Proc.devRef .tc b)
  hentry c := by
    rw [Pipeline.ownSems0_none]
    have hsplit := Pipeline.arrays_of_unscopedBufs (p := p) (pcfgs (F := F)) adm (pdats m) lf.win lf.arr_whole c
      ((pdats m p c).share_full (hq c)) (fun b => Vin c (Proc.devRef .tc b)) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · iapply (hpref c); iempintro
    unfold Pipeline.Dat.owesAt Pipeline.owesWithin
    rw [howed c 0]
    icases HO with ⟨%W, HO⟩; iexists W; iframe HO
    ipureintro; intro x _; left
    rw [hrec c]; trivial
  hin c := by
    refine BIBase.Entails.trans ?_ (hin c)
    unfold Pipeline.ΦA
    iintro ⟨Hp, -, Hr⟩
    iframe Hr Hp
  hout c := by
    rw [Pipeline.ownSems0_none]
    refine BIBase.Entails.trans (hout c) ?_
    unfold Pipeline.ΦA
    iintro ⟨Hr, Hp⟩
    iframe Hp Hr; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vin c (Proc.devRef .tc b)) (fun b => Vout c (Proc.devRef .tc b)) ((pdats m p c).arrAt · (cfgs p).N)
      (fun w => if h : w = out then by rw [h]; exact hO c else
        (((pdats m p c).arrAt_in w (hio w h) _).trans (hA c w)).trans (hV c _ fun e => h (lf.win.arr_inj e)).symm)
      (fun b hb => hV c b fun e => hb (e ▸ Finset.mem_image.mpr ⟨out, Finset.mem_univ _, rfl⟩))
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    rw [howed c (Fin.last _)]
    icases HO with ⟨%W, -, HO⟩; iexists W; iexact HO

theorem pref_none {n : ℕ} (hn : n = 0) (Φ : Fin n → sProp 𝕄) : (BI.emp : sProp 𝕄) ⊢ bigSep Finset.univ Φ := by
  subst hn; rw [show (Finset.univ : Finset (Fin 0)) = ∅ from rfl, BI.bigSep_empty]

def reg0 : RegionSeg (pcfgs (F := F)) adm (pdats m) () defs₀ 𝒱₀ L lv 0 :=
  reg m 0 launch0 (V3 m) (V4 m (outs m)) (K0.body_obligation (E0 m)) (K0.q_eq (E0 m)) (K0.owed_eq (E0 m))
    (fun c => K0.recorded_eq (E0 m) c 0) (K0.A_eq (E0 m)) (fun c => by unfold Pipeline.prefHeld; exact pref_none rfl _)
    (K0.hin (E0 m)) (K0.hout (E0 m)) 2 (by decide) (fun c b hb => V4_of m (outs m) c b (by rw [List.mem_singleton]; exact hb))
    (fun c => by
      show _ = Function.update (V3 m c) (Proc.devRef .tc main_v8) (outs m 4 main_v8 c) (Proc.devRef .tc main_v8)
      rw [Function.update_self]; exact (outs_4 m c).symm)

def reg1 : RegionSeg (pcfgs (F := F)) adm (pdats m) () defs₀ 𝒱₀ L lv 1 :=
  reg m 1 launch1 (V11 m (outs0 m)) (V12 m (outs m)) (K1.body_obligation (E1 m)) (K1.q_eq (E1 m)) (K1.owed_eq (E1 m))
    (fun c => K1.recorded_eq (E1 m) c 0) (K1.A_eq (E1 m)) (fun c => by unfold Pipeline.prefHeld; exact pref_none rfl _)
    (K1.hin (E1 m)) (K1.hout (E1 m)) 4 (by decide) (fun c b hb => V12_of m (outs m) c b (by rw [List.mem_singleton]; exact hb))
    (fun c => by
      show _ = Function.update (V11 m (outs m) c) (Proc.devRef .tc main_v67) (outs m 12 main_v67 c) (Proc.devRef .tc main_v67)
      rw [Function.update_self]; exact (outs_12 m c).symm)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp)) _ hu₀ E
    (Pipeline.initEach L lv fun c => by
      iintro ⟨⟨-, HO, -, Hp, -⟩, -⟩; imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.Kernel.RunK

end
-- ==== Proof.K0.Runs.lean ====
import proofs.«411162_j38354057953796_3_alg».proof.Proof.Gen.KernelIdeal.Launch
import proofs.«411162_j38354057953796_3_alg».proof.Proof.Gen.KernelIdeal.Skeleton
import proofs.«411162_j38354057953796_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Contents (F : FTy → Type) : Type := (c : Dev nD) → (b : Ref sig .tc) → Buf (Elt F) ((c : Thread nD τ).loc b)

def iblk (V : Contents F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (by decide +kernel : ∀ t : Fin grid0.N, cond0 (grid0.coords t) ↔ t.val % 8 = 0)

abbrev cond7 (i : grid0.Coords) : Prop := k0_cond2 i = 1#1

theorem hcond7 : ∀ t : Fin cfg0.N, cond7 (grid0.coords t) ↔ t.val % 8 = 7 :=
  (by decide +kernel : ∀ t : Fin grid0.N, cond7 (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel

theorem idle2 : ∀ t : Fin cfg0.N, ¬cond7 (grid0.coords t) → cfg0.idle 2 (grid0.coords t) = true := by decide +kernel

theorem noFlush2 : ∀ t : Fin cfg0.N, ¬cond7 (grid0.coords t) → (cfg0.win 2).flush t = false := by decide +kernel

theorem live2 : ∀ t : Fin cfg0.N, cond7 (grid0.coords t) → cfg0.idle 2 (grid0.coords t) = false := by decide +kernel

abbrev scM : Memref sig .tc .vmem S64x8x4096 .f32 := Memref.whole cc0_scratch0

def others (c : Dev nD) : sProp 𝕄 := Pipeline.scopedRestBut spec0 c [cc0_scratch0]

theorem PhiA_eq (c : Dev nD) :
    (Pipeline.ΦA spec0 c : sProp 𝕄) = iprop(((∃ d, owns (c : Thread nD τ) scM fullShare d) ∗ others c) ∗ (∃ r, prngReg c r)) := by
  unfold Pipeline.ΦA others; rw [Pipeline.scopedRest_split_of_list spec0 c [cc0_scratch0] (by decide) (by decide)]; simp only [scM, owns_whole]; try rfl

abbrev hd0 : Rect S64x8x4096 := Rect.unit (s := S64x8x4096) ![0, 0, 0] S64x1x4096.size inb_S64x8x4096_S64x1x4096_0_0_0
abbrev hd1 : Rect S64x8x4096 := Rect.unit (s := S64x8x4096) ![0, 1, 0] S64x1x4096.size inb_S64x8x4096_S64x1x4096_0_1_0
abbrev hd2 : Rect S64x8x4096 := Rect.unit (s := S64x8x4096) ![0, 2, 0] S64x1x4096.size inb_S64x8x4096_S64x1x4096_0_2_0
abbrev hd3 : Rect S64x8x4096 := Rect.unit (s := S64x8x4096) ![0, 3, 0] S64x1x4096.size inb_S64x8x4096_S64x1x4096_0_3_0
abbrev hd4 : Rect S64x8x4096 := Rect.unit (s := S64x8x4096) ![0, 4, 0] S64x1x4096.size inb_S64x8x4096_S64x1x4096_0_4_0
abbrev hd5 : Rect S64x8x4096 := Rect.unit (s := S64x8x4096) ![0, 5, 0] S64x1x4096.size inb_S64x8x4096_S64x1x4096_0_5_0
abbrev hd6 : Rect S64x8x4096 := Rect.unit (s := S64x8x4096) ![0, 6, 0] S64x1x4096.size inb_S64x8x4096_S64x1x4096_0_6_0
abbrev hd7 : Rect S64x8x4096 := Rect.unit (s := S64x8x4096) ![0, 7, 0] S64x1x4096.size inb_S64x8x4096_S64x1x4096_0_7_0

abbrev tab : Rect S64x64 := Rect.unit (s := S64x64) ![0, 0] S64x64.size inb_S64x64_S64x64_0_0
abbrev all3 : Rect S64x8x4096 := Rect.unit (s := S64x8x4096) ![0, 0, 0] S64x8x4096.size inb_S64x8x4096_S64x8x4096_0_0_0
abbrev all4 : Rect S1x64x8x4096 := Rect.unit (s := S1x64x8x4096) ![0, 0, 0, 0] S1x64x8x4096.size inb_S1x64x8x4096_S1x64x8x4096_0_0_0_0

def upd (x0 : Vec F S64x8x4096 .f32) (x1 : Vec F S64x64 .f32) (s : Vec F S64x8x4096 .f32) : Vec F S64x8x4096 .f32 :=
  View.canon [
    ⟨hd7, k0_pay1 (k0_pay4 (View.ld x1 tab)) (k0_pay18 (View.ld x0 hd7)) (k0_pay19 (View.ld x0 hd7)) (View.ld s hd7)⟩,
    ⟨hd6, k0_pay17 (k0_pay4 (View.ld x1 tab)) (View.ld x0 hd6) (View.ld s hd6)⟩,
    ⟨hd5, k0_pay16 (k0_pay4 (View.ld x1 tab)) (k0_pay13 (View.ld x0 hd5)) (k0_pay14 (View.ld x0 hd5)) (k0_pay15 (F := F)) (View.ld s hd5)⟩,
    ⟨hd4, k0_pay12 (k0_pay4 (View.ld x1 tab)) (View.ld x0 hd4) (View.ld s hd4)⟩,
    ⟨hd3, k0_pay11 (k0_pay4 (View.ld x1 tab)) (k0_pay9 (View.ld x0 hd3)) (k0_pay10 (View.ld x0 hd3)) (View.ld s hd3)⟩,
    ⟨hd2, k0_pay8 (k0_pay4 (View.ld x1 tab)) (View.ld x0 hd2) (View.ld s hd2)⟩,
    ⟨hd1, k0_pay7 (k0_pay4 (View.ld x1 tab)) (k0_pay6 (View.ld x0 hd1)) (View.ld s hd1)⟩,
    ⟨hd0, k0_pay5 (View.ld x1 tab) (View.ld x0 hd0) (View.ld s hd0)⟩]

def out2 (s : Vec F S64x8x4096 .f32) : Vec F S1x64x8x4096 .f32 :=
  View.canon [⟨all4, k0_pay2 (View.ld s all3)⟩]

theorem cover8 (p7 : hd7.shape.Idx → Elt F EltTy.f32) (p6 : hd6.shape.Idx → Elt F EltTy.f32) (p5 : hd5.shape.Idx → Elt F EltTy.f32) (p4 : hd4.shape.Idx → Elt F EltTy.f32)
    (p3 : hd3.shape.Idx → Elt F EltTy.f32) (p2 : hd2.shape.Idx → Elt F EltTy.f32) (p1 : hd1.shape.Idx → Elt F EltTy.f32) (p0 : hd0.shape.Idx → Elt F EltTy.f32) (y : S64x8x4096.Idx) :
    ∃ pc ∈ ([⟨hd7, p7⟩, ⟨hd6, p6⟩, ⟨hd5, p5⟩, ⟨hd4, p4⟩, ⟨hd3, p3⟩, ⟨hd2, p2⟩, ⟨hd1, p1⟩, ⟨hd0, p0⟩] : List (View.Piece (Elt F) S64x8x4096 EltTy.f32)), y ∈ pc.1.set :=
  View.cover_of_tiledL (s := S64x8x4096) _ S64x1x4096.size (by sl_kernel_rfl) y

def RunSpec (c : Dev nD) (i : grid0.Coords) (x0 : Vec F S64x8x4096 .f32) (x1 : Vec F S64x64 .f32) (xo o' : Vec F S1x64x8x4096 .f32)
    (S : Memref sig .tc .vmem S64x8x4096 .f32 → sProp 𝕄) (s' : Vec F S64x8x4096 .f32) : Prop :=
  ∀ (arg2 : Memref sig .tc .vmem S64x8x4096 .f32) (harg2 : arg2.IsWhole) (arg3 : Memref sig .tc .vmem S64x64 .f32) (harg3 : arg3.IsWhole) (arg4 : Memref sig .tc .vmem S1x64x8x4096 .f32) (harg4 : arg4.IsWhole) (arg5 : Memref sig .tc .vmem S64x8x4096 .f32) (harg5 : arg5.IsWhole) (E : Set ℕ) (K : PUnit → sProp 𝕄),
    iprop(owns (c : Thread nD τ) arg2 fullShare x0 ∗ owns (c : Thread nD τ) arg3 fullShare x1 ∗ owns (c : Thread nD τ) arg4 fullShare xo ∗ S arg5
        ∗ (iprop(owns (c : Thread nD τ) arg2 fullShare x0 ∗ owns (c : Thread nD τ) arg3 fullShare x1 ∗ owns (c : Thread nD τ) arg4 fullShare o' ∗ owns (c : Thread nD τ) arg5 fullShare s') -∗ K ⟨⟩))
      ⊢ wp frame (wpE (defs₀ (F := F)) Variants.none c none) E (cc0__stats_kernel i arg2 harg2 arg3 harg3 arg4 harg4 arg5 harg5) K

end Cert.KernelIdeal.K0

end
-- ==== Proof.K0.RunB.lean ====
import proofs.«411162_j38354057953796_3_alg».proof.Proof.K0.Runs

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB (c : Dev nD) (i : grid0.Coords) (hc0 : ¬cond0 i) (hc7 : ¬cond7 i) (x0 : Vec F S64x8x4096 .f32) (x1 : Vec F S64x64 .f32) (xo : Vec F S1x64x8x4096 .f32) (xs : Vec F S64x8x4096 .f32) :
    RunSpec c i x0 x1 xo xo (fun m => owns (c : Thread nD τ) m fullShare xs) (upd x0 x1 xs) := by
  intro arg2 harg2 arg3 harg3 arg4 harg4 arg5 harg5 E K
  simp only [cc0__stats_kernel_eq_skeleton]; unfold cc0__stats_kernel_skel
  unfold owns
  iintro ⟨⟨%f0, %hf0, H0⟩, ⟨%f1, %hf1, H1⟩, ⟨%f4, %hf4, H4⟩, ⟨%f5, %hf5, H5⟩, Hk⟩
  subst hf0; subst hf1; subst hf5
  sl_exec (disch := first | exact hc0 | exact hc7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; exact hf4
    iexact H4
  iexists _; isplitr
  swap; · iexact H5
  ipureintro
  exact View.read_writes_eq_canon _ _ _ (cover8 _ _ _ _ _ _ _ _)

end Cert.KernelIdeal.K0

end
-- ==== Proof.K0.RunC.lean ====
import proofs.«411162_j38354057953796_3_alg».proof.Proof.K0.RunB

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runC (c : Dev nD) (i : grid0.Coords) (hc0 : ¬cond0 i) (hc7 : cond7 i) (x0 : Vec F S64x8x4096 .f32) (x1 : Vec F S64x64 .f32) (xo : Vec F S1x64x8x4096 .f32) (xs : Vec F S64x8x4096 .f32) :
    RunSpec c i x0 x1 xo (out2 (upd x0 x1 xs)) (fun m => owns (c : Thread nD τ) m fullShare xs) (upd x0 x1 xs) := by
  intro arg2 harg2 arg3 harg3 arg4 harg4 arg5 harg5 E K
  simp only [cc0__stats_kernel_eq_skeleton]; unfold cc0__stats_kernel_skel
  unfold owns
  iintro ⟨⟨%f0, %hf0, H0⟩, ⟨%f1, %hf1, H1⟩, ⟨%f4, -, H4⟩, ⟨%f5, %hf5, H5⟩, Hk⟩
  subst hf0; subst hf1; subst hf5
  sl_exec (disch := first | exact hc0 | exact hc7)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro

    have e : runC.sl.v153 c arg2 arg3 arg5 f0 f1 f5
        = View.ld (upd (View.read (Elt F) arg2.view f0) (View.read (Elt F) arg3.view f1) (View.read (Elt F) arg5.view f5)) all3 :=
      View.readCov_eq_canon_ld _ _ all3 (cover8 _ _ _ _ _ _ _ _)
    rw [e]
    exact View.read_writes_eq_canon _ _ _ (View.cover_of_tiledL (s := S1x64x8x4096) _ S1x64x8x4096.size (by sl_kernel_rfl))
  iexists _; isplitr
  swap; · iexact H5
  ipureintro
  exact View.read_writes_eq_canon _ _ _ (cover8 _ _ _ _ _ _ _ _)

end Cert.KernelIdeal.K0

end
-- ==== Proof.K0.RunA.lean ====
import proofs.«411162_j38354057953796_3_alg».proof.Proof.K0.RunC
import Idealize.ShloMosaic.Lib.Pipeline.Value

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem canon_append_of_disj {s : Shape} {e : EltTy} (L base : List (View.Piece (Elt F) s e)) (B : LoadRect s)
    (hd : LoadRect.disjAll (L.map Sigma.fst) B = true) (j : B.shape.Idx) :
    View.canon (L ++ base) (B.idx j) = View.canon base (B.idx j) := by
  induction L with
  | nil => rfl
  | cons p L ih =>
    have h : LoadRect.disj p.1 B = true ∧ LoadRect.disjAll (L.map Sigma.fst) B = true := by
      simpa only [LoadRect.disjAll, List.map_cons, List.all_cons, Bool.and_eq_true] using hd
    rw [List.cons_append, View.canon_cons_of_not_mem p _ (LoadRect.idx_not_mem_of_disj h.1 j)]
    exact ih h.2

theorem readCov_over_whole {κ : Kind} {sp : Space} (v : View sig κ sp S64x8x4096 EltTy.f32) (L : List (View.Piece (Elt F) S64x8x4096 EltTy.f32))
    (w : S64x8x4096.Idx → Elt F EltTy.f32) (r : Rect S64x8x4096) (hlast : L.getLast? = some ⟨all3, w⟩ := by rfl)
    (hd : LoadRect.disjAll (L.dropLast.map Sigma.fst) r.toLoadRect = true := by rfl) :
    v.readCov L r.toLoadRect = View.ld w r := by
  have hL : L.dropLast ++ [⟨all3, w⟩] = L := List.dropLast_append_getLast? _ (by rw [hlast]; rfl)
  rw [View.readCov_eq_canon', ← hL]
  funext j
  rw [canon_append_of_disj _ _ _ hd j]
  exact congrFun (View.canon_unit_zero (funext fun a => by fin_cases a <;> rfl) _ w) _

theorem read_writes_eq_canon_take {κ : Kind} {sp : Space} {s : Shape} {e : EltTy} (v : View sig κ sp s e) (f : v.ty.Contents (Elt F)) (L : List (View.Piece (Elt F) s e)) (n : ℕ)
    (h : ∀ y, ∃ p ∈ L.take n, y ∈ p.1.set) : v.read (Elt F) (v.writes (Elt F) f L) = View.canon (L.take n) := by
  have := View.read_writes_eq_canon v (v.writes (Elt F) f (L.drop n)) _ h
  rwa [← View.writes_append, List.take_append_drop] at this

theorem runA (c : Dev nD) (i : grid0.Coords) (hc0 : cond0 i) (hc7 : ¬cond7 i) (x0 : Vec F S64x8x4096 .f32) (x1 : Vec F S64x64 .f32) (xo : Vec F S1x64x8x4096 .f32) :
    RunSpec c i x0 x1 xo xo (fun m => iprop(∃ d, owns (c : Thread nD τ) m fullShare d)) (upd x0 x1 (k0_pay3 (F := F))) := by
  intro arg2 harg2 arg3 harg3 arg4 harg4 arg5 harg5 E K
  simp only [cc0__stats_kernel_eq_skeleton]; unfold cc0__stats_kernel_skel
  unfold owns
  iintro ⟨⟨%f0, %hf0, H0⟩, ⟨%f1, %hf1, H1⟩, ⟨%f4, %hf4, H4⟩, ⟨%d5, %f5, -, H5⟩, Hk⟩
  subst hf0; subst hf1
  sl_exec (disch := first | exact hc0 | exact hc7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; exact hf4
    iexact H4
  iexists _; isplitr
  swap; · iexact H5
  ipureintro

  have e0 : runA.sl.v18 (F := F) c arg5 = View.ld k0_pay3 hd0 := readCov_over_whole _ _ _ hd0
  have e1 : runA.sl.v36 c arg2 arg3 arg5 f0 f1 = View.ld k0_pay3 hd1 := readCov_over_whole _ _ _ hd1
  have e2 : runA.sl.v54 c arg2 arg3 arg5 f0 f1 = View.ld k0_pay3 hd2 := readCov_over_whole _ _ _ hd2
  have e3 : runA.sl.v72 c arg2 arg3 arg5 f0 f1 = View.ld k0_pay3 hd3 := readCov_over_whole _ _ _ hd3
  have e4 : runA.sl.v90 c arg2 arg3 arg5 f0 f1 = View.ld k0_pay3 hd4 := readCov_over_whole _ _ _ hd4
  have e5 : runA.sl.v108 c arg2 arg3 arg5 f0 f1 = View.ld k0_pay3 hd5 := readCov_over_whole _ _ _ hd5
  have e6 : runA.sl.v126 c arg2 arg3 arg5 f0 f1 = View.ld k0_pay3 hd6 := readCov_over_whole _ _ _ hd6
  have e7 : runA.sl.v144 c arg2 arg3 arg5 f0 f1 = View.ld k0_pay3 hd7 := readCov_over_whole _ _ _ hd7

  refine Eq.trans (read_writes_eq_canon_take _ _ _ 8 (cover8 _ _ _ _ _ _ _ _)) ?_
  show View.canon [_, _, _, _, _, _, _, _] = _
  rw [e0, e1, e2, e3, e4, e5, e6, e7]
  rfl

end Cert.KernelIdeal.K0

end
-- ==== Proof.K0.lean ====
import proofs.«411162_j38354057953796_3_alg».proof.Proof.K0.RunA

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def scr (V : Contents F) (c : Dev nD) : (n : ℕ) → n < cfg0.N → Vec F S64x8x4096 .f32
  | 0, hn => upd (iblk V c 0 ⟨0, hn⟩) (iblk V c 1 ⟨0, hn⟩) (k0_pay3 (F := F))
  | n + 1, hn => upd (iblk V c 0 ⟨n + 1, hn⟩) (iblk V c 1 ⟨n + 1, hn⟩)
      (if (n + 1) % 8 = 0 then (k0_pay3 (F := F)) else scr V c n (Nat.lt_of_succ_lt hn))

theorem scr_A (V : Contents F) (c : Dev nD) (t : Fin cfg0.N) (h : t.val % 8 = 0) :
    scr V c t.val t.isLt = upd (iblk V c 0 t) (iblk V c 1 t) (k0_pay3 (F := F)) := by
  obtain ⟨n, hn⟩ := t
  cases n with
  | zero => rfl
  | succ n => exact congrArg (upd _ _) (if_pos h)

theorem scr_B (V : Contents F) (c : Dev nD) (t : Fin cfg0.N) (h : ¬t.val % 8 = 0) :
    scr V c t.val t.isLt = upd (iblk V c 0 t) (iblk V c 1 t) (scr V c (t.val - 1) (Nat.lt_of_le_of_lt (Nat.sub_le _ _) t.isLt)) := by
  obtain ⟨n, hn⟩ := t
  cases n with
  | zero => exact absurd (Nat.zero_mod _) h
  | succ n => exact congrArg (upd _ _) (if_neg h)

def PhiS (V : Contents F) (c : Dev nD) : (n : ℕ) → n ≤ cfg0.N → sProp 𝕄
  | 0, _ => Pipeline.ΦA spec0 c
  | n + 1, hn => iprop((owns (c : Thread nD τ) scM fullShare (scr V c n hn) ∗ others c) ∗ (∃ r, prngReg c r))

theorem PhiS_pos (V : Contents F) (c : Dev nD) (n : ℕ) (h : n ≤ cfg0.N) (hz : n ≠ 0) :
    PhiS V c n h = iprop((owns (c : Thread nD τ) scM fullShare (scr V c (n - 1) (by omega)) ∗ others c) ∗ (∃ r, prngReg c r)) := by
  cases n with
  | zero => exact absurd rfl hz
  | succ n => rfl

def dat (V : Contents F) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (scr V c t.val t.isLt)
  Φ t := PhiS V c t.val (Nat.le_of_lt_succ t.isLt)
  q _ := fullShare
  owed _ := 0

theorem A_eq (V : Contents F) (c : Dev nD) (w : Fin cfg0.W) : (dat V c).A w = V c (Pipeline.arrRef spec0 w) := by
  dsimp only [dat]

theorem q_eq (V : Contents F) (c : Dev nD) (w : Fin cfg0.W) : (dat V c).q w = fullShare := rfl

theorem owed_eq (V : Contents F) (c : Dev nD) (x) : (dat V c).owed x = 0 := rfl

theorem recorded_eq (V : Contents F) (c : Dev nD) (x) : (dat V c).recorded x = Set.univ := rfl

theorem after2 (V : Contents F) (c : Dev nD) (t : Fin cfg0.N) : (dat V c).after 2 t = out2 (scr V c t.val t.isLt) := by dsimp only [dat]

theorem before0 (V : Contents F) (c : Dev nD) (t : Fin cfg0.N) (d) : (dat V c).before 0 t d = iblk V c 0 t :=
  ((dat V c).before_in_eq_fetched 0 rfl (fun _ => rfl) (fun _ _ _ => rfl) (fun _ => rfl) t d).trans rfl
theorem before1 (V : Contents F) (c : Dev nD) (t : Fin cfg0.N) (d) : (dat V c).before 1 t d = iblk V c 1 t :=
  ((dat V c).before_in_eq_fetched 1 rfl (fun _ => rfl) (fun _ _ _ => rfl) (fun _ => rfl) t d).trans rfl

abbrev ms0 (t : Fin cfg0.N) : Memref sig .tc .vmem S64x8x4096 .f32 := win0_0.stage (cfg0.slots t 0)
abbrev ms1 (t : Fin cfg0.N) : Memref sig .tc .vmem S64x64 .f32 := win0_1.stage (cfg0.slots t 1)
abbrev ms2 (t : Fin cfg0.N) : Memref sig .tc .vmem S1x64x8x4096 .f32 := win0_2.stage (cfg0.slots t 2)

def bodyPre (V : Contents F) (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (V : Contents F) (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem Phi_out (V : Contents F) (c : Dev nD) (t : Fin (cfg0.N + 1)) : (dat V c).Φ t ⊢ (Pipeline.ΦA spec0 c : sProp 𝕄) := by
  by_cases ht : t.val = 0
  · rw [show t = 0 from Fin.ext ht]; rfl
  rw [show (dat V c).Φ t = PhiS V c t.val (Nat.le_of_lt_succ t.isLt) from rfl, PhiS_pos V c _ _ ht, PhiA_eq]
  iintro ⟨⟨HS, Hoth⟩, Hg⟩
  iframe Hoth Hg
  iexists _; iexact HS

theorem sound_tail (V : Contents F) (c : Dev nD) (t : Fin cfg0.N) (S : Memref sig .tc .vmem S64x8x4096 .f32 → sProp 𝕄) (P2 : sProp 𝕄) (s' : Vec F S64x8x4096 .f32)
    (o' : Vec F S1x64x8x4096 .f32 → Vec F S1x64x8x4096 .f32)
    (hΦ : (dat V c).Φ t.castSucc ⊢ iprop((S scM ∗ others c) ∗ (∃ r, prngReg c r)))
    (hrun : ∀ xo, RunSpec c (grid0.coords t) (iblk V c 0 t) (iblk V c 1 t) xo (o' xo) S s')
    (h2 : ∀ d, owns (c : Thread nD τ) (ms2 t) fullShare (o' ((dat V c).before 2 t d)) ⊢ P2) :
    bodyPre V c t ⊢ wp frame (wpE (defs₀ (F := F)) Variants.none c none) Set.univ (bodyAt0 t) (fun _ =>
      iprop(((owns (c : Thread nD τ) scM fullShare s' ∗ others c) ∗ (∃ r, prngReg c r)) ∗ (dat V c).owesAt () t.castSucc
        ∗ owns (c : Thread nD τ) (ms0 t) fullShare (iblk V c 0 t) ∗ owns (c : Thread nD τ) (ms1 t) fullShare (iblk V c 1 t) ∗ P2)) := by
  unfold bodyPre
  simp only [before0, before1]
  iintro ⟨HΦ, Ho, ⟨%d0, H0⟩, ⟨%d1, H1⟩, ⟨%d2, H2⟩⟩
  icases hΦ $$ HΦ with ⟨⟨HS, Hoth⟩, Hg⟩
  iapply hrun _ _ _ _ _ _ _ _ _ Set.univ _
  iframe H0 H1 H2 HS
  iintro ⟨H0, H1, H2, HS⟩
  iframe HS Hoth Hg Ho H0 H1
  iapply h2; iexact H2

theorem sound_body (V : Contents F) (c : Dev nD) (t : Fin cfg0.N) :
    bodyPre V c t ⊢ wp frame (wpE (defs₀ (F := F)) Variants.none c none) Set.univ (bodyAt0 t) (fun _ => bodyPost V c t) := by
  unfold bodyPost
  rw [show (dat V c).owesAt () t.succ = (dat V c).owesAt () t.castSucc from rfl,
    show (dat V c).Φ t.succ = iprop((owns (c : Thread nD τ) scM fullShare (scr V c t.val t.isLt) ∗ others c) ∗ (∃ r, prngReg c r)) from rfl,
    show (dat V c).leavesExact 0 t = owns (c : Thread nD τ) (ms0 t) fullShare (iblk V c 0 t) from by unfold Dat.leavesExact; rw [live0 t]; rfl,
    show (dat V c).leavesExact 1 t = owns (c : Thread nD τ) (ms1 t) fullShare (iblk V c 1 t) from by unfold Dat.leavesExact; rw [live1 t]; rfl]
  have hi := fun hc7 => Dat.leavesExact_idle (dat V c) 2 t (idle2 t hc7) (noFlush2 t hc7)
  have hw : ∀ d, owns (c : Thread nD τ) (ms2 t) fullShare (id ((dat V c).before 2 t d)) ⊢ (iprop(∃ d, owns (c : Thread nD τ) (ms2 t) fullShare ((dat V c).before 2 t d)) : sProp 𝕄) :=
    fun d => by iintro H; iexists d; iexact H
  by_cases h0 : t.val % 8 = 0
  · have hc7 : ¬cond7 (grid0.coords t) := fun h => by have := (hcond7 t).mp h; omega
    rw [hi hc7, scr_A V c t h0]
    exact sound_tail V c t _ _ _ id (by rw [← PhiA_eq]; exact Phi_out V c _) (fun xo => runA c _ ((hcond0 t).mpr h0) hc7 _ _ xo) hw
  have hc0 : ¬cond0 (grid0.coords t) := fun h => h0 ((hcond0 t).mp h)
  have hΦ : (dat V c).Φ t.castSucc = _ := PhiS_pos V c t.val (Nat.le_of_lt t.isLt) fun h => h0 (by rw [h])
  by_cases h7 : t.val % 8 = 7
  · have hc7 := (hcond7 t).mpr h7
    rw [show (dat V c).leavesExact 2 t = owns (c : Thread nD τ) (ms2 t) fullShare ((dat V c).after 2 t) from by unfold Dat.leavesExact; rw [live2 t hc7], after2, scr_B V c t h0]
    exact sound_tail V c t _ _ _ (fun _ => out2 _) (by rw [hΦ]) (fun xo => runC c _ hc0 hc7 _ _ xo _) fun _ => by iintro H; iexact H
  have hc7 : ¬cond7 (grid0.coords t) := fun h => h7 ((hcond7 t).mp h)
  rw [hi hc7, scr_B V c t h0]
  exact sound_tail V c t _ _ _ id (by rw [hΦ]) (fun xo => runB c _ hc0 hc7 _ _ xo _) hw

theorem body_obligation (V : Contents F) (c : Dev nD) : BodyObligation (dat (F := F) V c) (defs₀ (F := F)) Variants.none () Set.univ := fun t => by
  rw [bigSep_W0, bigSep_W0]
  exact sound_body V c t

theorem hin (V : Contents F) (c : Dev nD) : (Pipeline.ΦA spec0 c : sProp 𝕄) ⊢ (dat V c).Φ 0 := by rfl

theorem hout (V : Contents F) (c : Dev nD) : (dat V c).Φ (Fin.last cfg0.N) ⊢ (Pipeline.ΦA spec0 c : sProp 𝕄) :=
  Phi_out V c _

end Cert.KernelIdeal.K0

end
-- ==== Proof.K1.Runs.lean ====
import proofs.«411162_j38354057953796_3_alg».proof.Proof.Gen.KernelIdeal.Launch
import proofs.«411162_j38354057953796_3_alg».proof.Proof.Gen.KernelIdeal.Skeleton
import proofs.«411162_j38354057953796_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

abbrev Contents (F : FTy → Type) : Type := (c : Dev nD) → (b : Ref sig .tc) → Buf (Elt F) ((c : Thread nD τ).loc b)

def iblk (V : Contents F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond0 (i : grid1.Coords) : Prop := (Scalar.cmpi .ne (Scalar.extui (Scalar.cmpi .eq (BitVec.ofNat 32 (i 1).val) 0#32)) 0#32) = 1#1

theorem hcond0 : ∀ t : Fin cfg1.N, cond0 (grid1.coords t) ↔ t.val % 8 = 0 :=
  (by decide +kernel : ∀ t : Fin grid1.N, cond0 (grid1.coords t) ↔ t.val % 8 = 0)

abbrev cond1 (i : grid1.Coords) : Prop := k1_cond2 i = 1#1

theorem hcond1 : ∀ t : Fin cfg1.N, cond1 (grid1.coords t) ↔ t.val % 8 = 7 :=
  (by decide +kernel : ∀ t : Fin grid1.N, cond1 (grid1.coords t) ↔ t.val % 8 = 7)

theorem out4 : ∀ t : Fin cfg1.N, (t.val % 8 = 7 → cfg1.idle 4 (grid1.coords t) = false)
    ∧ (¬t.val % 8 = 7 → cfg1.idle 4 (grid1.coords t) = true ∧ (cfg1.win 4).flush t = false) := by decide +kernel

abbrev scM : Memref sig .tc .vmem S64x1 .f32 := Memref.whole cc1_scratch0

abbrev rH0 : Rect S64x8x4096 := Rect.unit (s := S64x8x4096) ![0, 0, 0] S64x1x4096.size inb_S64x8x4096_S64x1x4096_0_0_0
abbrev rH1 : Rect S64x8x4096 := Rect.unit (s := S64x8x4096) ![0, 1, 0] S64x1x4096.size inb_S64x8x4096_S64x1x4096_0_1_0
abbrev rH2 : Rect S64x8x4096 := Rect.unit (s := S64x8x4096) ![0, 2, 0] S64x1x4096.size inb_S64x8x4096_S64x1x4096_0_2_0
abbrev rH3 : Rect S64x8x4096 := Rect.unit (s := S64x8x4096) ![0, 3, 0] S64x1x4096.size inb_S64x8x4096_S64x1x4096_0_3_0
abbrev rH4 : Rect S64x8x4096 := Rect.unit (s := S64x8x4096) ![0, 4, 0] S64x1x4096.size inb_S64x8x4096_S64x1x4096_0_4_0
abbrev rH5 : Rect S64x8x4096 := Rect.unit (s := S64x8x4096) ![0, 5, 0] S64x1x4096.size inb_S64x8x4096_S64x1x4096_0_5_0
abbrev rH6 : Rect S64x8x4096 := Rect.unit (s := S64x8x4096) ![0, 6, 0] S64x1x4096.size inb_S64x8x4096_S64x1x4096_0_6_0
abbrev rH7 : Rect S64x8x4096 := Rect.unit (s := S64x8x4096) ![0, 7, 0] S64x1x4096.size inb_S64x8x4096_S64x1x4096_0_7_0

abbrev rOH : Rect S64x64 := Rect.unit (s := S64x64) ![0, 0] S64x64.size inb_S64x64_S64x64_0_0
abbrev rD : Rect S1x64 := Rect.unit (s := S1x64) ![0, 0] S1x64.size inb_S1x64_S1x64_0_0

theorem hz2 : (![0, 0] : Fin 2 → ℕ) = fun _ => 0 := funext fun a => by fin_cases a <;> rfl

theorem hz3 : (![0, 0, 0] : Fin 3 → ℕ) = fun _ => 0 := funext fun a => by fin_cases a <;> rfl

theorem cover0 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

def addTo (x0 : Vec F S64x8x4096 .f32) (x1 : Vec F S64x64 .f32) (x2 : Vec F S64x8x4096 .f32) (x3 : Vec F S1x64 .f32)
    (s : Vec F S64x1 .f32) : FVec F S64x1 .f32 :=
  k1_pay1 (k1_pay4 (View.ld x1 rOH)) (k1_pay5 (View.ld x1 rOH))
    (k1_pay13 (k1_pay5 (View.ld x1 rOH))
      (k1_pay10 (k1_pay5 (View.ld x1 rOH))
        (k1_pay8 (k1_pay5 (View.ld x1 rOH)) (k1_pay6 (View.ld x1 rOH) (View.ld x0 rH0) (View.ld x2 rH0)) (k1_pay7 (View.ld x0 rH1))
          (View.ld x2 rH1) (View.ld x0 rH2) (View.ld x2 rH2))
        (k1_pay9 (View.ld x0 rH3)) (View.ld x2 rH3) (View.ld x0 rH4) (View.ld x2 rH4))
      (k1_pay11 (View.ld x0 rH5)) (k1_pay12 (View.ld x2 rH5)) (View.ld x0 rH6) (View.ld x2 rH6))
    (k1_pay14 (View.ld x0 rH7)) (k1_pay15 (View.ld x2 rH7)) (constant S64x4096 .f32 0x00000000#32) (View.ld x3 rD) s

end Cert.KernelIdeal.K1

end
-- ==== Proof.K1.RunA.lean ====
import proofs.«411162_j38354057953796_3_alg».proof.Proof.K1.Runs
import Idealize.ShloMosaic.Lib.Pipeline.TableIdle

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem run (c : Dev nD) (i : grid1.Coords) (arg2 : Memref sig .tc .vmem S64x8x4096 .f32) (harg2 : arg2.IsWhole) (arg3 : Memref sig .tc .vmem S64x64 .f32) (harg3 : arg3.IsWhole) (arg4 : Memref sig .tc .vmem S64x8x4096 .f32) (harg4 : arg4.IsWhole) (arg5 : Memref sig .tc .vmem S1x64 .f32) (harg5 : arg5.IsWhole) (arg6 : Memref sig .tc .vmem S1x64x1 .f32) (harg6 : arg6.IsWhole) (arg7 : Memref sig .tc .vmem S64x1 .f32) (harg7 : arg7.IsWhole) (h01 : cond0 i → ¬cond1 i)
    (x0 : Vec F S64x8x4096 .f32) (x1 : Vec F S64x64 .f32) (x2 : Vec F S64x8x4096 .f32) (x3 : Vec F S1x64 .f32) (xo : Vec F S1x64x1 .f32) (s : Vec F S64x1 .f32)
    (XS : Vec F S64x1 .f32) (XO : Vec F S1x64x1 .f32) (hS : XS = addTo x0 x1 x2 x3 (if cond0 i then k1_pay3 else s)) (hO : XO = if cond1 i then k1_pay2 XS else xo)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare XO ∗ owns (c : Thread nD τ) arg7 fullShare XS) -∗ K ⟨⟩))
      ⊢ wp frame (wpE (defs₀ (F := F)) Variants.none c none) E (cc1__within_kernel i arg2 harg2 arg3 harg3 arg4 harg4 arg5 harg5 arg6 harg6 arg7 harg7) K := by
  subst hO hS
  by_cases hc0 : cond0 i <;> by_cases hc1 : cond1 i
  · exact absurd hc1 (h01 hc0)
  all_goals
    first | rw [if_pos hc0] | rw [if_neg hc0]
    first | rw [if_pos hc1] | rw [if_neg hc1]
    simp only [cc1__within_kernel_eq_skeleton]; unfold cc1__within_kernel_skel
    rw [owns_eq_rep (c : Thread nD τ) arg2, owns_eq_rep (c : Thread nD τ) arg3, owns_eq_rep (c : Thread nD τ) arg4, owns_eq_rep (c : Thread nD τ) arg5]; unfold owns
    iintro ⟨H0, H1, H2, H3, ⟨%f4, %hf4, H4⟩, ⟨%f5, %hf5, H5⟩, Hk⟩
    obtain rfl := harg6.eq_unread hf4; obtain rfl := harg7.eq_unread hf5
    sl_exec (disch := first | exact hc0 | exact hc1)
    sl_step
    iapply Hk
    iframe H0 H1 H2 H3
    isplitl [H4]
    · iexists _; isplitr
      swap; · iexact H4
      ipureintro
      first
      | exact harg6.read_unread _
      | sl_unfold_run_names
        rw [View.read_writes_eq_canon _ _ _ (cover0 hz3 _ _ _), View.canon_cons_unit_zero hz3]
        unfold addTo
        simp only [View.readAt_eq_ld, View.readCov_cons_toLoadRect, View.read_rep, harg7.read_unread, View.ld_unit_zero (S := S64x1) hz2]
    iexists _; isplitr
    swap; · iexact H5
    ipureintro
    sl_unfold_run_names
    rw [View.read_writes_eq_canon _ _ _ (cover0 hz2 _ _ _), View.canon_cons_unit_zero hz2]
    unfold addTo
    simp only [View.readAt_eq_ld, View.readCov_cons_toLoadRect, View.read_rep, harg7.read_unread, View.ld_unit_zero (S := S64x1) hz2]

end Cert.KernelIdeal.K1

end
-- ==== Proof.K1.lean ====
import proofs.«411162_j38354057953796_3_alg».proof.Proof.K1.RunA

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def acc (V : Contents F) (c : Dev nD) : (n : ℕ) → n < cfg1.N → FVec F S64x1 .f32
  | 0, hn => addTo (iblk V c 0 ⟨0, hn⟩) (iblk V c 1 ⟨0, hn⟩) (iblk V c 2 ⟨0, hn⟩) (iblk V c 3 ⟨0, hn⟩) k1_pay3
  | n + 1, hn => addTo (iblk V c 0 ⟨n + 1, hn⟩) (iblk V c 1 ⟨n + 1, hn⟩) (iblk V c 2 ⟨n + 1, hn⟩) (iblk V c 3 ⟨n + 1, hn⟩)
      (if (n + 1) % 8 = 0 then k1_pay3 else acc V c n (Nat.lt_of_succ_lt hn))

theorem acc_first (V : Contents F) (c : Dev nD) (t : Fin cfg1.N) (h : t.val % 8 = 0) :
    acc V c t.val t.isLt = addTo (iblk V c 0 t) (iblk V c 1 t) (iblk V c 2 t) (iblk V c 3 t) k1_pay3 := by
  obtain ⟨n, hn⟩ := t
  cases n with
  | zero => rfl
  | succ n => exact congrArg (addTo _ _ _ _) (if_pos h)

theorem acc_next (V : Contents F) (c : Dev nD) (t : Fin cfg1.N) (h : ¬t.val % 8 = 0) :
    acc V c t.val t.isLt = addTo (iblk V c 0 t) (iblk V c 1 t) (iblk V c 2 t) (iblk V c 3 t)
      (acc V c (t.val - 1) (Nat.lt_of_le_of_lt (Nat.sub_le _ _) t.isLt)) := by
  obtain ⟨n, hn⟩ := t
  cases n with
  | zero => exact absurd (Nat.zero_mod _) h
  | succ n => exact congrArg (addTo _ _ _ _) (if_neg h)

theorem PhiA_split (c : Dev nD) : (Pipeline.ΦA spec1 c : sProp 𝕄)
    ⊢ iprop((∃ d, owns (c : Thread nD τ) scM fullShare d) ∗ ((∃ d, owns (c : Thread nD τ) scM fullShare d) -∗ Pipeline.ΦA spec1 c)) := by
  unfold Pipeline.ΦA; rw [scopedRest1_eq]; simp only [scM, owns_whole]
  iintro ⟨⟨R0, R1, R2, R3, R4, R5, HS⟩, Hg⟩
  iframe HS
  iintro HS
  iframe R0 R1 R2 R3 R4 R5 HS Hg

def PhiS (V : Contents F) (c : Dev nD) (n : ℕ) (h : n ≤ cfg1.N) : sProp 𝕄 :=
  iprop(∃ s, ⌜∀ hn : n ≠ 0, s = acc V c (n - 1) (by omega)⌝ ∗ owns (c : Thread nD τ) scM fullShare s
    ∗ ((∃ d, owns (c : Thread nD τ) scM fullShare d) -∗ Pipeline.ΦA spec1 c))

def dat (V : Contents F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay2 (acc V c t.val t.isLt)
  Φ t := PhiS V c t.val (Nat.le_of_lt_succ t.isLt)
  q _ := fullShare
  owed _ := 0

theorem A_eq (V : Contents F) (c : Dev nD) (w : Fin cfg1.W) : (dat V c).A w = V c (Pipeline.arrRef spec1 w) := by
  dsimp only [dat]

theorem q_eq (V : Contents F) (c : Dev nD) (w : Fin cfg1.W) : (dat V c).q w = fullShare := rfl

theorem owed_eq (V : Contents F) (c : Dev nD) (x) : (dat V c).owed x = 0 := rfl

theorem recorded_eq (V : Contents F) (c : Dev nD) (x) : (dat V c).recorded x = Set.univ := rfl

theorem after_out (V : Contents F) (c : Dev nD) (t : Fin cfg1.N) : (dat V c).after 4 t = k1_pay2 (acc V c t.val t.isLt) := by dsimp only [dat]

theorem before0 (V : Contents F) (c : Dev nD) (t : Fin cfg1.N) (d) : (dat V c).before 0 t d = iblk V c 0 t :=
  (dat V c).before_in_eq_fetched 0 rfl (fun _ => rfl) (fun _ _ _ => rfl) (fun _ => rfl) t d
theorem before1 (V : Contents F) (c : Dev nD) (t : Fin cfg1.N) (d) : (dat V c).before 1 t d = iblk V c 1 t :=
  (dat V c).before_in_eq_fetched 1 rfl (fun _ => rfl) (fun _ _ _ => rfl) (fun _ => rfl) t d
theorem before2 (V : Contents F) (c : Dev nD) (t : Fin cfg1.N) (d) : (dat V c).before 2 t d = iblk V c 2 t :=
  (dat V c).before_in_eq_fetched 2 rfl (fun _ => rfl) (fun _ _ _ => rfl) (fun _ => rfl) t d
theorem before3 (V : Contents F) (c : Dev nD) (t : Fin cfg1.N) (d) : (dat V c).before 3 t d = iblk V c 3 t :=
  (dat V c).before_in_eq_fetched 3 rfl (fun _ => rfl) (fun _ _ _ => rfl) (fun _ => rfl) t d

theorem body_obligation (V : Contents F) (c : Dev nD) : BodyObligation (dat (F := F) V c) (defs₀ (F := F)) Variants.none () Set.univ := fun t => by
  rw [bigSep_W1, bigSep_W1]
  simp only [before0, before1, before2, before3]
  rw [show (dat V c).owesAt () t.succ = (dat V c).owesAt () t.castSucc from rfl,
    show (dat V c).Φ t.succ = PhiS V c (t.val + 1) t.isLt from rfl,
    show (dat V c).Φ t.castSucc = PhiS V c t.val (Nat.le_of_lt t.isLt) from rfl]
  unfold PhiS
  iintro ⟨⟨%s, %hs, HS, Hw⟩, Ho, ⟨%d0, H0⟩, ⟨%d1, H1⟩, ⟨%d2, H2⟩, ⟨%d3, H3⟩, ⟨%d4, H4⟩⟩
  have h0 := hcond0 t
  have h1 := hcond1 t
  have hS : acc V c t.val t.isLt
      = addTo (iblk V c 0 t) (iblk V c 1 t) (iblk V c 2 t) (iblk V c 3 t) (if cond0 (grid1.coords t) then k1_pay3 else s) := by
    by_cases h : t.val % 8 = 0
    · rw [acc_first V c t h, if_pos (h0.mpr h)]
    · rw [acc_next V c t h, if_neg (mt h0.mp h), hs fun e => h (by rw [e])]
  obtain ⟨XO, hO, hL⟩ : ∃ XO, XO = (if cond1 (grid1.coords t) then k1_pay2 (acc V c t.val t.isLt) else (dat V c).before 4 t d4)
      ∧ (owns (c : Thread nD τ) (win1_4.stage (cfg1.slots t 4)) fullShare XO ⊢ (dat V c).leavesExact 4 t) := by
    by_cases h : t.val % 8 = 7
    · exact ⟨_, (if_pos (h1.mpr h)).symm, Entails.of_eq (by unfold Dat.leavesExact; rw [(out4 t).1 h, after_out])⟩
    · refine ⟨_, (if_neg (mt h1.mp h)).symm, ?_⟩
      rw [Dat.leavesExact_idle (dat V c) 4 t ((out4 t).2 h).1 ((out4 t).2 h).2]
      iintro H; iexists _; iexact H
  iapply (run c (grid1.coords t) _ _ _ _ _ _ _ _ _ _ _ _ (fun a b => by have := h0.mp a; have := h1.mp b; omega)
    (iblk V c 0 t) (iblk V c 1 t) (iblk V c 2 t) (iblk V c 3 t) _ s _ XO hS hO Set.univ _)
  iframe H0 H1 H2 H3 H4 HS
  iintro ⟨H0, H1, H2, H3, H4, HS⟩
  iframe Ho
  isplitl [HS Hw]
  · iexists acc V c t.val t.isLt; iframe HS Hw; ipureintro; exact fun _ => rfl
  isplitl [H0]; · iexact H0
  isplitl [H1]; · iexact H1
  isplitl [H2]; · iexact H2
  isplitl [H3]; · iexact H3
  iapply hL; iexact H4

theorem hin (V : Contents F) (c : Dev nD) : (Pipeline.ΦA spec1 c : sProp 𝕄) ⊢ (dat V c).Φ 0 := by
  refine (PhiA_split c).trans ?_
  rw [show (dat V c).Φ 0 = PhiS V c 0 (Nat.zero_le _) from rfl]; unfold PhiS
  iintro ⟨⟨%d, HS⟩, Hw⟩
  iexists d; iframe HS Hw; ipureintro; exact fun h => absurd rfl h

theorem hout (V : Contents F) (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl]; unfold PhiS
  iintro ⟨%s, -, HS, Hw⟩
  iapply Hw; iexists s; iexact HS

end Cert.KernelIdeal.K1

end
-- ==== Proof.RunK.lean ====
import proofs.«411162_j38354057953796_3_alg».proof.Proof.Gen.KernelIdeal.Regions
import proofs.«411162_j38354057953796_3_alg».proof.Proof.K0
import proofs.«411162_j38354057953796_3_alg».proof.Proof.K1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 : K0.Contents F := fun c b => V3 m c (Proc.devRef .tc b)

def W4 (c : Dev nD) : Valuation τ sig (Elt F) :=
  Pipeline.withArrays spec0 c (V3 m c) fun w => (K0.dat (E0 m) c).arrAt w cfg0.N

def outs0 : Outs (F := F) := fun _ r c => W4 m c (Proc.devRef .tc r)

abbrev E1 : K1.Contents F := fun c b => V11 m (outs0 m) c (Proc.devRef .tc b)

def W12 (c : Dev nD) : Valuation τ sig (Elt F) :=
  Pipeline.withArrays spec1 c (V11 m (outs0 m) c) fun w => (K1.dat (E1 m) c).arrAt w cfg1.N

def outs : Outs (F := F) := fun J r c => if J ≤ 4 then W4 m c (Proc.devRef .tc r) else W12 m c (Proc.devRef .tc r)

theorem outs_4 (c : Dev nD) : outs m 4 main_v8 c = (K0.dat (E0 m) c).arrAt 2 cfg0.N := by
  show W4 m c (Proc.devRef .tc (Pipeline.arrRef spec0 2)) = _
  unfold W4; exact Pipeline.withArrays_arr spec0 launch0.win.arr_inj c _ _ 2

theorem outs_12 (c : Dev nD) : outs m 12 main_v67 c = (K1.dat (E1 m) c).arrAt 4 cfg1.N := by
  show W12 m c (Proc.devRef .tc (Pipeline.arrRef spec1 4)) = _
  unfold W12; exact Pipeline.withArrays_arr spec1 launch1.win.arr_inj c _ _ 4

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => K0.dat (E0 m) c
  | ⟨1, _⟩ => fun c => K1.dat (E1 m) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

set_option backward.isDefEq.respectTransparency.types false in
-- either region over the thread state: its proof data holds full shares, owes nothing, and changes only its own arrays
def reg (p : Fin 2) (lf : Pipeline.LaunchFacts (nD := nD) (τ := τ) cfgs p) (Vin Vout : Dev nD → Valuation τ sig (Elt F))
    (hbody : ∀ c, BodyObligation (pdats m p c) (defs₀ (F := F)) Variants.none () Set.univ)
    (hq : ∀ c w, (pdats m p c).q w = fullShare) (howed : ∀ c x, (pdats m p c).owed x = 0)
    (hrec : ∀ c, (pdats m p c).recorded 0 = Set.univ)
    (hA : ∀ c w, (pdats m p c).A w = Vin c (Proc.devRef .tc (Pipeline.arrRef (cfgs p).spec w)))
    (hpref : ∀ c, (BI.emp : sProp 𝕄) ⊢ Pipeline.prefHeld (pcfgs (F := F) p).pre c (fun _ => fullShare) (adm p).1)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (out : Fin (cfgs p).W) (hio : ∀ w, w ≠ out → ((cfgs p).win w).isOut = false)
    (hV : ∀ c (b : Ref sig .tc), b ≠ Pipeline.arrRef (cfgs p).spec out → Vout c (Proc.devRef .tc b) = Vin c (Proc.devRef .tc b))
    (hO : ∀ c, (pdats m p c).arrAt out (cfgs p).N = Vout c (Proc.devRef .tc (Pipeline.arrRef (cfgs p).spec out))) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vin c (Proc.devRef .tc b)
  hentry c := by
    rw [Pipeline.ownSems0_none]
    have hsplit := Pipeline.arrays_of_unscopedBufs (p := p) (pcfgs (F := F)) adm (pdats m) lf.win lf.arr_whole c
      ((pdats m p c).share_full (hq c)) (fun b => Vin c (Proc.devRef .tc b)) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · iapply (hpref c); iempintro
    unfold Pipeline.Dat.owesAt Pipeline.owesWithin
    rw [howed c 0]
    icases HO with ⟨%W, HO⟩; iexists W; iframe HO
    ipureintro; intro x _; left
    rw [hrec c]; trivial
  hin c := by
    refine BIBase.Entails.trans ?_ (hin c)
    unfold Pipeline.ΦA
    iintro ⟨Hp, -, Hr⟩
    iframe Hr Hp
  hout c := by
    rw [Pipeline.ownSems0_none]
    refine BIBase.Entails.trans (hout c) ?_
    unfold Pipeline.ΦA
    iintro ⟨Hr, Hp⟩
    iframe Hp Hr; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vin c (Proc.devRef .tc b)) (fun b => Vout c (Proc.devRef .tc b)) ((pdats m p c).arrAt · (cfgs p).N)
      (fun w => if h : w = out then by rw [h]; exact hO c else
        (((pdats m p c).arrAt_in w (hio w h) _).trans (hA c w)).trans (hV c _ fun e => h (lf.win.arr_inj e)).symm)
      (fun b hb => hV c b fun e => hb (e ▸ Finset.mem_image.mpr ⟨out, Finset.mem_univ _, rfl⟩))
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    rw [howed c (Fin.last _)]
    icases HO with ⟨%W, -, HO⟩; iexists W; iexact HO

theorem pref_none {n : ℕ} (hn : n = 0) (Φ : Fin n → sProp 𝕄) : (BI.emp : sProp 𝕄) ⊢ bigSep Finset.univ Φ := by
  subst hn; rw [show (Finset.univ : Finset (Fin 0)) = ∅ from rfl, BI.bigSep_empty]

def reg0 : RegionSeg (pcfgs (F := F)) adm (pdats m) () defs₀ 𝒱₀ L lv 0 :=
  reg m 0 launch0 (V3 m) (V4 m (outs m)) (K0.body_obligation (E0 m)) (K0.q_eq (E0 m)) (K0.owed_eq (E0 m))
    (fun c => K0.recorded_eq (E0 m) c 0) (K0.A_eq (E0 m)) (fun c => by unfold Pipeline.prefHeld; exact pref_none rfl _)
    (K0.hin (E0 m)) (K0.hout (E0 m)) 2 (by decide) (fun c b hb => V4_of m (outs m) c b (by rw [List.mem_singleton]; exact hb))
    (fun c => by
      show _ = Function.update (V3 m c) (Proc.devRef .tc main_v8) (outs m 4 main_v8 c) (Proc.devRef .tc main_v8)
      rw [Function.update_self]; exact (outs_4 m c).symm)

def reg1 : RegionSeg (pcfgs (F := F)) adm (pdats m) () defs₀ 𝒱₀ L lv 1 :=
  reg m 1 launch1 (V11 m (outs0 m)) (V12 m (outs m)) (K1.body_obligation (E1 m)) (K1.q_eq (E1 m)) (K1.owed_eq (E1 m))
    (fun c => K1.recorded_eq (E1 m) c 0) (K1.A_eq (E1 m)) (fun c => by unfold Pipeline.prefHeld; exact pref_none rfl _)
    (K1.hin (E1 m)) (K1.hout (E1 m)) 4 (by decide) (fun c b hb => V12_of m (outs m) c b (by rw [List.mem_singleton]; exact hb))
    (fun c => by
      show _ = Function.update (V11 m (outs m) c) (Proc.devRef .tc main_v67) (outs m 12 main_v67 c) (Proc.devRef .tc main_v67)
      rw [Function.update_self]; exact (outs_12 m c).symm)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp)) _ hu₀ E
    (Pipeline.initEach L lv fun c => by
      iintro ⟨⟨-, HO, -, Hp, -⟩, -⟩; imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.KernelIdeal.RunK

end
-- ==== Proof.RunKVal.lean ====
import proofs.«411162_j38354057953796_3_alg».proof.Proof.RunK

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (V15 m (outs m) c) ∗ ∃ r, prngReg c r)

theorem hlast (c : Dev nD) :
    iprop(StableHlo.held (c : Thread nD τ) (Pipeline.ucRefs τ sig) (V15 m (outs m) c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := hu₀)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V15 m (outs m) c) s')
      iframe Hh HSI)
    (hQ := fun s h c => h c)

theorem run_val : θ_run defs (onTc (τ := τ) (main (F := F))) ⟨m, fun _ => 0, ρ⟩ (fun r => ∀ c : Dev nD,
      r.2.mem ((c.tc : Thread nD τ).loc main_v78) = V15 m (outs m) c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v78 (by decide)),
     (h c _ (mem_uc main_arg0 (by decide))).trans (V15_main_arg0 m (outs m) c),
     (h c _ (mem_uc main_arg1 (by decide))).trans (V15_main_arg1 m (outs m) c),
     (h c _ (mem_uc main_arg2 (by decide))).trans (V15_main_arg2 m (outs m) c),
     (h c _ (mem_uc main_arg3 (by decide))).trans (V15_main_arg3 m (outs m) c)⟩) (run_all m ρ)

end Cert.KernelIdeal.RunK

end
-- ==== Proof.Spec.lean ====
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SP : Shape := ⟨3, ![1024, 8, 4096]⟩
abbrev SL : Shape := ⟨1, ![1024]⟩
abbrev SC : Shape := ⟨3, ![64, 8, 4096]⟩
abbrev SD : Shape := ⟨1, ![64]⟩

def eps : EReal := Ideal.ofBits .f32 0x2B8CBCCC#32

def pn (P : SP.Idx → EReal) (b : Fin 1024) (h : Fin 8) (f : Fin 4096) : EReal :=
  Ideal.div (P (ix3 b h f)) (max (Ideal.sqrt (∑ g : Fin 4096, P (ix3 b h g) * P (ix3 b h g))) eps)

abbrev hit (lab : SL.Idx → BitVec 32) (b : Fin 1024) (k : Fin 64) : Prop := (lab (ix1 b)).toInt = (k.val : ℤ)

def half (a : Fin 2) (b : Fin 512) : Fin 1024 := ⟨512 * a.val + b.val, by omega⟩

def oh (lab : SL.Idx → BitVec 32) (b : Fin 1024) (k : Fin 64) : EReal := if hit lab b k then 1 else 0

def cnt (lab : SL.Idx → BitVec 32) (k : Fin 64) : EReal := ∑ b : Fin 1024, if hit lab b k then (1 : EReal) else 0

def sums (P : SP.Idx → EReal) (lab : SL.Idx → BitVec 32) (k : Fin 64) (h : Fin 8) (f : Fin 4096) : EReal :=
  ∑ b : Fin 1024, if hit lab b k then pn P b h f else 0

def sumsHalf (P : SP.Idx → EReal) (lab : SL.Idx → BitVec 32) (a : Fin 2) (k : Fin 64) (h : Fin 8) (f : Fin 4096) : EReal :=
  ∑ b : Fin 512, if hit lab (half a b) k then pn P (half a b) h f else 0

def resid (P : SP.Idx → EReal) (Cn : SC.Idx → EReal) (dw : SD.Idx → EReal) (b : Fin 1024) (k : Fin 64) : EReal :=
  max (Ideal.sqrt (∑ h : Fin 8, ∑ f : Fin 4096, (pn P b h f - Cn (ix3 k h f)) * (pn P b h f - Cn (ix3 k h f))) - dw (ix1 k)) 0

def within (P : SP.Idx → EReal) (lab : SL.Idx → BitVec 32) (Cn : SC.Idx → EReal) (dw : SD.Idx → EReal) (k : Fin 64) : EReal :=
  ∑ b : Fin 1024, if hit lab b k then resid P Cn dw b k else 0

def withinHalf (P : SP.Idx → EReal) (lab : SL.Idx → BitVec 32) (Cn : SC.Idx → EReal) (dw : SD.Idx → EReal) (a : Fin 2) (k : Fin 64) : EReal :=
  ∑ b : Fin 512, if hit lab (half a b) k then resid P Cn dw (half a b) k else 0

theorem sum_halves (g : Fin 1024 → EReal) : ∑ b : Fin 1024, g b = (∑ b : Fin 512, g (half 0 b)) + ∑ b : Fin 512, g (half 1 b) := by
  have h := Fin.sum_univ_add (a := 512) (b := 512) (fun i : Fin (512 + 512) => g ⟨i.val, by omega⟩)
  have e0 : ∀ b : Fin 512, (⟨(Fin.castAdd 512 b).val, by omega⟩ : Fin 1024) = half 0 b := fun b => Fin.ext (by simp [half])
  have e1 : ∀ b : Fin 512, (⟨(Fin.natAdd 512 b).val, by omega⟩ : Fin 1024) = half 1 b := fun b => Fin.ext (by simp [half]; omega)
  simp only [e0, e1] at h
  exact h

theorem sums_halves (P : SP.Idx → EReal) (lab : SL.Idx → BitVec 32) (k : Fin 64) (h : Fin 8) (f : Fin 4096) :
    sums P lab k h f = sumsHalf P lab 0 k h f + sumsHalf P lab 1 k h f :=
  sum_halves fun b => if hit lab b k then pn P b h f else 0

theorem within_halves (P : SP.Idx → EReal) (lab : SL.Idx → BitVec 32) (Cn : SC.Idx → EReal) (dw : SD.Idx → EReal) (k : Fin 64) :
    within P lab Cn dw k = withinHalf P lab Cn dw 0 k + withinHalf P lab Cn dw 1 k :=
  sum_halves fun b => if hit lab b k then resid P Cn dw b k else 0

end Cert.Spec

end
-- ==== Proof.KHost.lean ====
import proofs.«411162_j38354057953796_3_alg».proof.Proof.Gen.KernelIdeal.Regions
import proofs.«411162_j38354057953796_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

noncomputable section

namespace Cert.KernelIdeal.KHost

open Cert.KernelIdeal Cert.KernelIdeal.Gen
open Idealize.ShloMosaic Idealize.ShloMosaic.TcCoe Idealize.ShloMosaic.ValueIdx
open scoped BigOperators

section Kept

variable {F : FTy → Type} [FloatOps F]
variable (m : (ℓ : Loc nD τ sig) → Buf (Elt F) ℓ) (outs : Outs (F := F)) (c : Dev nD)

theorem V3_launch (r : Ref sig .tc) (h1 : r ∉ hostOps0_W) (h2 : r ∉ hostOps0_1_W) (h3 : r ∉ hostOps0_2_W) :
    V3 m c r = m ((c : Thread nD τ).loc r) :=
  (V3_of m c r h3).trans <| (V2_of m c r h2).trans <| (V1_of m c r h1).trans rfl

theorem V11_V4 (r : Ref sig .tc) (h5 : r ∉ hostOps1_W) (h6 : r ∉ hostOps1_1_W) (h7 : r ∉ hostOps1_2_W) (h8 : r ∉ hostOps1_3_W)
    (h9 : r ∉ hostOps1_4_W) (h10 : r ∉ hostOps1_5_W) (h11 : r ∉ hostOps1_6_W) : V11 m outs c r = V4 m outs c r :=
  (V11_of m outs c r h11).trans <| (V10_of m outs c r h10).trans <| (V9_of m outs c r h9).trans <| (V8_of m outs c r h8).trans <|
    (V7_of m outs c r h7).trans <| (V6_of m outs c r h6).trans (V5_of m outs c r h5)

theorem V3_arg0 : V3 m c main_arg0 = m ((c : Thread nD τ).loc main_arg0) := V3_launch m c main_arg0 (by decide) (by decide) (by decide)

theorem V11_arg0 : V11 m outs c main_arg0 = m ((c : Thread nD τ).loc main_arg0) :=
  (V11_V4 m outs c main_arg0 (by decide) (by decide) (by decide) (by decide) (by decide) (by decide) (by decide)).trans <|
    (V4_of m outs c main_arg0 (by decide)).trans (V3_arg0 m c)

theorem V11_v0 : V11 m outs c main_v0 = V3 m c main_v0 :=
  (V11_V4 m outs c main_v0 (by decide) (by decide) (by decide) (by decide) (by decide) (by decide) (by decide)).trans
    (V4_of m outs c main_v0 (by decide))

end Kept

section Values

variable (m : (ℓ : Loc nD τ sig) → Buf (Elt Ideal) ℓ) (outs : Outs (F := Ideal)) (c : Dev nD)

abbrev out0 : S2x64x8x4096.Idx → EReal := outs 4 main_v8 c

abbrev out1 : S2x64x1.Idx → EReal := outs 12 main_v67 c

def ohTab (lab : S1024.Idx → BitVec 32) : S1024x64.Idx → EReal :=
  uitofp (F := Ideal) .f32
    (cmpi .eq
      (broadcastInDim S1024x64 ![0, 1] bcast_S1024x1_S1024x64_0_1 (broadcastInDim S1024x1 ![0] bcast_S1024_S1024x1_0 lab))
      (broadcastInDim S1024x64 ![0, 1] bcast_S1x64_S1024x64_0_1 (iotaInDim S1x64 32 1)))

theorem word_eq_iff_toInt (w : BitVec 32) (k : ℕ) (hk : k < 2 ^ 31) : w = BitVec.ofNat 32 k ↔ w.toInt = (k : ℤ) := by
  constructor
  · intro h; rw [h]; exact StableHlo.Predicate.toInt_ofNat_small k hk
  · intro h; exact BitVec.eq_of_toInt_eq (h.trans (StableHlo.Predicate.toInt_ofNat_small k hk).symm)

theorem ohTab_apply (lab : S1024.Idx → BitVec 32) (b : Fin 1024) (k : Fin 64) : ohTab lab (ix2 b k) = Cert.Spec.oh lab b k := by
  have e1 : broadcastInDim S1024x64 ![0, 1] bcast_S1024x1_S1024x64_0_1 (broadcastInDim S1024x1 ![0] bcast_S1024_S1024x1_0 lab) (ix2 b k)
      = lab (ix1 b) := by
    rw [broadcastInDim_apply _ _ _ (ix2 b k) (ix2 b (0 : Fin 1)) (fun a => by
          match a with
          | ⟨0, _⟩ => rfl
          | ⟨1, _⟩ => rfl)]
    exact broadcastInDim_apply _ _ _ (ix2 b (0 : Fin 1)) (ix1 b) (fun a => by
          match a with
          | ⟨0, _⟩ => rfl)
  have e2 : broadcastInDim S1024x64 ![0, 1] bcast_S1x64_S1024x64_0_1 (iotaInDim S1x64 32 1) (ix2 b k) = BitVec.ofNat 32 k.val := by
    rw [broadcastInDim_apply _ _ _ (ix2 b k) (ix2 (0 : Fin 1) k) (fun a => by
          match a with
          | ⟨0, _⟩ => rfl
          | ⟨1, _⟩ => rfl)]
    rfl
  show (((IntOp.cmpi .eq
      (broadcastInDim S1024x64 ![0, 1] bcast_S1024x1_S1024x64_0_1 (broadcastInDim S1024x1 ![0] bcast_S1024_S1024x1_0 lab) (ix2 b k))
      (broadcastInDim S1024x64 ![0, 1] bcast_S1x64_S1024x64_0_1 (iotaInDim S1x64 32 1) (ix2 b k))).toNat : ℝ) : EReal) = _
  rw [e1, e2]
  unfold Cert.Spec.oh Cert.Spec.hit
  have hk : k.val < 2 ^ 31 := by have := k.isLt; omega
  by_cases h : lab (ix1 b) = BitVec.ofNat 32 k.val
  · rw [StableHlo.Predicate.cmpi_eq_iff.mpr h, if_pos ((word_eq_iff_toInt _ _ hk).mp h)]
    simp
  · have hc : IntOp.cmpi .eq (lab (ix1 b)) (BitVec.ofNat 32 k.val) = 0#1 :=
      eq_zero_of_ne_one (fun hh => h (StableHlo.Predicate.cmpi_eq_iff.mp hh))
    rw [hc, if_neg (fun hh => h ((word_eq_iff_toInt _ _ hk).mpr hh))]
    simp

theorem lift_col {a b : ℕ} (h : (⟨2, ![a, b]⟩ : Shape).Reduces [0] ⟨1, ![b]⟩) (i : Fin b) (l : Fin a) :
    h.lift (ix1 i) l = ix2 l i := by
  funext ax; apply Fin.ext
  match ax with
  | ⟨0, _⟩ => rfl
  | ⟨1, _⟩ => rfl

theorem v0_fun : (V3 m c (Proc.devRef .tc main_v0) : S1024x64.Idx → EReal) = ohTab (m ((c : Thread nD τ).loc main_arg1)) := by
  show StableHlo.after hostOps0_2 _ (Proc.devRef .tc main_v0) = _
  after_results
  rfl

theorem v0_eq (b : Fin 1024) (k : Fin 64) :
    (V3 m c (Proc.devRef .tc main_v0) : S1024x64.Idx → EReal) (ix2 b k) = Cert.Spec.oh (m ((c : Thread nD τ).loc main_arg1)) b k := by
  rw [v0_fun]; exact ohTab_apply _ b k

theorem v1_fun : (V3 m c (Proc.devRef .tc main_v1) : S64.Idx → EReal)
    = Host.reduceAdd (ohTab (m ((c : Thread nD τ).loc main_arg1))) (constant (F := Ideal) S_ .f32 0x00000000#32) reducesTo_S1024x64_S64_d0 h_S_ := by
  show StableHlo.after hostOps0_2 _ (Proc.devRef .tc main_v1) = _
  after_results
  rfl

theorem v1_eq (k : Fin 64) :
    (V3 m c (Proc.devRef .tc main_v1) : S64.Idx → EReal) (ix1 k) = Cert.Spec.cnt (m ((c : Thread nD τ).loc main_arg1)) k := by
  rw [v1_fun, hostReduceAdd_apply, Ideal.hostReduceAdd_single reducesTo_S1024x64_S64_d0 (by decide : S1024x64.Reduces [0] S64)]
  show Ideal.ofBits .f32 0x00000000#32 + ∑ b : Fin 1024, ohTab (m ((c : Thread nD τ).loc main_arg1)) ((by decide : S1024x64.Reduces [0] S64).lift (ix1 k) b) = _
  rw [Ideal.ofBits_zero_f32, zero_add]
  unfold Cert.Spec.cnt
  exact Finset.sum_congr rfl fun b _ => by rw [lift_col, ohTab_apply]; rfl

theorem v13_fun : (V5 m outs c (Proc.devRef .tc main_v13) : S64x8x4096.Idx → EReal)
    = addf (F := Ideal) (φ := .f32)
        (shapeCast S64x8x4096 (extractStridedSlice S1x64x8x4096 ![0, 0, 0, 0] (out0 outs c) slices_S2x64x8x4096_S1x64x8x4096_0_0_0_0)
          shapeCasts_S1x64x8x4096_S64x8x4096)
        (shapeCast S64x8x4096 (extractStridedSlice S1x64x8x4096 ![1, 0, 0, 0] (out0 outs c) slices_S2x64x8x4096_S1x64x8x4096_1_0_0_0)
          shapeCasts_S1x64x8x4096_S64x8x4096) := by
  show StableHlo.after hostOps1 _ (Proc.devRef .tc main_v13) = _
  after_results
  rfl

theorem v13_eq (k : Fin 64) (h : Fin 8) (f : Fin 4096) :
    (V5 m outs c (Proc.devRef .tc main_v13) : S64x8x4096.Idx → EReal) (ix3 k h f)
      = out0 outs c (ix4 (0 : Fin 2) k h f) + out0 outs c (ix4 (1 : Fin 2) k h f) := by
  rw [v13_fun, addf_apply, shapeCast_1abc_abc_apply, shapeCast_1abc_abc_apply,
    extractStridedSlice_apply _ (out0 outs c) _ (ix4 (0 : Fin 1) k h f) (ix4 (0 : Fin 2) k h f) (fun a => by
      match a with
      | ⟨0, _⟩ => rfl
      | ⟨1, _⟩ => exact (Nat.zero_add _).symm
      | ⟨2, _⟩ => exact (Nat.zero_add _).symm
      | ⟨3, _⟩ => exact (Nat.zero_add _).symm),
    extractStridedSlice_apply _ (out0 outs c) _ (ix4 (0 : Fin 1) k h f) (ix4 (1 : Fin 2) k h f) (fun a => by
      match a with
      | ⟨0, _⟩ => rfl
      | ⟨1, _⟩ => exact (Nat.zero_add _).symm
      | ⟨2, _⟩ => exact (Nat.zero_add _).symm
      | ⟨3, _⟩ => exact (Nat.zero_add _).symm)]

theorem v66_fun : (V11 m outs c (Proc.devRef .tc main_v66) : S1x64.Idx → EReal)
    = broadcastInDim S1x64 ![1] bcast_S64_S1x64_1 (m ((c : Thread nD τ).loc main_arg3) : S64.Idx → EReal) := by
  show StableHlo.after hostOps1_6 _ (Proc.devRef .tc main_v66) = _
  after_results
  rfl

theorem v66_eq (k : Fin 64) :
    (V11 m outs c (Proc.devRef .tc main_v66) : S1x64.Idx → EReal) (ix2 (0 : Fin 1) k)
      = (m ((c : Thread nD τ).loc main_arg3) : S64.Idx → EReal) (ix1 k) := by
  rw [v66_fun]
  exact broadcastInDim_apply _ _ _ (ix2 (0 : Fin 1) k) (ix1 k) (fun a => by
    match a with
    | ⟨0, _⟩ => rfl)

theorem v73_fun : (V13 m outs c (Proc.devRef .tc main_v73) : S64.Idx → EReal)
    = shapeCast S64
        (addf (F := Ideal) (φ := .f32)
          (shapeCast S64x1 (extractStridedSlice S1x64x1 ![0, 0, 0] (out1 outs c) slices_S2x64x1_S1x64x1_0_0_0) shapeCasts_S1x64x1_S64x1)
          (shapeCast S64x1 (extractStridedSlice S1x64x1 ![1, 0, 0] (out1 outs c) slices_S2x64x1_S1x64x1_1_0_0) shapeCasts_S1x64x1_S64x1))
        shapeCasts_S64x1_S64 := by
  show StableHlo.after hostOps2 _ (Proc.devRef .tc main_v73) = _
  after_results
  rfl

theorem v73_eq (k : Fin 64) :
    (V13 m outs c (Proc.devRef .tc main_v73) : S64.Idx → EReal) (ix1 k)
      = out1 outs c (ix3 (0 : Fin 2) k (0 : Fin 1)) + out1 outs c (ix3 (1 : Fin 2) k (0 : Fin 1)) := by
  rw [v73_fun, shapeCast_apply _ shapeCasts_S64x1_S64 (ix1 k) (ix2 k (0 : Fin 1)) (by
      rw [Shape.rowMajor_val_two, Shape.rowMajor_val_one]
      show k.val * 1 + 0 = k.val
      rw [Nat.mul_one, Nat.add_zero]),
    addf_apply, shapeCast_1ab_ab_apply, shapeCast_1ab_ab_apply,
    extractStridedSlice_apply _ (out1 outs c) _ (ix3 (0 : Fin 1) k (0 : Fin 1)) (ix3 (0 : Fin 2) k (0 : Fin 1)) (fun a => by
      match a with
      | ⟨0, _⟩ => rfl
      | ⟨1, _⟩ => exact (Nat.zero_add _).symm
      | ⟨2, _⟩ => rfl),
    extractStridedSlice_apply _ (out1 outs c) _ (ix3 (0 : Fin 1) k (0 : Fin 1)) (ix3 (1 : Fin 2) k (0 : Fin 1)) (fun a => by
      match a with
      | ⟨0, _⟩ => rfl
      | ⟨1, _⟩ => exact (Nat.zero_add _).symm
      | ⟨2, _⟩ => rfl)]

theorem v0_eq_V11 (b : Fin 1024) (k : Fin 64) :
    (V11 m outs c (Proc.devRef .tc main_v0) : S1024x64.Idx → EReal) (ix2 b k) = Cert.Spec.oh (m ((c : Thread nD τ).loc main_arg1)) b k := by
  rw [V11_v0 m outs c]; exact v0_eq m c b k

end Values

end Cert.KernelIdeal.KHost

end
-- ==== Proof.IdxTab.lean ====
import Idealize.ShloMosaic.Lib.ValueIdx

namespace Cert.IdxTab

open Idealize.ShloMosaic Idealize.ShloMosaic.ValueIdx

def rowT : Fin 28 → BitVec 32 := fun
  | 0 => 0#32 | 1 => 0#32 | 2 => 0#32 | 3 => 0#32 | 4 => 0#32 | 5 => 0#32 | 6 => 0#32
  | 7 => 1#32 | 8 => 1#32 | 9 => 1#32 | 10 => 1#32 | 11 => 1#32 | 12 => 1#32
  | 13 => 2#32 | 14 => 2#32 | 15 => 2#32 | 16 => 2#32 | 17 => 2#32
  | 18 => 3#32 | 19 => 3#32 | 20 => 3#32 | 21 => 3#32
  | 22 => 4#32 | 23 => 4#32 | 24 => 4#32
  | 25 => 5#32 | 26 => 5#32
  | 27 => 6#32
  | _ => 0#32

def colT : Fin 28 → BitVec 32 := fun
  | 0 => 1#32 | 1 => 2#32 | 2 => 3#32 | 3 => 4#32 | 4 => 5#32 | 5 => 6#32 | 6 => 7#32
  | 7 => 2#32 | 8 => 3#32 | 9 => 4#32 | 10 => 5#32 | 11 => 6#32 | 12 => 7#32
  | 13 => 3#32 | 14 => 4#32 | 15 => 5#32 | 16 => 6#32 | 17 => 7#32
  | 18 => 4#32 | 19 => 5#32 | 20 => 6#32 | 21 => 7#32
  | 22 => 5#32 | 23 => 6#32 | 24 => 7#32
  | 25 => 6#32 | 26 => 7#32
  | 27 => 7#32
  | _ => 0#32

def T : (⟨2, ![28, 2]⟩ : Shape).Idx → BitVec 32 := fun j => if (j 1).val = 0 then rowT (j 0) else colT (j 0)

end Cert.IdxTab
-- ==== Proof.KerIdx.lean ====
import proofs.«411162_j38354057953796_3_alg».proof.Proof.Gen.KernelIdeal.Regions
import proofs.«411162_j38354057953796_3_alg».proof.Proof.IdxTab
import Idealize.ShloMosaic.Lib.ValueIdx
import Idealize.ShloMosaic.Lib.ValueLayout
import Idealize.ShloMosaic.Lib.Pipeline.Value

noncomputable section

namespace Cert.KernelIdeal.KerIdx

open Cert.KernelIdeal Cert.KernelIdeal.Gen Cert.IdxTab
open Idealize.ShloMosaic Idealize.ShloMosaic.TcCoe Idealize.ShloMosaic.ValueIdx

variable {F : FTy → Type} [FloatOps F]

variable (m : (ℓ : Loc nD τ sig) → Buf (Elt F) ℓ) (outs : Outs (F := F)) (c : Dev nD)

theorem keep (r : Ref sig .tc) (h1 : r ∉ hostOps1_W) (h2 : r ∉ hostOps0_2_W) (h3 : r ∉ hostOps0_1_W) (h4 : r ≠ main_v8) :
    StableHlo.after (List.take 25 (hostOps1 (F := F))) (V4 m outs c) (Proc.devRef .tc r)
      = StableHlo.after hostOps0 (V0 m c) (Proc.devRef .tc r) := by
  rw [StableHlo.after_of_writes_sub (W := hostOps1_W) _ _
    (List.forall_iff_forall_mem.mpr fun op hop => (List.forall_iff_forall_mem.mp hostOps1_writes) op (List.mem_of_mem_take hop)) h1]
  show Function.update (V3 m c) (Proc.devRef .tc main_v8) _ (Proc.devRef .tc r) = _
  rw [Function.update_of_ne (StableHlo.devRef_ne_of_ne h4)]
  show StableHlo.after hostOps0_2 (V2 m c) (Proc.devRef .tc r) = _
  rw [StableHlo.after_of_writes_sub _ _ hostOps0_2_writes h2]
  show StableHlo.after hostOps0_1 (V1 m c) (Proc.devRef .tc r) = _
  rw [StableHlo.after_of_writes_sub _ _ hostOps0_1_writes h3]

theorem lit0_row (p : Fin 28) : lit0 (S28.rowMajor (ix1 p)) = rowT p := by
  fin_cases p <;> rfl
theorem lit1_col (p : Fin 28) : lit1 (S28.rowMajor (ix1 p)) = colT p := by
  fin_cases p <;> rfl

def colOf (A : S28.Idx → BitVec 32) : S28x1.Idx → BitVec 32 :=
  broadcastInDim S28x1 ![0] bcast_S28_S28x1_0
    (select (constantI S28 1 0#1) (addi A (broadcastInDim S28 ![] bcast_S_S28 (constantI S_ 32 8#32))) A)

theorem colOf_apply (A : S28.Idx → BitVec 32) (p : Fin 28) : colOf A (ix2 p (0 : Fin 1)) = A (ix1 p) := by
  unfold colOf
  rw [broadcastInDim_apply ![0] bcast_S28_S28x1_0 _ (ix2 p (0 : Fin 1)) (ix1 p) (by intro a; fin_cases a; rfl)]
  rw [select_apply, constantI_apply, select_zero]

theorem cat_left (a b : S28x1.Idx → BitVec 32) (p : Fin 28) :
    concatenate S28x2 1 [⟨S28x1, a⟩, ⟨S28x1, b⟩] concatenates_S28x1_S28x1_S28x2_d1 (ix2 p (0 : Fin 2)) = a (ix2 p (0 : Fin 1)) :=
  concatenate_pair_apply_left (t := S28x2) (s₁ := S28x1) (s₂ := S28x1) 1 a b _ (ix2 p (0 : Fin 2)) rfl (ix2 p (0 : Fin 1))
    (by intro b; fin_cases b <;> rfl)

theorem cat_right (a b : S28x1.Idx → BitVec 32) (p : Fin 28) :
    concatenate S28x2 1 [⟨S28x1, a⟩, ⟨S28x1, b⟩] concatenates_S28x1_S28x1_S28x2_d1 (ix2 p (1 : Fin 2)) = b (ix2 p (0 : Fin 1)) :=
  concatenate_pair_apply_right (t := S28x2) (s₁ := S28x1) (s₂ := S28x1) 1 a b _ (ix2 p (1 : Fin 2)) rfl rfl (ix2 p (0 : Fin 1))
    (by intro b hb; fin_cases b; exacts [rfl, absurd rfl hb]) rfl

theorem ker_tab :
    (V5 m outs c (Proc.devRef .tc main_v39) : S28x2.Idx → BitVec 32) = IdxTab.T := by
  show StableHlo.after hostOps1 (V4 m outs c) (Proc.devRef .tc main_v39) = _
  rw [← List.take_append_drop 25 (hostOps1 (F := F)), StableHlo.after_append]
  have hc : StableHlo.after (List.take 25 (hostOps1 (F := F))) (V4 m outs c) (Proc.devRef .tc main_c)
      = fun i => lit0 (S28.rowMajor i) := by
    rw [keep m outs c main_c (by decide) (by decide) (by decide) (by decide)]; after_results <;> rfl
  have hc0 : StableHlo.after (List.take 25 (hostOps1 (F := F))) (V4 m outs c) (Proc.devRef .tc main_c_0)
      = constantI S28 1 0#1 := by
    rw [keep m outs c main_c_0 (by decide) (by decide) (by decide) (by decide)]; after_results <;> rfl
  have hc1 : StableHlo.after (List.take 25 (hostOps1 (F := F))) (V4 m outs c) (Proc.devRef .tc main_c_1)
      = fun i => lit1 (S28.rowMajor i) := by
    rw [keep m outs c main_c_1 (by decide) (by decide) (by decide) (by decide)]; after_results <;> rfl
  have hc2 : StableHlo.after (List.take 25 (hostOps1 (F := F))) (V4 m outs c) (Proc.devRef .tc main_c_2)
      = constantI S28 1 0#1 := by
    rw [keep m outs c main_c_2 (by decide) (by decide) (by decide) (by decide)]; after_results <;> rfl
  generalize StableHlo.after (List.take 25 (hostOps1 (F := F))) (V4 m outs c) = W at hc hc0 hc1 hc2 ⊢
  simp only [List.drop_succ_cons, List.drop_zero]
  after_results
  rw [hc, hc0, hc1, hc2]
  funext j
  obtain ⟨p, q, rfl⟩ : ∃ (p : Fin 28) (q : Fin 2), j = ix2 p q := ⟨j 0, j 1, eq_ix2 j⟩
  fin_cases q
  · exact (cat_left (colOf _) (colOf _) p).trans ((colOf_apply _ p).trans (lit0_row p))
  · exact (cat_right (colOf _) (colOf _) p).trans ((colOf_apply _ p).trans (lit1_col p))

end Cert.KernelIdeal.KerIdx

end
-- ==== Proof.Chain.lean ====
import proofs.«411162_j38354057953796_3_alg».proof.Proof.Gen.KernelIdeal
import Idealize.ShloMosaic.PureOps.Ideal

noncomputable section

namespace Cert.KernelIdeal.Chain

open Cert.KernelIdeal Cert.KernelIdeal.Facts₀
open Idealize.ShloMosaic

variable (cnt : FVec Ideal S64 .f32) (sums C : FVec Ideal S64x8x4096 .f32) (tab : IVec S28x2 32) (pcs : FVec Ideal S64 .f32)

def safe : FVec Ideal S64 .f32 :=
  maximumf cnt (broadcastInDim S64 ![] bcast_S_S64 (constant (F := Ideal) S_ .f32 0x3F800000#32))

def present : IVec S64 1 :=
  cmpf .ogt cnt (broadcastInDim S64 ![] bcast_S_S64 (constant (F := Ideal) S_ .f32 0x00000000#32))

def valid : FVec Ideal S_ .f32 :=
  Host.reduceAdd (uitofp (F := Ideal) .f32 (present cnt)) (constant (F := Ideal) S_ .f32 0x00000000#32) reducesTo_S64_S_d0 h_S_

def means : FVec Ideal S64x8x4096 .f32 :=
  Host.divf sums (broadcastInDim S64x8x4096 ![0, 1, 2] bcast_S64x1x1_S64x8x4096_0_1_2
    (broadcastInDim S64x1x1 ![0] bcast_S64_S64x1x1_0 (safe cnt)))

def sq (mn : FVec Ideal S64x8x4096 .f32) : FVec Ideal S64x8 .f32 :=
  Host.reduceAdd (mulf mn mn) (constant (F := Ideal) S_ .f32 0x00000000#32) reducesTo_S64x8x4096_S64x8_d2 h_S_

def dist (mn : FVec Ideal S64x8x4096 .f32) : FVec Ideal S64x8x8 .f32 :=
  Host.sqrt (maximumf
    (subf
      (addf
        (broadcastInDim S64x8x8 ![0, 1, 2] bcast_S64x8x1_S64x8x8_0_1_2 (broadcastInDim S64x8x1 ![0, 1] bcast_S64x8_S64x8x1_0_1 (sq mn)))
        (broadcastInDim S64x8x8 ![0, 1, 2] bcast_S64x1x8_S64x8x8_0_1_2 (broadcastInDim S64x1x8 ![0, 2] bcast_S64x8_S64x1x8_0_2 (sq mn))))
      (mulf (broadcastInDim S64x8x8 ![] bcast_S_S64x8x8 (constant (F := Ideal) S_ .f32 0x40000000#32))
        (Host.dotGeneral dot_S64x8x4096_S64x8x4096_S64x8x8_2_2_1_1_0_0 none mn mn)))
    (broadcastInDim S64x8x8 ![] bcast_S_S64x8x8 (constant (F := Ideal) S_ .f32 0x2B8CBCCC#32)))

def between (mn : FVec Ideal S64x8x4096 .f32) : FVec Ideal S_ .f32 :=
  Host.divf
    (Host.reduceAdd
      (select (present cnt)
        (Host.divf
          (Host.reduceAdd
            (maximumf
              (subf (broadcastInDim S64x28 ![] bcast_S_S64x28 (constant (F := Ideal) S_ .f32 0x3F800000#32))
                (Host.gather gather_S64x8x8_S28x2_S64x28_0_12_n_n_12_1_6411 (dist mn) tab))
              (broadcastInDim S64x28 ![] bcast_S_S64x28 (constant (F := Ideal) S_ .f32 0x00000000#32)))
            (constant (F := Ideal) S_ .f32 0x00000000#32) reducesTo_S64x28_S64_d1 h_S_)
          (broadcastInDim S64 ![] bcast_S_S64 (constant (F := Ideal) S_ .f32 0x41E00000#32)))
        (broadcastInDim S64 ![] bcast_S_S64 (id (constant (F := Ideal) S_ .f32 0x00000000#32))))
      (constant (F := Ideal) S_ .f32 0x00000000#32) reducesTo_S64_S_d0 h_S_)
    (maximumf (valid cnt) (constant (F := Ideal) S_ .f32 0x3F800000#32))

def upd (mn : FVec Ideal S64x8x4096 .f32) : FVec Ideal S64x8x4096 .f32 :=
  select
    (broadcastInDim S64x8x4096 ![0, 1, 2] bcast_S64x1x1_S64x8x4096_0_1_2 (broadcastInDim S64x1x1 ![0] bcast_S64_S64x1x1_0 (present cnt)))
    (addf (mulf (broadcastInDim S64x8x4096 ![] bcast_S_S64x8x4096 (constant (F := Ideal) S_ .f32 0x3F666666#32)) C)
      (mulf (broadcastInDim S64x8x4096 ![] bcast_S_S64x8x4096 (constant (F := Ideal) S_ .f32 0x3DCCCCCD#32)) mn))
    C

def normed (u : FVec Ideal S64x8x4096 .f32) : FVec Ideal S64x8x4096 .f32 :=
  Host.divf u (broadcastInDim S64x8x4096 ![0, 1, 2] bcast_S64x8x1_S64x8x4096_0_1_2
    (maximumf
      (Host.sqrt (broadcastInDim S64x8x1 ![0, 1] bcast_S64x8_S64x8x1_0_1
        (Host.reduceAdd (mulf u u) (constant (F := Ideal) S_ .f32 0x00000000#32) reducesTo_S64x8x4096_S64x8_d2 h_S_)))
      (broadcastInDim S64x8x1 ![] bcast_S_S64x8x1 (constant (F := Ideal) S_ .f32 0x2B8CBCCC#32))))

def cnorm : FVec Ideal S64x8x4096 .f32 := normed (upd cnt C (means cnt sums))

def total (btw : FVec Ideal S_ .f32) : FVec Ideal S_ .f32 :=
  addf
    (Host.divf
      (Host.reduceAdd
        (select (present cnt) (Host.divf pcs (safe cnt))
          (broadcastInDim S64 ![] bcast_S_S64 (id (constant (F := Ideal) S_ .f32 0x00000000#32))))
        (constant (F := Ideal) S_ .f32 0x00000000#32) reducesTo_S64_S_d0 h_S_)
      (constant (F := Ideal) S_ .f32 0x42800000#32))
    btw

def result : FVec Ideal S_ .f32 := total cnt pcs (between cnt tab (means cnt sums))

end Cert.KernelIdeal.Chain

end
-- ==== Proof.LibTypedRef.lean ====
import Idealize.ShloMosaic.Lib.StableHlo

namespace Idealize.ShloMosaic.StableHlo.TRef

theorem ofBuf_toBuf {sig : RefSig} {T : BufTy} {Val : EltTy → Type} (x : TRef sig T) (v : T.Contents Val) :
    x.ofBuf (x.toBuf v) = v := by
  obtain ⟨r, rfl, _, _⟩ := x
  rfl

theorem toBuf_ofBuf {sig : RefSig} {T : BufTy} {Val : EltTy → Type} (x : TRef sig T) (v : x.ref.ty.Contents Val) :
    x.toBuf (x.ofBuf v) = v := by
  obtain ⟨r, rfl, _, _⟩ := x
  rfl

end Idealize.ShloMosaic.StableHlo.TRef
-- ==== Proof.KChain.lean ====
import proofs.«411162_j38354057953796_3_alg».proof.Proof.Gen.KernelIdeal.Regions
import proofs.«411162_j38354057953796_3_alg».proof.Proof.Chain
import proofs.«411162_j38354057953796_3_alg».proof.Proof.LibTypedRef
import Idealize.ShloMosaic.Lib.StableHlo.Run
import Idealize.ShloMosaic.PureOps.Ideal

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

theorem upd_ne [inst : DecidableEq (DevRef τ sig)] {V : Valuation τ sig (Elt Ideal)} {x r : Ref sig .tc} (v) (h : r ≠ x) :
    @Function.update _ _ inst V (no_index (Proc.devRef .tc x)) v (no_index (Proc.devRef .tc r)) = V (Proc.devRef .tc r) :=
  Function.update_of_ne (StableHlo.devRef_ne_of_ne h) _ _

set_option maxHeartbeats 4000000 in

theorem result_eq :
    V15 m outs c (Proc.devRef .tc main_v78)
      = Chain.result (V3 m c (Proc.devRef .tc main_v1)) (V5 m outs c (Proc.devRef .tc main_v13))
          (V5 m outs c (Proc.devRef .tc main_v39)) (V13 m outs c (Proc.devRef .tc main_v73)) := by
  dsimp only [V15, V14, V13, V12, V11, V10, V9, V8, V7, V6, V5, V4, V3, V2, V1, V0, hostOps0, hostOps0_1, hostOps0_2, hostOps1, hostOps1_1, hostOps1_2, hostOps1_3, hostOps1_4, hostOps1_5, hostOps1_6, hostOps2, hostOps2_1, hostOps2_2, TRef.unary, TRef.binary, TRef.ternary, TRef.nullary, TRef.of]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', upd_ne, Function.update_self, TRef.ofBuf_toBuf, TRef.toBuf_ofBuf]
  rfl

set_option maxHeartbeats 4000000 in

theorem cnorm_eq :
    V11 m outs c (Proc.devRef .tc main_v65)
      = Chain.cnorm (V3 m c (Proc.devRef .tc main_v1)) (V5 m outs c (Proc.devRef .tc main_v13)) (m ((c : Thread nD τ).loc main_arg2)) := by
  dsimp only [V11, V10, V9, V8, V7, V6, V5, V4, V3, V2, V1, V0, hostOps0, hostOps0_1, hostOps0_2, hostOps1, hostOps1_1, hostOps1_2, hostOps1_3, hostOps1_4, hostOps1_5, hostOps1_6, TRef.unary, TRef.binary, TRef.ternary, TRef.nullary, TRef.of]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', upd_ne, Function.update_self, TRef.ofBuf_toBuf, TRef.toBuf_ofBuf]
  rfl

end Cert.KernelIdeal.KChain

end
-- ==== Proof.LibMatmulColsByCols.lean ====
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.LibRowOps.lean ====
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

end Idealize.ShloMosaic.RowOps

end
-- ==== Proof.LibRank3Layout.lean ====
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.K0Pay.lean ====
import proofs.«411162_j38354057953796_3_alg».proof.Proof.Gen.KernelIdeal.Skeleton
import proofs.«411162_j38354057953796_3_alg».proof.Proof.Spec
import proofs.«411162_j38354057953796_3_alg».proof.Proof.LibMatmulColsByCols
import proofs.«411162_j38354057953796_3_alg».proof.Proof.LibRowOps
import proofs.«411162_j38354057953796_3_alg».proof.Proof.LibRank3Layout
import Idealize.ShloMosaic.Lib.Pipeline.Value
import Mathlib.Algebra.BigOperators.Fin
import Mathlib.Logic.Equiv.Fin.Basic

noncomputable section

open scoped BigOperators

namespace Cert.KernelIdeal.K0Pay

open Cert.KernelIdeal Cert.KernelIdeal.Gen Cert.Spec
open Idealize.ShloMosaic Idealize.ShloMosaic.TcCoe Idealize.ShloMosaic.ValueIdx Idealize.ShloMosaic.RowOps

theorem cast_head (v : Vec Ideal S64x1x4096 .f32) (s : Fin 64) (f : Fin 4096) :
    shapeCast S64x4096 v shapeCasts_S64x1x4096_S64x4096 (ix2 s f) = v (ix3 s (0 : Fin 1) f) :=
  Rank3Layout.shapeCast_abc_nc_apply (a := 64) (b := 1) (c := 4096) (n := 64) v shapeCasts_S64x1x4096_S64x4096 s 0 f s (by simp)

theorem rowsum_col {b : ℕ} (w : FVec Ideal ⟨2, ![64, b]⟩ .f32) (h : (⟨2, ![64, b]⟩ : Shape).Reduces [1] S64) (s : Fin 64) (u : Fin 1) :
    shapeCast S64x1 (multiReduction .add [1] S64 w 0x00000000#32 h (.inl rfl) rfl) shapeCasts_S64_S64x1 (ix2 s u)
      = ∑ l : Fin b, w (ix2 s l) :=
  (shapeCast_a_a1_apply _ shapeCasts_S64_S64x1 s u).trans (multiReduction_add_row w 0x00000000#32 h (.inl rfl) rfl s)

def nrmRow (r : Fin 4096 → EReal) (f : Fin 4096) : EReal :=
  Ideal.div (r f) (max (Ideal.sqrt (∑ g : Fin 4096, r g * r g)) eps)

theorem norm_apply (v : Vec Ideal S64x1x4096 .f32) (s : Fin 64) (f : Fin 4096) :
    divf (shapeCast S64x4096 v shapeCasts_S64x1x4096_S64x4096)
      (broadcastTo S64x4096 (maximumf (sqrt (shapeCast S64x1 (multiReduction .add [1] S64
        (mulf (shapeCast S64x4096 v shapeCasts_S64x1x4096_S64x4096) (shapeCast S64x4096 v shapeCasts_S64x1x4096_S64x4096))
        0x00000000#32 reduces_S64x4096_S64 (.inl rfl) rfl) shapeCasts_S64_S64x1))
        (broadcast S64x1 (Scalar.ofBits (F := Ideal) .f32 0x2B8CBCCC#32))) broadcasts_S64x1_S64x4096) (ix2 s f)
      = nrmRow (fun g => v (ix3 s (0 : Fin 1) g)) f := by
  refine congrArg₂ Ideal.div (cast_head v s f) ((broadcastTo_a1_ab_apply _ broadcasts_S64x1_S64x4096 s f).trans ?_)
  refine congrArg (fun z => max (Ideal.sqrt z) eps) ((rowsum_col _ reduces_S64x4096_S64 s 0).trans ?_)
  exact Finset.sum_congr rfl fun g _ => congrArg₂ (· * ·) (cast_head v s g) (cast_head v s g)

abbrev HdIn (n : ℕ) : Prop := ∀ a, (![0, n, 0] : Fin 3 → ℕ) a + S64x1x4096.size a ≤ S64x8x4096.size a

abbrev hdR (n : ℕ) (inb : HdIn n) : Rect S64x8x4096 := Rect.unit (s := S64x8x4096) ![0, n, 0] S64x1x4096.size inb

theorem hd_emb (n : ℕ) (inb : HdIn n) (k : Fin 64) (u : Fin 1) (f : Fin 4096) :
    (hdR n inb).emb (ix3 k u f) = ix3 k ⟨n, inb 1⟩ f := by
  funext a; apply Fin.ext
  have hu : u.val = 0 := by omega
  match a with
  | ⟨0, _⟩ => show 0 + 1 * k.val = k.val; omega
  | ⟨1, _⟩ => show n + 1 * u.val = n; omega
  | ⟨2, _⟩ => show 0 + 1 * f.val = f.val; omega

theorem ld_head (x : Vec Ideal S64x8x4096 .f32) (n : ℕ) (inb : HdIn n) (k : Fin 64) (u : Fin 1) (f : Fin 4096) :
    View.ld (Val := Elt Ideal) (e' := .f32) x (hdR n inb) (ix3 k u f) = x (ix3 k ⟨n, inb 1⟩ f) :=
  congrArg x (hd_emb n inb k u f)

def smp (t : ℕ) (l : Fin 64) : Fin 1024 := ⟨(64 * t + l.val) % 1024, Nat.mod_lt _ (by decide)⟩

theorem sum_blocks (a : Fin 2) (g : Fin 1024 → EReal) :
    ∑ j ∈ Finset.range 8, ∑ s : Fin 64, g (smp (8 * a.val + j) s) = ∑ b : Fin 512, g (half a b) := by
  rw [Finset.sum_range (fun j => ∑ s : Fin 64, g (smp (8 * a.val + j) s))]
  rw [← Equiv.sum_comp (finProdFinEquiv (m := 8) (n := 64)) (fun b : Fin 512 => g (half a b)), Fintype.sum_prod_type]
  refine Finset.sum_congr rfl fun j _ => Finset.sum_congr rfl fun s _ => congrArg g (Fin.ext ?_)
  have ha := a.isLt
  have hj := j.isLt
  have hs := s.isLt
  show (64 * (8 * a.val + j.val) + s.val) % 1024 = 512 * a.val + (s.val + 64 * j.val)
  omega

theorem oh_mul (lab : SL.Idx → BitVec 32) (b : Fin 1024) (k : Fin 64) (x : EReal) :
    oh lab b k * x = if hit lab b k then x else 0 := by
  unfold oh
  split
  · exact one_mul x
  · exact zero_mul x

end Cert.KernelIdeal.K0Pay

end
-- ==== Proof.K0Val.lean ====
import proofs.«411162_j38354057953796_3_alg».proof.Proof.K0
import proofs.«411162_j38354057953796_3_alg».proof.Proof.K0Pay
import Idealize.ShloMosaic.Lib.ValueLayout

noncomputable section
open scoped BigOperators

namespace Cert.KernelIdeal.K0Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open Cert.KernelIdeal.K0Pay (nrmRow smp hdR)

def stepG (x0 : S64x8x4096.Idx → EReal) (x1 : S64x64.Idx → EReal) (s : S64x8x4096.Idx → EReal) : S64x8x4096.Idx → EReal := fun i =>
  s i + ∑ l : Fin 64, x1 (ix2 l (i 0)) * nrmRow (fun g => x0 (ix3 l (i 1) g)) (i 2)

theorem head_piece (x0 : Vec Ideal S64x8x4096 .f32) (x1 : Vec Ideal S64x64 .f32) (s : Vec Ideal S64x8x4096 .f32)
    (n : ℕ) (inb : K0Pay.HdIn n) (x : S64x1x4096.Idx) :
    k0_pay5 (F := Ideal) (View.ld x1 K0.tab) (View.ld x0 (hdR n inb)) (View.ld s (hdR n inb)) x = stepG x0 x1 s ((hdR n inb).emb x) := by
  obtain ⟨k, u, f, rfl⟩ : ∃ (k : Fin 64) (u : Fin 1) (f : Fin 4096), x = ix3 k u f := ⟨x 0, x 1, x 2, eq_ix3 x⟩
  rw [K0Pay.hd_emb]
  unfold k0_pay5
  refine (Rank3Layout.shapeCast_ab_a1b_apply _ shapeCasts_S64x4096_S64x1x4096 k u f).trans ?_
  refine congrArg₂ (fun a b : EReal => a + b) ((K0Pay.cast_head _ k f).trans (K0Pay.ld_head s n inb k 0 f)) ?_
  refine (MatmulColsByCols.matmul_cols_apply dot_S64x64_S64x4096_S64x4096_0_0_1_1_n_n_wf none _ _ k f).trans ?_
  exact Finset.sum_congr rfl fun l _ => congrArg₂ (fun a b : EReal => a * b)
    ((congrFun (shapeCast_self _ shapeCasts_S64x64_S64x64) (ix2 l k)).trans (congrFun (View.ld_unit_zero (funext (by decide)) inb_S64x64_S64x64_0_0 x1) (ix2 l k)))
    ((K0Pay.norm_apply _ l f).trans (congrArg (fun r => nrmRow r f) (funext fun g => K0Pay.ld_head x0 n inb l 0 g)))

theorem upd_apply (x0 : Vec Ideal S64x8x4096 .f32) (x1 : Vec Ideal S64x64 .f32) (s : Vec Ideal S64x8x4096 .f32) (y : S64x8x4096.Idx) :
    K0.upd (F := Ideal) x0 x1 s y = stepG x0 x1 s y := by
  unfold K0.upd
  refine View.canon_apply_of_pieces (Val := Elt Ideal) (S := S64x8x4096) (e := .f32) (stepG x0 x1 s) _ (fun p hp x => ?_) y
    (K0.cover8 _ _ _ _ _ _ _ _ y)
  simp only [List.mem_cons, List.not_mem_nil, or_false] at hp
  rcases hp with rfl | rfl | rfl | rfl | rfl | rfl | rfl | rfl <;> exact head_piece x0 x1 s _ _ x

theorem idx0 : ∀ t : Fin cfg0.N, win0_0.index t 0 = t.val ∧ win0_0.index t 1 = 0 ∧ win0_0.index t 2 = 0 := by decide +kernel
theorem idx1 : ∀ t : Fin cfg0.N, win0_1.index t 0 = t.val ∧ win0_1.index t 1 = 0 := by decide +kernel
theorem idx2 : ∀ t : Fin cfg0.N, win0_2.index t 0 = t.val / 8 ∧ win0_2.index t 1 = 0 ∧ win0_2.index t 2 = 0 ∧ win0_2.index t 3 = 0 := by
  decide +kernel

theorem lt16 (t : Fin cfg0.N) : t.val < 16 := Nat.lt_of_lt_of_eq t.isLt N_0

abbrev Parr (V : K0.Contents Ideal) (c : Dev nD) : Vec Ideal S1024x8x4096 .f32 := V c main_arg0
abbrev Tarr (V : K0.Contents Ideal) (c : Dev nD) : Vec Ideal S1024x64 .f32 := V c main_v0

theorem xblk_apply (V : K0.Contents Ideal) (c : Dev nD) (t : Fin cfg0.N) (l : Fin 64) (h : Fin 8) (f : Fin 4096) :
    K0.iblk V c 0 t (ix3 l h f) = Parr V c (ix3 (smp t.val l) h f) := by
  have ht := lt16 t
  have hl := l.isLt
  have hi := idx0 t
  show Parr V c (((cfg0.win 0).blk t).view.emb (ix3 l h f)) = _
  refine congrArg (Parr V c) (funext fun a => Fin.ext ?_)
  match a with
  | ⟨0, _⟩ => show win0_0.index t 0 * 64 + 1 * l.val = (64 * t.val + l.val) % 1024; rw [hi.1]; omega
  | ⟨1, _⟩ => show win0_0.index t 1 * 8 + 1 * h.val = h.val; rw [hi.2.1]; omega
  | ⟨2, _⟩ => show win0_0.index t 2 * 4096 + 1 * f.val = f.val; rw [hi.2.2]; omega

theorem tblk_apply (V : K0.Contents Ideal) (c : Dev nD) (t : Fin cfg0.N) (l k : Fin 64) :
    K0.iblk V c 1 t (ix2 l k) = Tarr V c (ix2 (smp t.val l) k) := by
  have ht := lt16 t
  have hl := l.isLt
  have hi := idx1 t
  show Tarr V c (((cfg0.win 1).blk t).view.emb (ix2 l k)) = _
  refine congrArg (Tarr V c) (funext fun a => Fin.ext ?_)
  match a with
  | ⟨0, _⟩ => show win0_1.index t 0 * 64 + 1 * l.val = (64 * t.val + l.val) % 1024; rw [hi.1]; omega
  | ⟨1, _⟩ => show win0_1.index t 1 * 64 + 1 * k.val = k.val; rw [hi.2]; omega

theorem emb2 (t : Fin cfg0.N) (a : Fin 2) (ha : t.val / 8 = a.val) (u : Fin 1) (k : Fin 64) (h : Fin 8) (f : Fin 4096) :
    ((cfg0.win 2).blk t).view.emb (ix4 u k h f) = ix4 a k h f := by
  have hi := idx2 t
  have hu : u.val = 0 := by omega
  funext x; apply Fin.ext
  match x with
  | ⟨0, _⟩ => show win0_2.index t 0 * 1 + 1 * u.val = a.val; rw [hi.1]; omega
  | ⟨1, _⟩ => show win0_2.index t 1 * 64 + 1 * k.val = k.val; rw [hi.2.1]; omega
  | ⟨2, _⟩ => show win0_2.index t 2 * 8 + 1 * h.val = h.val; rw [hi.2.2.1]; omega
  | ⟨3, _⟩ => show win0_2.index t 3 * 4096 + 1 * f.val = f.val; rw [hi.2.2.2]; omega

theorem pay3_apply (i : S64x8x4096.Idx) : k0_pay3 (F := Ideal) i = 0 := by
  unfold k0_pay3
  rw [shapeCast_self]
  exact Ideal.ofBits_zero_f32

def addend (P : SP.Idx → EReal) (lab : SL.Idx → BitVec 32) (n : ℕ) (i : S64x8x4096.Idx) : EReal :=
  ∑ l : Fin 64, oh lab (smp n l) (i 0) * pn P (smp n l) (i 1) (i 2)

def stp (V : K0.Contents Ideal) (c : Dev nD) (n : ℕ) (hn : n < cfg0.N) (s : Vec Ideal S64x8x4096 .f32) : Vec Ideal S64x8x4096 .f32 :=
  K0.upd (K0.iblk V c 0 ⟨n, hn⟩) (K0.iblk V c 1 ⟨n, hn⟩) s

def Gout (P : Cert.Spec.SP.Idx → EReal) (lab : Cert.Spec.SL.Idx → BitVec 32) : Vec Ideal S2x64x8x4096 .f32 :=
  fun i => Cert.Spec.sumsHalf P lab (i 0) (i 1) (i 2) (i 3)

theorem pay2_apply (s : Vec Ideal S64x8x4096 .f32) (u : Fin 1) (k : Fin 64) (h : Fin 8) (f : Fin 4096) :
    (k0_pay2 (F := Ideal) s : S1x64x8x4096.Idx → EReal) (ix4 u k h f) = s (ix3 k h f) :=
  shapeCast_abc_1abc_apply s shapeCasts_S64x8x4096_S1x64x8x4096 u k h f

section
variable (V : K0.Contents Ideal) (c : Dev nD) (lab : SL.Idx → BitVec 32)
  (hX : ∀ (b : Fin 1024) (k : Fin 64), Tarr V c (ix2 b k) = oh lab b k)
include hX

theorem step_apply (n : ℕ) (hn : n < cfg0.N) (s : Vec Ideal S64x8x4096 .f32) (i : S64x8x4096.Idx) :
    stp V c n hn s i = s i + addend (Parr V c) lab n i := by
  obtain ⟨k, h, f, rfl⟩ : ∃ (k : Fin 64) (h : Fin 8) (f : Fin 4096), i = ix3 k h f := ⟨i 0, i 1, i 2, eq_ix3 i⟩
  unfold stp
  rw [upd_apply]
  exact congrArg (fun z : EReal => s (ix3 k h f) + z) (Finset.sum_congr rfl fun l _ => congrArg₂ (fun a b : EReal => a * b)
    ((tblk_apply V c ⟨n, hn⟩ l k).trans (hX _ k)) (congrArg (fun r => nrmRow r f) (funext fun g => xblk_apply V c ⟨n, hn⟩ l h g)))

theorem flushed_eq (t : Fin cfg0.N) (hf : (cfg0.win 2).flush t = true) :
    (K0.dat V c).flushed 2 t = ((cfg0.win 2).blk t).view.read (Elt Ideal) (Gout (Parr V c) lab) := by
  have h7 : t.val % 8 = 7 := (flush0_2 t).mp hf
  have ht := lt16 t
  have ha : t.val / 8 < 2 := by omega
  have h' : 8 * (t.val / 8) + t.val % 8 < cfg0.N := by rw [Nat.div_add_mod]; exact t.isLt
  show (cfg0.win 2).cut (grid0.coords t) ((K0.dat V c).after 2 t) = _
  rw [K0.after2]
  unfold K0.out2
  rw [View.canon_unit_zero (funext (by decide)), View.ld_unit_zero (S := S64x8x4096) (funext (by decide))]
  funext j
  obtain ⟨u, k, h, f, rfl⟩ : ∃ (u : Fin 1) (k : Fin 64) (h : Fin 8) (f : Fin 4096), j = ix4 u k h f := ⟨j 0, j 1, j 2, j 3, eq_ix4 j⟩
  show (k0_pay2 (F := Ideal) (K0.scr (F := Ideal) V c t.val t.isLt) : S1x64x8x4096.Idx → EReal) (ix4 u k h f)
    = Gout (Parr V c) lab (((cfg0.win 2).blk t).view.emb (ix4 u k h f))
  rw [pay2_apply, emb2 t ⟨t.val / 8, ha⟩ rfl u k h f]
  refine (congrFun (Pipeline.eq_accAt_of_mod (fun n hn => K0.scr (F := Ideal) V c n hn) 8
    (fun n hn => stp V c n hn (k0_pay3 (F := Ideal))) (stp V c)
    (fun n hn h0 => K0.scr_A V c ⟨n, hn⟩ h0) (fun n hn h0 => K0.scr_B V c ⟨n + 1, hn⟩ h0) (by decide) t.val t.isLt h') _).trans ?_
  rw [Pipeline.accAt_add_apply (β := EReal) (fun n hn => stp V c n hn (k0_pay3 (F := Ideal))) (stp V c) (k0_pay3 (F := Ideal))
    (addend (Parr V c) lab) (8 * (t.val / 8)) 7 (fun hb i => step_apply V c lab hX _ hb _ i)
    (fun n hn s i _ _ => step_apply V c lab hX n hn s i) (t.val % 8) (by omega) h', pay3_apply, zero_add, h7]
  refine (K0Pay.sum_blocks ⟨t.val / 8, ha⟩ fun b => oh lab b k * pn (Parr V c) b h f).trans ?_
  exact Finset.sum_congr rfl fun b _ => K0Pay.oh_mul lab _ k _

theorem arr_eq :
    (K0.dat V c).arrAt 2 cfg0.N = Gout (Parr V c) lab :=
  (K0.dat V c).arrAt_eq_of_cover 2 (Gout (Parr V c) lab) (flushed_eq V c lab hX) fun i => by
    obtain ⟨a, k, h, f, rfl⟩ : ∃ (a : Fin 2) (k : Fin 64) (h : Fin 8) (f : Fin 4096), i = ix4 a k h f := ⟨i 0, i 1, i 2, i 3, eq_ix4 i⟩
    have ha := a.isLt
    have hN : 8 * a.val + 7 < cfg0.N := by show 8 * a.val + 7 < 16; omega
    refine ⟨⟨8 * a.val + 7, hN⟩, (flush0_2 _).mpr (by show (8 * a.val + 7) % 8 = 7; omega), ?_⟩
    rw [← emb2 ⟨8 * a.val + 7, hN⟩ a (by show (8 * a.val + 7) / 8 = a.val; omega) 0 k h f]
    exact View.emb_mem_set _ _

end

end Cert.KernelIdeal.K0Val

end
-- ==== Proof.K1Val.lean ====
import proofs.«411162_j38354057953796_3_alg».proof.Proof.K0Pay
import proofs.«411162_j38354057953796_3_alg».proof.Proof.K1
import Idealize.ShloMosaic.Lib.ValueLayout

noncomputable section

open scoped BigOperators

namespace Cert.KernelIdeal.K1Val

open Cert.KernelIdeal Cert.KernelIdeal.Gen Cert.Spec
open Idealize.ShloMosaic Idealize.ShloMosaic.TcCoe Idealize.ShloMosaic.ValueIdx
open Idealize.ShloMosaic.RowOps Idealize.ShloMosaic.Rank3Layout Idealize.ShloMosaic.MatmulColsByCols
open Cert.KernelIdeal.K0Pay (cast_head rowsum_col nrmRow norm_apply smp ld_head HdIn hdR)
open Cert.KernelIdeal.K1 (addTo iblk)

def hdh (X : S64x64.Idx → EReal) (x0 x2 : S64x8x4096.Idx → EReal) (s : Fin 64) (h : Fin 8) : EReal :=
  ∑ f : Fin 4096, (nrmRow (fun g => x0 (ix3 s h g)) f - ∑ l : Fin 64, X (ix2 s l) * x2 (ix3 l h f))
    * (nrmRow (fun g => x0 (ix3 s h g)) f - ∑ l : Fin 64, X (ix2 s l) * x2 (ix3 l h f))

def dif (X : FVec Ideal S64x64 .bf16) (x0 x2 : Vec Ideal S64x8x4096 .f32) (n : ℕ) (inb : HdIn n) : FVec Ideal S64x4096 .f32 :=
  subf (k1_pay14 (View.ld x0 (hdR n inb)))
    (matmul dot_S64x64_S64x4096_S64x4096_1_0_0_1_n_n none X (k1_pay15 (View.ld x2 (hdR n inb))) (constant S64x4096 .f32 0x00000000#32))

theorem chunk (X : FVec Ideal S64x64 .bf16) (x0 x2 : Vec Ideal S64x8x4096 .f32) (n : ℕ) (inb : HdIn n) (s : Fin 64) (u : Fin 1) :
    shapeCast S64x1 (multiReduction .add [1] S64 (mulf (dif X x0 x2 n inb) (dif X x0 x2 n inb))
      0x00000000#32 reduces_S64x4096_S64 (.inl rfl) rfl) shapeCasts_S64_S64x1 (ix2 s u) = hdh X x0 x2 s ⟨n, inb 1⟩ := by
  rw [rowsum_col]
  refine Finset.sum_congr rfl fun f _ => ?_
  have e : dif X x0 x2 n inb (ix2 s f)
      = nrmRow (fun g => x0 (ix3 s ⟨n, inb 1⟩ g)) f - ∑ l : Fin 64, X (ix2 s l) * x2 (ix3 l ⟨n, inb 1⟩ f) :=
    congrArg₂ (fun a b : EReal => a - b)
      ((norm_apply _ s f).trans (congrArg (fun r => nrmRow r f) (funext fun g => ld_head x0 n inb s 0 g)))
      ((matmul_plain_apply (m := 64) (k := 64) (n := 4096) dot_S64x64_S64x4096_S64x4096_1_0_0_1_n_n_wf none X _ s f).trans
        (Finset.sum_congr rfl fun l _ => congrArg (fun z : EReal => X (ix2 s l) * z) ((cast_head _ l f).trans (ld_head x2 n inb l 0 f))))
  exact congrArg₂ (fun a b : EReal => a * b) e e

theorem pay5_eq (X : Vec Ideal S64x64 .f32) : k1_pay5 (F := Ideal) X = X := shapeCast_self X _

theorem pay6_apply (X : Vec Ideal S64x64 .f32) (x0 x2 : Vec Ideal S64x8x4096 .f32) (n : ℕ)
    (inb : HdIn n) (s : Fin 64) (u : Fin 1) :
    k1_pay6 (F := Ideal) X (View.ld x0 (hdR n inb))
        (View.ld x2 (hdR n inb)) (ix2 s u) = 0 + hdh X x0 x2 s ⟨n, inb 1⟩ := by
  unfold k1_pay6
  refine (congrArg (fun z : EReal => Ideal.ofBits .f32 0x00000000#32 + z) (chunk (k1_pay5 X) x0 x2 n inb s u)).trans ?_
  rw [Ideal.ofBits_zero_f32, pay5_eq]

theorem two_heads (X : FVec Ideal S64x64 .bf16) (a : FVec Ideal S64x1 .f32) (x0 x2 : Vec Ideal S64x8x4096 .f32) (n m : ℕ)
    (hn : HdIn n)
    (hm : HdIn m) (s : Fin 64) (u : Fin 1) :
    k1_pay13 (F := Ideal) X a (k1_pay11 (View.ld x0 (hdR n hn)))
        (k1_pay12 (View.ld x2 (hdR n hn)))
        (View.ld x0 (hdR m hm))
        (View.ld x2 (hdR m hm)) (ix2 s u)
      = a (ix2 s u) + hdh X x0 x2 s ⟨n, hn 1⟩ + hdh X x0 x2 s ⟨m, hm 1⟩ := by
  unfold k1_pay13
  exact congrArg₂ (fun a b : EReal => a + b) (congrArg (fun z : EReal => a (ix2 s u) + z) (chunk X x0 x2 n hn s u)) (chunk X x0 x2 m hm s u)

theorem pay1_apply (v4 : FVec Ideal S64x64 .f32) (v5 : FVec Ideal S64x64 .bf16) (v139 : FVec Ideal S64x1 .f32)
    (x0 x2 : Vec Ideal S64x8x4096 .f32) (n : ℕ) (inb : HdIn n)
    (D : Vec Ideal S1x64 .f32) (acc : Vec Ideal S64x1 .f32) (k : Fin 64) (u : Fin 1) :
    k1_pay1 (F := Ideal) v4 v5 v139 (k1_pay14 (View.ld x0 (hdR n inb)))
        (k1_pay15 (View.ld x2 (hdR n inb))) (constant S64x4096 .f32 0x00000000#32) D acc (ix2 k u)
      = acc (ix2 k u) + ∑ s : Fin 64, v5 (ix2 s k) *
          max (Ideal.sqrt (v139 (ix2 s u) + hdh v5 x0 x2 s ⟨n, inb 1⟩) - ∑ l : Fin 64, v4 (ix2 s l) * D (ix2 (0 : Fin 1) l)) 0 := by
  unfold k1_pay1
  refine (congrFun (shapeCast_self _ shapeCasts_S64x1_S64x1) (ix2 k u)).trans ?_
  refine (congrArg (fun z : EReal => acc (ix2 k u) + z)
    (matmul_cols_apply (m := 64) (k := 64) (n := 1) dot_S64x64_S64x1_S64x1_0_0_1_1_n_n_wf none v5 _ k u)).trans ?_
  refine congrArg (fun z : EReal => acc (ix2 k u) + z) (Finset.sum_congr rfl fun s _ => congrArg (fun z : EReal => v5 (ix2 s k) * z) ?_)
  refine (congrArg₂ (fun a b : EReal => max (Ideal.sqrt (v139 (ix2 s u) + a) - b) (Ideal.ofBits .f32 0x00000000#32))
    (chunk v5 x0 x2 n inb s u) (rowsum_col _ reduces_S64x64_S64 s u)).trans ?_
  rw [Ideal.ofBits_zero_f32]
  refine congrArg (fun z : EReal => max (Ideal.sqrt (v139 (ix2 s u) + hdh v5 x0 x2 s ⟨n, inb 1⟩) - z) 0) (Finset.sum_congr rfl fun l _ => ?_)
  exact congrArg (fun z : EReal => v4 (ix2 s l) * z)
    ((broadcastTo_1b_ab_apply (a := 64) (b := 64) _ broadcasts_S1x64_S64x64 s l).trans
      (congrFun (shapeCast_self D shapeCasts_S1x64_S1x64) (ix2 (0 : Fin 1) l)))

theorem pay2_apply (v : Vec Ideal S64x1 .f32) (z : Fin 1) (k : Fin 64) (u : Fin 1) :
    k1_pay2 (F := Ideal) v (ix3 z k u) = v (ix2 k u) :=
  shapeCast_ab_1ab_apply v shapeCasts_S64x1_S1x64x1 z k u

theorem pay3_apply (i : S64x1.Idx) : k1_pay3 (F := Ideal) i = 0 := by
  unfold k1_pay3
  refine (congrFun (shapeCast_self _ shapeCasts_S64x1_S64x1) i).trans ?_
  exact Ideal.ofBits_zero_f32

def rowRes (X : S64x64.Idx → EReal) (x0 x2 : S64x8x4096.Idx → EReal) (D : S1x64.Idx → EReal) (s : Fin 64) : EReal :=
  max (Ideal.sqrt (0 + hdh X x0 x2 s 0 + hdh X x0 x2 s 1 + hdh X x0 x2 s 2 + hdh X x0 x2 s 3
        + hdh X x0 x2 s 4 + hdh X x0 x2 s 5 + hdh X x0 x2 s 6 + hdh X x0 x2 s 7)
      - ∑ l : Fin 64, X (ix2 s l) * D (ix2 (0 : Fin 1) l)) 0

theorem addTo_apply (x0 : Vec Ideal S64x8x4096 .f32) (x1 : Vec Ideal S64x64 .f32) (x2 : Vec Ideal S64x8x4096 .f32)
    (x3 : Vec Ideal S1x64 .f32) (acc : Vec Ideal S64x1 .f32) (k : Fin 64) (u : Fin 1) :
    addTo (F := Ideal) x0 x1 x2 x3 acc (ix2 k u)
      = acc (ix2 k u) + ∑ s : Fin 64, x1 (ix2 s k) * rowRes x1 x0 x2 x3 s := by
  unfold addTo
  rw [View.ld_unit_zero (funext (by decide)) inb_S64x64_S64x64_0_0 x1, View.ld_unit_zero (funext (by decide)) inb_S1x64_S1x64_0_0 x3, pay5_eq,
    show k1_pay4 (F := Ideal) x1 = x1 from shapeCast_self x1 _]
  refine (pay1_apply x1 x1 _ x0 x2 7 _ x3 acc k u).trans ?_
  refine congrArg (fun z : EReal => acc (ix2 k u) + z) (Finset.sum_congr rfl fun s _ => congrArg (fun z : EReal => x1 (ix2 s k) * z) ?_)
  refine congrArg (fun z : EReal => max (Ideal.sqrt (z + hdh x1 x0 x2 s 7) - ∑ l : Fin 64, x1 (ix2 s l) * x3 (ix2 (0 : Fin 1) l)) 0) ?_
  exact (two_heads x1 _ x0 x2 5 6 _ _ s u).trans (congrArg (fun z : EReal => z + hdh x1 x0 x2 s 5 + hdh x1 x0 x2 s 6)
    ((two_heads x1 _ x0 x2 3 4 _ _ s u).trans (congrArg (fun z : EReal => z + hdh x1 x0 x2 s 3 + hdh x1 x0 x2 s 4)
      ((two_heads x1 _ x0 x2 1 2 _ _ s u).trans (congrArg (fun z : EReal => z + hdh x1 x0 x2 s 1 + hdh x1 x0 x2 s 2)
        (pay6_apply x1 x0 x2 0 _ s u))))))

theorem oh_sum (lab : SL.Idx → BitVec 32) (b : Fin 1024) (k : Fin 64) (hk : hit lab b k) (T : Fin 64 → EReal) :
    ∑ l : Fin 64, oh lab b l * T l = T k := by
  rw [Finset.sum_eq_single k]
  · unfold oh; rw [if_pos hk, one_mul]
  · intro l _ hl
    unfold oh
    rw [if_neg, zero_mul]
    intro h
    apply hl
    have e : (l.val : ℤ) = (k.val : ℤ) := h.symm.trans hk
    exact Fin.ext (by exact_mod_cast e)
  · intro h; exact absurd (Finset.mem_univ k) h

theorem term_eq (P : SP.Idx → EReal) (lab : SL.Idx → BitVec 32) (Cn : SC.Idx → EReal) (dw : SD.Idx → EReal)
    (X : S64x64.Idx → EReal) (x0 x2 : S64x8x4096.Idx → EReal) (D : S1x64.Idx → EReal) (s : Fin 64) (b : Fin 1024)
    (hX : ∀ l, X (ix2 s l) = oh lab b l)
    (hp : ∀ h f, x0 (ix3 s h f) = P (ix3 b h f))
    (ht : ∀ l h f, x2 (ix3 l h f) = Cn (ix3 l h f))
    (hD : ∀ l, D (ix2 (0 : Fin 1) l) = dw (ix1 l)) (k : Fin 64) :
    X (ix2 s k) * rowRes X x0 x2 D s = if hit lab b k then resid P Cn dw b k else 0 := by
  rw [hX k, K0Pay.oh_mul]
  by_cases hk : hit lab b k
  · rw [if_pos hk, if_pos hk]
    have hh : ∀ h, hdh X x0 x2 s h = ∑ f : Fin 4096, (pn P b h f - Cn (ix3 k h f)) * (pn P b h f - Cn (ix3 k h f)) := by
      intro h
      unfold hdh
      refine Finset.sum_congr rfl fun f _ => ?_
      have e : ∑ l : Fin 64, X (ix2 s l) * x2 (ix3 l h f) = Cn (ix3 k h f) := by
        simp only [hX, ht]; exact oh_sum lab b k hk (fun l => Cn (ix3 l h f))
      rw [e]
      simp only [hp]
      rfl
    have hd' : ∑ l : Fin 64, X (ix2 s l) * D (ix2 (0 : Fin 1) l) = dw (ix1 k) := by
      simp only [hX, hD]; exact oh_sum lab b k hk (fun l => dw (ix1 l))
    unfold rowRes resid
    rw [hd', Fin.sum_univ_eight]
    simp only [hh, zero_add]
  · rw [if_neg hk, if_neg hk]

theorem idx0 : ∀ t : Fin cfg1.N, win1_0.index t 0 = t.val ∧ win1_0.index t 1 = 0 ∧ win1_0.index t 2 = 0 := by decide +kernel
theorem idx1 : ∀ t : Fin cfg1.N, win1_1.index t 0 = t.val ∧ win1_1.index t 1 = 0 := by decide +kernel
theorem idx2 : ∀ (t : Fin cfg1.N) a, win1_2.index t a = 0 := by decide +kernel
theorem idx3 : ∀ (t : Fin cfg1.N) a, win1_3.index t a = 0 := by decide +kernel
theorem idx4 : ∀ t : Fin cfg1.N, win1_4.index t 0 = t.val / 8 ∧ win1_4.index t 1 = 0 ∧ win1_4.index t 2 = 0 := by decide +kernel

theorem iblk0_apply (V : K1.Contents Ideal) (c : Dev nD) (t : Fin cfg1.N) (s : Fin 64) (h : Fin 8) (f : Fin 4096) :
    iblk V c 0 t (ix3 s h f) = V c main_arg0 (ix3 (smp t.val s) h f) := by
  have hi := idx0 t
  have hN : t.val < 16 := t.isLt
  have hs := s.isLt
  refine congrArg (V c main_arg0) (funext fun a => Fin.ext ?_)
  match a with
  | ⟨0, _⟩ => show win1_0.index t 0 * 64 + 1 * s.val = (64 * t.val + s.val) % 1024; rw [hi.1]; omega
  | ⟨1, _⟩ => show win1_0.index t 1 * 8 + 1 * h.val = h.val; rw [hi.2.1]; omega
  | ⟨2, _⟩ => show win1_0.index t 2 * 4096 + 1 * f.val = f.val; rw [hi.2.2]; omega

theorem iblk1_apply (V : K1.Contents Ideal) (c : Dev nD) (t : Fin cfg1.N) (s : Fin 64) (l : Fin 64) :
    iblk V c 1 t (ix2 s l) = V c main_v0 (ix2 (smp t.val s) l) := by
  have hi := idx1 t
  have hN : t.val < 16 := t.isLt
  have hs := s.isLt
  refine congrArg (V c main_v0) (funext fun a => Fin.ext ?_)
  match a with
  | ⟨0, _⟩ => show win1_1.index t 0 * 64 + 1 * s.val = (64 * t.val + s.val) % 1024; rw [hi.1]; omega
  | ⟨1, _⟩ => show win1_1.index t 1 * 64 + 1 * l.val = l.val; rw [hi.2]; omega

theorem iblk2_apply (V : K1.Contents Ideal) (c : Dev nD) (t : Fin cfg1.N) (l : Fin 64) (h : Fin 8) (f : Fin 4096) :
    iblk V c 2 t (ix3 l h f) = V c main_v65 (ix3 l h f) := by
  exact congrArg (V c main_v65) (funext fun a => Fin.ext (win1_2.rect_emb_val_of_index_zero t a (idx2 t a) _))

theorem iblk3_apply (V : K1.Contents Ideal) (c : Dev nD) (t : Fin cfg1.N) (z : Fin 1) (l : Fin 64) :
    iblk V c 3 t (ix2 z l) = V c main_v66 (ix2 z l) := by
  exact congrArg (V c main_v66) (funext fun a => Fin.ext (win1_3.rect_emb_val_of_index_zero t a (idx3 t a) _))

theorem emb4 (t : Fin cfg1.N) (a : Fin 2) (ha : t.val / 8 = a.val) (z : Fin 1) (k : Fin 64) (u : Fin 1) :
    (((cfg1.win 4).blk t).view.emb (ix3 z k u) : S2x64x1.Idx) = ix3 a k u := by
  have hi := idx4 t
  have hz : z.val = 0 := by omega
  funext x; apply Fin.ext
  match x with
  | ⟨0, _⟩ => show win1_4.index t 0 * 1 + 1 * z.val = a.val; rw [hi.1]; omega
  | ⟨1, _⟩ => show win1_4.index t 1 * 64 + 1 * k.val = k.val; rw [hi.2.1]; omega
  | ⟨2, _⟩ => show win1_4.index t 2 * 1 + 1 * u.val = u.val; rw [hi.2.2]; omega

section Out

variable (V : K1.Contents Ideal) (c : Dev nD) (lab : SL.Idx → BitVec 32) (dw : SD.Idx → EReal)

def blockSum (n : ℕ) (i : S64x1.Idx) : EReal :=
  ∑ s : Fin 64, if hit lab (smp n s) (i 0) then resid (V c main_arg0) (V c main_v65) dw (smp n s) (i 0) else 0

def stp (n : ℕ) (hn : n < cfg1.N) (a : Vec Ideal S64x1 .f32) : Vec Ideal S64x1 .f32 :=
  addTo (F := Ideal) (iblk V c 0 ⟨n, hn⟩) (iblk V c 1 ⟨n, hn⟩) (iblk V c 2 ⟨n, hn⟩) (iblk V c 3 ⟨n, hn⟩) a

variable (hX : ∀ (b : Fin 1024) (k : Fin 64), (V c main_v0 : S1024x64.Idx → EReal) (ix2 b k) = oh lab b k)
  (hD : ∀ k : Fin 64, (V c main_v66 : S1x64.Idx → EReal) (ix2 (0 : Fin 1) k) = dw (ix1 k))
include hX hD

theorem point_eq (n : ℕ) (hn : n < cfg1.N) (accv : Vec Ideal S64x1 .f32) (i : S64x1.Idx) :
    stp V c n hn accv i = accv i + blockSum V c lab dw n i := by
  obtain ⟨k, u, rfl⟩ : ∃ (k : Fin 64) (u : Fin 1), i = ix2 k u := ⟨i 0, i 1, eq_ix2 i⟩
  unfold stp
  rw [addTo_apply]
  refine congrArg (fun z : EReal => accv (ix2 k u) + z) (Finset.sum_congr rfl fun s _ => ?_)
  exact term_eq (V c main_arg0) lab (V c main_v65) dw (iblk V c 1 ⟨n, hn⟩) (iblk V c 0 ⟨n, hn⟩) (iblk V c 2 ⟨n, hn⟩) (iblk V c 3 ⟨n, hn⟩)
    s (smp n s)
    (fun l => (iblk1_apply V c ⟨n, hn⟩ s l).trans (hX _ l))
    (fun h f => iblk0_apply V c ⟨n, hn⟩ s h f)
    (fun l h f => iblk2_apply V c ⟨n, hn⟩ l h f)
    (fun l => (iblk3_apply V c ⟨n, hn⟩ 0 l).trans (hD l)) k

theorem flushed_val (t : Fin cfg1.N) (hft : (cfg1.win 4).flush t = true) (z : Fin 1) (k : Fin 64) (u : Fin 1) :
    ((K1.dat V c).after 4 t : S1x64x1.Idx → EReal) (ix3 z k u)
      = withinHalf (V c main_arg0) lab (V c main_v65) dw ⟨t.val / 8, by have : t.val < 16 := t.isLt; omega⟩ k := by
  have h7 : t.val % 8 = 7 := (flush1_4 t).mp hft
  have h' : 8 * (t.val / 8) + t.val % 8 < cfg1.N := by rw [Nat.div_add_mod]; exact t.isLt
  rw [K1.after_out V c t, pay2_apply]
  refine (congrFun (Pipeline.eq_accAt_of_mod (fun n hn => K1.acc (F := Ideal) V c n hn) 8
    (fun n hn => stp V c n hn (k1_pay3 (F := Ideal))) (stp V c)
    (fun n hn h0 => K1.acc_first V c ⟨n, hn⟩ h0) (fun n hn h0 => K1.acc_next V c ⟨n + 1, hn⟩ h0) (by decide) t.val t.isLt h') _).trans ?_
  rw [Pipeline.accAt_add_apply (β := EReal) (fun n hn => stp V c n hn (k1_pay3 (F := Ideal))) (stp V c) (k1_pay3 (F := Ideal))
    (blockSum V c lab dw) (8 * (t.val / 8)) 7 (fun hb i => point_eq V c lab dw hX hD _ hb _ i)
    (fun n hn a i _ _ => point_eq V c lab dw hX hD n hn a i) (t.val % 8) (by omega) h', pay3_apply, zero_add, h7]
  exact K0Pay.sum_blocks ⟨t.val / 8, by have : t.val < 16 := t.isLt; omega⟩
    (fun b => if hit lab b k then resid (V c main_arg0) (V c main_v65) dw b k else 0)

theorem out_eq (a : Fin 2) (k : Fin 64) :
    ((K1.dat V c).arrAt 4 cfg1.N : S2x64x1.Idx → EReal) (ix3 a k (0 : Fin 1))
      = withinHalf (V c main_arg0) lab (V c main_v65) dw a k := by
  have ha := a.isLt
  have ht : 8 * a.val + 7 < cfg1.N := by show 8 * a.val + 7 < 16; omega
  have hi : (ix3 a k (0 : Fin 1) : S2x64x1.Idx) ∈ ((cfg1.win 4).blk ⟨8 * a.val + 7, ht⟩).view.set := by
    rw [← emb4 ⟨8 * a.val + 7, ht⟩ a (by show (8 * a.val + 7) / 8 = a.val; omega) 0 k 0]
    exact View.emb_mem_set _ _
  refine (K1.dat V c).arrAt_forall_of_flushed 4
    (fun i v => (v : EReal) = withinHalf (V c main_arg0) lab (V c main_v65) dw (i 0) (i 1))
    (fun t hft y => ?_) cfg1.N ⟨8 * a.val + 7, ht⟩ (ix3 a k (0 : Fin 1)) ht
    ((flush1_4 _).mpr (by show (8 * a.val + 7) % 8 = 7; omega)) hi
  have hN : t.val < 16 := t.isLt
  obtain ⟨z, k', u, rfl⟩ : ∃ (z : Fin 1) (k' : Fin 64) (u : Fin 1), y = ix3 z k' u := ⟨y 0, y 1, y 2, eq_ix3 y⟩
  rw [emb4 t ⟨t.val / 8, by omega⟩ rfl z k' u]
  exact flushed_val V c lab dw hX hD t hft z k' u

end Out

end Cert.KernelIdeal.K1Val

end
-- ==== Proof.BridgeDefs.lean ====
import proofs.«411162_j38354057953796_3_alg».proof.Proof.Chain
import proofs.«411162_j38354057953796_3_alg».proof.Proof.Spec
import proofs.«411162_j38354057953796_3_alg».proof.Proof.IdxTab

noncomputable section

namespace Cert.Bridge

open Idealize.ShloMosaic Idealize.ShloMosaic.ValueIdx

def cntArr (lab : Cert.Spec.SL.Idx → BitVec 32) : FVec Ideal Cert.KernelIdeal.S64 .f32 := fun i => Cert.Spec.cnt lab (i 0)

def sumsArr (P : Cert.Spec.SP.Idx → EReal) (lab : Cert.Spec.SL.Idx → BitVec 32) : FVec Ideal Cert.KernelIdeal.S64x8x4096 .f32 :=
  fun i => Cert.Spec.sums P lab (i 0) (i 1) (i 2)

def withinArr (P : Cert.Spec.SP.Idx → EReal) (lab : Cert.Spec.SL.Idx → BitVec 32) (Cn : Cert.Spec.SC.Idx → EReal)
    (dw : Cert.Spec.SD.Idx → EReal) : FVec Ideal Cert.KernelIdeal.S64 .f32 := fun i => Cert.Spec.within P lab Cn dw (i 0)

def value (P : Cert.Spec.SP.Idx → EReal) (lab : Cert.Spec.SL.Idx → BitVec 32) (C : Cert.Spec.SC.Idx → EReal)
    (dw : Cert.Spec.SD.Idx → EReal) : FVec Ideal Cert.KernelIdeal.S_ .f32 :=
  Cert.KernelIdeal.Chain.result (cntArr lab) (sumsArr P lab) Cert.IdxTab.T
    (withinArr P lab (Cert.KernelIdeal.Chain.cnorm (cntArr lab) (sumsArr P lab) C) dw)

end Cert.Bridge

end
-- ==== Proof.KVal.lean ====
import proofs.«411162_j38354057953796_3_alg».proof.Proof.RunK
import proofs.«411162_j38354057953796_3_alg».proof.Proof.KHost
import proofs.«411162_j38354057953796_3_alg».proof.Proof.KerIdx
import proofs.«411162_j38354057953796_3_alg».proof.Proof.KChain
import proofs.«411162_j38354057953796_3_alg».proof.Proof.K0Val
import proofs.«411162_j38354057953796_3_alg».proof.Proof.K1Val
import proofs.«411162_j38354057953796_3_alg».proof.Proof.BridgeDefs

noncomputable section

namespace Cert.KernelIdeal.KVal

open Cert.KernelIdeal Cert.KernelIdeal.Gen Cert.Bridge
open Idealize.ShloMosaic Idealize.ShloMosaic.TcCoe Idealize.SL.Sem Idealize.ShloMosaic.ValueIdx

variable (m : (ℓ : Loc nD τ sig) → Buf (Elt Ideal) ℓ) (c : Dev nD)

theorem cnt_eq : V3 m c (Proc.devRef .tc main_v1) = cntArr (m ((c : Thread nD τ).loc main_arg1)) := by
  funext i
  obtain ⟨k, rfl⟩ : ∃ k : Fin 64, i = ix1 k := ⟨i 0, eq_ix1 i⟩
  exact KHost.v1_eq m c k

theorem oh0 (b : Fin 1024) (k : Fin 64) :
    (RunK.E0 m c main_v0 : S1024x64.Idx → EReal) (ix2 b k) = Cert.Spec.oh (m ((c : Thread nD τ).loc main_arg1)) b k :=
  KHost.v0_eq m c b k

theorem out0_eq : KHost.out0 (RunK.outs m) c
    = K0Val.Gout (m ((c : Thread nD τ).loc main_arg0)) (m ((c : Thread nD τ).loc main_arg1)) := by
  show RunK.outs m 4 main_v8 c = _
  rw [RunK.outs_4 m c]
  refine (K0Val.arr_eq (RunK.E0 m) c (m ((c : Thread nD τ).loc main_arg1)) (oh0 m c)).trans ?_
  show K0Val.Gout (V3 m c (Proc.devRef .tc main_arg0)) _ = _
  rw [KHost.V3_arg0 m c]

theorem sums_eq : V5 m (RunK.outs m) c (Proc.devRef .tc main_v13)
    = sumsArr (m ((c : Thread nD τ).loc main_arg0)) (m ((c : Thread nD τ).loc main_arg1)) := by
  funext i
  obtain ⟨k, h, f, rfl⟩ : ∃ (k : Fin 64) (h : Fin 8) (f : Fin 4096), i = ix3 k h f := ⟨i 0, i 1, i 2, eq_ix3 i⟩
  refine (KHost.v13_eq m (RunK.outs m) c k h f).trans ?_
  rw [out0_eq m c]
  exact (Cert.Spec.sums_halves (m ((c : Thread nD τ).loc main_arg0)) (m ((c : Thread nD τ).loc main_arg1)) k h f).symm

theorem oh1 (b : Fin 1024) (k : Fin 64) :
    (RunK.E1 m c main_v0 : S1024x64.Idx → EReal) (ix2 b k) = Cert.Spec.oh (m ((c : Thread nD τ).loc main_arg1)) b k :=
  KHost.v0_eq_V11 m (RunK.outs0 m) c b k

theorem dw1 (k : Fin 64) :
    (RunK.E1 m c main_v66 : S1x64.Idx → EReal) (ix2 (0 : Fin 1) k) = (m ((c : Thread nD τ).loc main_arg3) : S64.Idx → EReal) (ix1 k) :=
  KHost.v66_eq m (RunK.outs0 m) c k

theorem cn1 : RunK.E1 m c main_v65
    = Chain.cnorm (cntArr (m ((c : Thread nD τ).loc main_arg1)))
        (sumsArr (m ((c : Thread nD τ).loc main_arg0)) (m ((c : Thread nD τ).loc main_arg1))) (m ((c : Thread nD τ).loc main_arg2)) := by
  show V11 m (RunK.outs m) c (Proc.devRef .tc main_v65) = _
  rw [KChain.cnorm_eq m (RunK.outs m) c, cnt_eq m c, sums_eq m c]

theorem out1_eq (a : Fin 2) (k : Fin 64) : KHost.out1 (RunK.outs m) c (ix3 a k (0 : Fin 1))
    = Cert.Spec.withinHalf (m ((c : Thread nD τ).loc main_arg0)) (m ((c : Thread nD τ).loc main_arg1))
        (Chain.cnorm (cntArr (m ((c : Thread nD τ).loc main_arg1)))
          (sumsArr (m ((c : Thread nD τ).loc main_arg0)) (m ((c : Thread nD τ).loc main_arg1))) (m ((c : Thread nD τ).loc main_arg2)))
        (m ((c : Thread nD τ).loc main_arg3)) a k := by
  have e : KHost.out1 (RunK.outs m) c = (K1.dat (RunK.E1 m) c).arrAt 4 cfg1.N := RunK.outs_12 m c
  rw [e]
  refine (K1Val.out_eq (RunK.E1 m) c (m ((c : Thread nD τ).loc main_arg1)) (m ((c : Thread nD τ).loc main_arg3)) (oh1 m c) (dw1 m c) a k).trans ?_
  show Cert.Spec.withinHalf (V11 m (RunK.outs0 m) c (Proc.devRef .tc main_arg0)) _ (RunK.E1 m c main_v65) _ a k = _
  rw [KHost.V11_arg0 m (RunK.outs0 m) c, cn1 m c]

theorem within_eq : V13 m (RunK.outs m) c (Proc.devRef .tc main_v73)
    = withinArr (m ((c : Thread nD τ).loc main_arg0)) (m ((c : Thread nD τ).loc main_arg1))
        (Chain.cnorm (cntArr (m ((c : Thread nD τ).loc main_arg1)))
          (sumsArr (m ((c : Thread nD τ).loc main_arg0)) (m ((c : Thread nD τ).loc main_arg1))) (m ((c : Thread nD τ).loc main_arg2)))
        (m ((c : Thread nD τ).loc main_arg3)) := by
  funext i
  obtain ⟨k, rfl⟩ : ∃ k : Fin 64, i = ix1 k := ⟨i 0, eq_ix1 i⟩
  refine (KHost.v73_eq m (RunK.outs m) c k).trans ?_
  rw [out1_eq m c 0 k, out1_eq m c 1 k]
  exact (Cert.Spec.within_halves _ _ _ _ k).symm

theorem result_eq : V15 m (RunK.outs m) c (Proc.devRef .tc main_v78)
    = Cert.Bridge.value (m ((c : Thread nD τ).loc main_arg0)) (m ((c : Thread nD τ).loc main_arg1))
        (m ((c : Thread nD τ).loc main_arg2)) (m ((c : Thread nD τ).loc main_arg3)) := by
  rw [KChain.result_eq m (RunK.outs m) c, cnt_eq m c, sums_eq m c, within_eq m c, KerIdx.ker_tab m (RunK.outs m) c]
  rfl

end Cert.KernelIdeal.KVal

end
-- ==== Proof.RefRunOps.lean ====
import proofs.«411162_j38354057953796_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ binary main_arg0 main_arg0 main_v0 (mulf : (⟨S1024x8x4096, .f32⟩ : BufTy).Contents (Elt F) → (⟨S1024x8x4096, .f32⟩ : BufTy).Contents (Elt F) → (⟨S1024x8x4096, .f32⟩ : BufTy).Contents (Elt F)),
    nullary main_cst (constant S_ .f32 0x00000000#32),
    binary main_v0 main_cst main_v1 ((fun x v => Host.reduceAdd x v reducesTo_S1024x8x4096_S1024x8_d2 h_S_) : (⟨S1024x8x4096, .f32⟩ : BufTy).Contents (Elt F) → (⟨S_, .f32⟩ : BufTy).Contents (Elt F) → (⟨S1024x8, .f32⟩ : BufTy).Contents (Elt F)),
    unary main_v1 main_v2 (broadcastInDim S1024x8x1 ![0, 1] bcast_S1024x8_S1024x8x1_0_1 : (⟨S1024x8, .f32⟩ : BufTy).Contents (Elt F) → (⟨S1024x8x1, .f32⟩ : BufTy).Contents (Elt F)),
    unary main_v2 main_v3 (Host.sqrt : (⟨S1024x8x1, .f32⟩ : BufTy).Contents (Elt F) → (⟨S1024x8x1, .f32⟩ : BufTy).Contents (Elt F)),
    nullary main_cst_0 (constant S_ .f32 0x2B8CBCCC#32),
    unary main_cst_0 main_v4 (broadcastInDim S1024x8x1 ![] bcast_S_S1024x8x1 : (⟨S_, .f32⟩ : BufTy).Contents (Elt F) → (⟨S1024x8x1, .f32⟩ : BufTy).Contents (Elt F)),
    binary main_v3 main_v4 main_v5 (maximumf : (⟨S1024x8x1, .f32⟩ : BufTy).Contents (Elt F) → (⟨S1024x8x1, .f32⟩ : BufTy).Contents (Elt F) → (⟨S1024x8x1, .f32⟩ : BufTy).Contents (Elt F)),
    unary main_v5 main_v6 (broadcastInDim S1024x8x4096 ![0, 1, 2] bcast_S1024x8x1_S1024x8x4096_0_1_2 : (⟨S1024x8x1, .f32⟩ : BufTy).Contents (Elt F) → (⟨S1024x8x4096, .f32⟩ : BufTy).Contents (Elt F)),
    binary main_arg0 main_v6 main_v7 (Host.divf : (⟨S1024x8x4096, .f32⟩ : BufTy).Contents (Elt F) → (⟨S1024x8x4096, .f32⟩ : BufTy).Contents (Elt F) → (⟨S1024x8x4096, .f32⟩ : BufTy).Contents (Elt F)),
    nullary main_cst_1 (constant S_ .f32 0x3F800000#32),
    unary main_cst_1 main_v8 (broadcastInDim S1024 ![] bcast_S_S1024 : (⟨S_, .f32⟩ : BufTy).Contents (Elt F) → (⟨S1024, .f32⟩ : BufTy).Contents (Elt F)),
    nullary main_cst_2 (constant S_ .f32 0x00000000#32),
    unary main_cst_2 main_v9 (broadcastInDim S64 ![] bcast_S_S64 : (⟨S_, .f32⟩ : BufTy).Contents (Elt F) → (⟨S64, .f32⟩ : BufTy).Contents (Elt F)),
    unary main_arg1 main_v10 (broadcastInDim S1024x1 ![0] bcast_S1024_S1024x1_0 : (⟨S1024, .i32⟩ : BufTy).Contents (Elt F) → (⟨S1024x1, .i32⟩ : BufTy).Contents (Elt F)),
    ternary main_v9 main_v10 main_v8 main_v11 ((fun x i u => Host.scatterAdd scatter_S64_S1024x1_S1024_n_0_0_1 x i u) : (⟨S64, .f32⟩ : BufTy).Contents (Elt F) → (⟨S1024x1, .i32⟩ : BufTy).Contents (Elt F) → (⟨S1024, .f32⟩ : BufTy).Contents (Elt F) → (⟨S64, .f32⟩ : BufTy).Contents (Elt F)),
    nullary main_cst_3 (constant S_ .f32 0x00000000#32),
    unary main_cst_3 main_v12 (broadcastInDim S64x8x4096 ![] bcast_S_S64x8x4096 : (⟨S_, .f32⟩ : BufTy).Contents (Elt F) → (⟨S64x8x4096, .f32⟩ : BufTy).Contents (Elt F)),
    unary main_arg1 main_v13 (broadcastInDim S1024x1 ![0] bcast_S1024_S1024x1_0 : (⟨S1024, .i32⟩ : BufTy).Contents (Elt F) → (⟨S1024x1, .i32⟩ : BufTy).Contents (Elt F)),
    ternary main_v12 main_v13 main_v7 main_v14 ((fun x i u => Host.scatterAdd scatter_S64x8x4096_S1024x1_S1024x8x4096_12_0_0_1 x i u) : (⟨S64x8x4096, .f32⟩ : BufTy).Contents (Elt F) → (⟨S1024x1, .i32⟩ : BufTy).Contents (Elt F) → (⟨S1024x8x4096, .f32⟩ : BufTy).Contents (Elt F) → (⟨S64x8x4096, .f32⟩ : BufTy).Contents (Elt F)),
    nullary main_cst_4 (constant S_ .f32 0x3F800000#32),
    unary main_cst_4 main_v15 (broadcastInDim S64 ![] bcast_S_S64 : (⟨S_, .f32⟩ : BufTy).Contents (Elt F) → (⟨S64, .f32⟩ : BufTy).Contents (Elt F)),
    binary main_v11 main_v15 main_v16 (maximumf : (⟨S64, .f32⟩ : BufTy).Contents (Elt F) → (⟨S64, .f32⟩ : BufTy).Contents (Elt F) → (⟨S64, .f32⟩ : BufTy).Contents (Elt F)),
    unary main_v16 main_v17 (broadcastInDim S64x1x1 ![0] bcast_S64_S64x1x1_0 : (⟨S64, .f32⟩ : BufTy).Contents (Elt F) → (⟨S64x1x1, .f32⟩ : BufTy).Contents (Elt F)),
    unary main_v17 main_v18 (broadcastInDim S64x8x4096 ![0, 1, 2] bcast_S64x1x1_S64x8x4096_0_1_2 : (⟨S64x1x1, .f32⟩ : BufTy).Contents (Elt F) → (⟨S64x8x4096, .f32⟩ : BufTy).Contents (Elt F)),
    binary main_v14 main_v18 main_v19 (Host.divf : (⟨S64x8x4096, .f32⟩ : BufTy).Contents (Elt F) → (⟨S64x8x4096, .f32⟩ : BufTy).Contents (Elt F) → (⟨S64x8x4096, .f32⟩ : BufTy).Contents (Elt F)),
    nullary main_cst_5 (constant S_ .f32 0x00000000#32),
    unary main_cst_5 main_v20 (broadcastInDim S64 ![] bcast_S_S64 : (⟨S_, .f32⟩ : BufTy).Contents (Elt F) → (⟨S64, .f32⟩ : BufTy).Contents (Elt F)),
    binary main_v11 main_v20 main_v21 (cmpf .ogt : (⟨S64, .f32⟩ : BufTy).Contents (Elt F) → (⟨S64, .f32⟩ : BufTy).Contents (Elt F) → (⟨S64, .i1⟩ : BufTy).Contents (Elt F)),
    unary main_v21 main_v22 (uitofp .f32 : (⟨S64, .i1⟩ : BufTy).Contents (Elt F) → (⟨S64, .f32⟩ : BufTy).Contents (Elt F)),
    nullary main_cst_6 (constant S_ .f32 0x00000000#32),
    binary main_v22 main_cst_6 main_v23 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v19 main_v19 main_v24 (mulf : (⟨S64x8x4096, .f32⟩ : BufTy).Contents (Elt F) → (⟨S64x8x4096, .f32⟩ : BufTy).Contents (Elt F) → (⟨S64x8x4096, .f32⟩ : BufTy).Contents (Elt F)),
    nullary main_cst_7 (constant S_ .f32 0x00000000#32),
    binary main_v24 main_cst_7 main_v25 ((fun x v => Host.reduceAdd x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    binary main_v19 main_v19 main_v26 ((fun l r => Host.dotGeneral dot_S64x8x4096_S64x8x4096_S64x8x8_2_2_1_1_0_0 none l r) : (⟨S64x8x4096, .f32⟩ : BufTy).Contents (Elt F) → (⟨S64x8x4096, .f32⟩ : BufTy).Contents (Elt F) → (⟨S64x8x8, .f32⟩ : BufTy).Contents (Elt F)),
    unary main_v25 main_v27 (broadcastInDim S64x8x1 ![0, 1] bcast_S64x8_S64x8x1_0_1 : (⟨S64x8, .f32⟩ : BufTy).Contents (Elt F) → (⟨S64x8x1, .f32⟩ : BufTy).Contents (Elt F)),
    unary main_v25 main_v28 (broadcastInDim S64x1x8 ![0, 2] bcast_S64x8_S64x1x8_0_2 : (⟨S64x8, .f32⟩ : BufTy).Contents (Elt F) → (⟨S64x1x8, .f32⟩ : BufTy).Contents (Elt F)),
    unary main_v27 main_v29 (broadcastInDim S64x8x8 ![0, 1, 2] bcast_S64x8x1_S64x8x8_0_1_2 : (⟨S64x8x1, .f32⟩ : BufTy).Contents (Elt F) → (⟨S64x8x8, .f32⟩ : BufTy).Contents (Elt F)),
    unary main_v28 main_v30 (broadcastInDim S64x8x8 ![0, 1, 2] bcast_S64x1x8_S64x8x8_0_1_2 : (⟨S64x1x8, .f32⟩ : BufTy).Contents (Elt F) → (⟨S64x8x8, .f32⟩ : BufTy).Contents (Elt F)),
    binary main_v29 main_v30 main_v31 (addf : (⟨S64x8x8, .f32⟩ : BufTy).Contents (Elt F) → (⟨S64x8x8, .f32⟩ : BufTy).Contents (Elt F) → (⟨S64x8x8, .f32⟩ : BufTy).Contents (Elt F)),
    nullary main_cst_8 (constant S_ .f32 0x40000000#32),
    unary main_cst_8 main_v32 (broadcastInDim S64x8x8 ![] bcast_S_S64x8x8 : (⟨S_, .f32⟩ : BufTy).Contents (Elt F) → (⟨S64x8x8, .f32⟩ : BufTy).Contents (Elt F)),
    binary main_v32 main_v26 main_v33 (mulf : (⟨S64x8x8, .f32⟩ : BufTy).Contents (Elt F) → (⟨S64x8x8, .f32⟩ : BufTy).Contents (Elt F) → (⟨S64x8x8, .f32⟩ : BufTy).Contents (Elt F)),
    binary main_v31 main_v33 main_v34 (subf : (⟨S64x8x8, .f32⟩ : BufTy).Contents (Elt F) → (⟨S64x8x8, .f32⟩ : BufTy).Contents (Elt F) → (⟨S64x8x8, .f32⟩ : BufTy).Contents (Elt F)),
    nullary main_cst_9 (constant S_ .f32 0x2B8CBCCC#32),
    unary main_cst_9 main_v35 (broadcastInDim S64x8x8 ![] bcast_S_S64x8x8 : (⟨S_, .f32⟩ : BufTy).Contents (Elt F) → (⟨S64x8x8, .f32⟩ : BufTy).Contents (Elt F)),
    binary main_v34 main_v35 main_v36 (maximumf : (⟨S64x8x8, .f32⟩ : BufTy).Contents (Elt F) → (⟨S64x8x8, .f32⟩ : BufTy).Contents (Elt F) → (⟨S64x8x8, .f32⟩ : BufTy).Contents (Elt F)),
    unary main_v36 main_v37 (Host.sqrt : (⟨S64x8x8, .f32⟩ : BufTy).Contents (Elt F) → (⟨S64x8x8, .f32⟩ : BufTy).Contents (Elt F)),
    nullary main_cst_10 (constant S_ .f32 0x3F800000#32),
    unary main_cst_10 main_v38 (broadcastInDim S8x8 ![] bcast_S_S8x8 : (⟨S_, .f32⟩ : BufTy).Contents (Elt F) → (⟨S8x8, .f32⟩ : BufTy).Contents (Elt F)),
    TRef.nullary main_call0.v0 (iotaInDim S8x8 32 0),
    TRef.nullary main_call0.c (constantI S_ 32 0#32),
    TRef.unary main_call0.c main_call0.v1 (broadcastInDim S8x8 ![] bcast_S_S8x8),
    TRef.binary main_call0.v0 main_call0.v1 main_call0.v2 addi,
    TRef.nullary main_call0.v3 (iotaInDim S8x8 32 1),
    TRef.binary main_call0.v2 main_call0.v3 main_call0.v4 (cmpi .sge),
    TRef.nullary main_call0.cst (constant S_ .f32 0x00000000#32),
    TRef.unary main_call0.cst main_call0.v5 (broadcastInDim S8x8 ![] bcast_S_S8x8),
    TRef.ternary main_call0.v4 main_call0.v5 (.of main_v38 : TRef sig ⟨S8x8, .f32⟩) main_call0.v6 select,
    nullary main_cst_11 (constant S_ .f32 0x00000000#32),
    unary main_cst_11 main_v40 (broadcastInDim S8x8 ![] bcast_S_S8x8 : (⟨S_, .f32⟩ : BufTy).Contents (Elt F) → (⟨S8x8, .f32⟩ : BufTy).Contents (Elt F)),
    binary main_v39 main_v40 main_v41 (cmpf .une : (⟨S8x8, .f32⟩ : BufTy).Contents (Elt F) → (⟨S8x8, .f32⟩ : BufTy).Contents (Elt F) → (⟨S8x8, .i1⟩ : BufTy).Contents (Elt F)),
    TRef.reshape (.of main_v41 : TRef sig ⟨S8x8, .i1⟩) main_call1.v0 rfl shapeCasts_S8x8_S64,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![64] ![1] ![63] ![0] x v reduceWindows_S64_S64_w64s1p63_0 h_S_),
    nullary main_c (constantI S_ 32 0#32),
    unary main_c main_v43 (broadcastInDim S28 ![] bcast_S_S28 : (⟨S_, .i32⟩ : BufTy).Contents (Elt F) → (⟨S28, .i32⟩ : BufTy).Contents (Elt F)),
    nullary main_c_12 (constantI S_ 32 0#32),
    TRef.unary (.of main_c_12 : TRef sig ⟨S_, .i32⟩) main_call2.v0 id,
    TRef.unary main_call2.v0 main_call2.v1 (broadcastInDim S64 ![] bcast_S_S64),
    TRef.binary main_call2.v1 (.of main_v42 : TRef sig ⟨S64, .i32⟩) main_call2.v2 maxsi,
    nullary main_c_13 (constantI S_ 32 0#32),
    unary main_c_13 main_v45 (broadcastInDim S64 ![] bcast_S_S64 : (⟨S_, .i32⟩ : BufTy).Contents (Elt F) → (⟨S64, .i32⟩ : BufTy).Contents (Elt F)),
    binary main_v44 main_v45 main_v46 (cmpi .slt : (⟨S64, .i32⟩ : BufTy).Contents (Elt F) → (⟨S64, .i32⟩ : BufTy).Contents (Elt F) → (⟨S64, .i1⟩ : BufTy).Contents (Elt F)),
    nullary main_c_14 (constantI S_ 32 28#32),
    unary main_c_14 main_v47 (broadcastInDim S64 ![] bcast_S_S64 : (⟨S_, .i32⟩ : BufTy).Contents (Elt F) → (⟨S64, .i32⟩ : BufTy).Contents (Elt F)),
    binary main_v44 main_v47 main_v48 (addi : (⟨S64, .i32⟩ : BufTy).Contents (Elt F) → (⟨S64, .i32⟩ : BufTy).Contents (Elt F) → (⟨S64, .i32⟩ : BufTy).Contents (Elt F)),
    ternary main_v46 main_v48 main_v44 main_v49 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v49 main_v50 (broadcastInDim S64x1 ![0] bcast_S64_S64x1_0 : (⟨S64, .i32⟩ : BufTy).Contents (Elt F) → (⟨S64x1, .i32⟩ : BufTy).Contents (Elt F)),
    nullary main_c_15 (constantI S_ 32 1#32),
    unary main_c_15 main_v51 (broadcastInDim S64 ![] bcast_S_S64 : (⟨S_, .i32⟩ : BufTy).Contents (Elt F) → (⟨S64, .i32⟩ : BufTy).Contents (Elt F)),
    ternary main_v43 main_v50 main_v51 main_v52 ((fun x i u => Host.scatter scatter_S28_S64x1_S64_n_0_0_1 IntOp.addi x i u) : (⟨S28, .i32⟩ : BufTy).Contents (Elt F) → (⟨S64x1, .i32⟩ : BufTy).Contents (Elt F) → (⟨S64, .i32⟩ : BufTy).Contents (Elt F) → (⟨S28, .i32⟩ : BufTy).Contents (Elt F)),
    TRef.nullary main_call3.call0.c (constantI S_ 32 0#32),
    TRef.unary main_call3.call0.c main_call3.call0.v0 (broadcastInDim S_ ![] bcast_S_S_),
    TRef.binary (.of main_v52 : TRef sig ⟨S28, .i32⟩) main_call3.call0.v0 main_call3.call0.v1 (fun x v => Host.reduceWindow IntOp.addi ![28] ![1] ![27] ![0] x v reduceWindows_S28_S28_w28s1p27_0 h_S_),
    nullary main_c_16 (constantI S_ 32 8#32),
    TRef.unary (.of main_c_16 : TRef sig ⟨S_, .i32⟩) main_call4.v0 (broadcastInDim S28 ![] bcast_S_S28),
    TRef.binary (.of main_v53 : TRef sig ⟨S28, .i32⟩) main_call4.v0 main_call4.v1 Host.divsi,
    TRef.unary (.of main_v53 : TRef sig ⟨S28, .i32⟩) main_call4.v2 signi,
    TRef.unary (.of main_c_16 : TRef sig ⟨S_, .i32⟩) main_call4.v3 signi,
    TRef.unary main_call4.v3 main_call4.v4 (broadcastInDim S28 ![] bcast_S_S28),
    TRef.binary main_call4.v2 main_call4.v4 main_call4.v5 (cmpi .ne),
    TRef.unary (.of main_c_16 : TRef sig ⟨S_, .i32⟩) main_call4.v6 (broadcastInDim S28 ![] bcast_S_S28),
    TRef.binary (.of main_v53 : TRef sig ⟨S28, .i32⟩) main_call4.v6 main_call4.v7 Host.remsi,
    TRef.nullary main_call4.c (constantI S_ 32 0#32),
    TRef.unary main_call4.c main_call4.v8 (broadcastInDim S28 ![] bcast_S_S28),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S28 ![] bcast_S_S28),
    TRef.binary main_call4.v1 main_call4.v11 main_call4.v12 subi,
    TRef.ternary main_call4.v10 main_call4.v12 main_call4.v1 main_call4.call0.v0 select,
    nullary main_c_17 (constantI S_ 32 8#32),
    TRef.unary (.of main_c_17 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S28 ![] bcast_S_S28),
    TRef.binary (.of main_v54 : TRef sig ⟨S28, .i32⟩) main_call5.v3 main_call5.v4 Host.remsi,
    TRef.nullary main_call5.c_1 (constantI S_ 32 0#32),
    TRef.unary main_call5.c_1 main_call5.v5 (broadcastInDim S28 ![] bcast_S_S28),
    TRef.binary main_call5.v4 main_call5.v5 main_call5.v6 (cmpi .ne),
    TRef.nullary main_call5.c_2 (constantI S_ 32 0#32),
    TRef.unary main_call5.c_2 main_call5.v7 (broadcastInDim S28 ![] bcast_S_S28),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S28 ![] bcast_S_S28),
    TRef.binary main_call5.v8 main_call5.v10 main_call5.v11 (cmpi .ne),
    TRef.binary main_call5.v11 main_call5.v6 main_call5.v12 andi,
    TRef.unary main_call5.call0.v0 main_call5.v13 (broadcastInDim S28 ![] bcast_S_S28),
    TRef.binary main_call5.v4 main_call5.v13 main_call5.v14 addi,
    TRef.ternary main_call5.v12 main_call5.v14 main_call5.v4 main_call5.v15 select,
    nullary main_c_18 (constantI S_ 32 1#32),
    TRef.unary (.of main_c_18 : TRef sig ⟨S_, .i32⟩) main_call6.v0 (broadcastInDim S28 ![] bcast_S_S28),
    TRef.binary (.of main_v53 : TRef sig ⟨S28, .i32⟩) main_call6.v0 main_call6.v1 Host.divsi,
    TRef.unary (.of main_v53 : TRef sig ⟨S28, .i32⟩) main_call6.v2 signi,
    TRef.unary (.of main_c_18 : TRef sig ⟨S_, .i32⟩) main_call6.v3 signi,
    TRef.unary main_call6.v3 main_call6.v4 (broadcastInDim S28 ![] bcast_S_S28),
    TRef.binary main_call6.v2 main_call6.v4 main_call6.v5 (cmpi .ne),
    TRef.unary (.of main_c_18 : TRef sig ⟨S_, .i32⟩) main_call6.v6 (broadcastInDim S28 ![] bcast_S_S28),
    TRef.binary (.of main_v53 : TRef sig ⟨S28, .i32⟩) main_call6.v6 main_call6.v7 Host.remsi,
    TRef.nullary main_call6.c (constantI S_ 32 0#32),
    TRef.unary main_call6.c main_call6.v8 (broadcastInDim S28 ![] bcast_S_S28),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S28 ![] bcast_S_S28),
    TRef.binary main_call6.v1 main_call6.v11 main_call6.v12 subi,
    TRef.ternary main_call6.v10 main_call6.v12 main_call6.v1 main_call6.call0.v0 select,
    nullary main_c_19 (constantI S_ 32 8#32),
    TRef.unary (.of main_c_19 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S28 ![] bcast_S_S28),
    TRef.binary (.of main_v56 : TRef sig ⟨S28, .i32⟩) main_call7.v3 main_call7.v4 Host.remsi,
    TRef.nullary main_call7.c_1 (constantI S_ 32 0#32),
    TRef.unary main_call7.c_1 main_call7.v5 (broadcastInDim S28 ![] bcast_S_S28),
    TRef.binary main_call7.v4 main_call7.v5 main_call7.v6 (cmpi .ne),
    TRef.nullary main_call7.c_2 (constantI S_ 32 0#32),
    TRef.unary main_call7.c_2 main_call7.v7 (broadcastInDim S28 ![] bcast_S_S28),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S28 ![] bcast_S_S28),
    TRef.binary main_call7.v8 main_call7.v10 main_call7.v11 (cmpi .ne),
    TRef.binary main_call7.v11 main_call7.v6 main_call7.v12 andi,
    TRef.unary main_call7.call0.v0 main_call7.v13 (broadcastInDim S28 ![] bcast_S_S28),
    TRef.binary main_call7.v4 main_call7.v13 main_call7.v14 addi,
    TRef.ternary main_call7.v12 main_call7.v14 main_call7.v4 main_call7.v15 select,
    nullary main_c_20 (constantI S_ 32 0#32),
    unary main_c_20 main_v58 (broadcastInDim S28 ![] bcast_S_S28 : (⟨S_, .i32⟩ : BufTy).Contents (Elt F) → (⟨S28, .i32⟩ : BufTy).Contents (Elt F)),
    binary main_v55 main_v58 main_v59 (cmpi .slt : (⟨S28, .i32⟩ : BufTy).Contents (Elt F) → (⟨S28, .i32⟩ : BufTy).Contents (Elt F) → (⟨S28, .i1⟩ : BufTy).Contents (Elt F)),
    nullary main_c_21 (constantI S_ 32 8#32),
    unary main_c_21 main_v60 (broadcastInDim S28 ![] bcast_S_S28 : (⟨S_, .i32⟩ : BufTy).Contents (Elt F) → (⟨S28, .i32⟩ : BufTy).Contents (Elt F)),
    binary main_v55 main_v60 main_v61 (addi : (⟨S28, .i32⟩ : BufTy).Contents (Elt F) → (⟨S28, .i32⟩ : BufTy).Contents (Elt F) → (⟨S28, .i32⟩ : BufTy).Contents (Elt F)),
    ternary main_v59 main_v61 main_v55 main_v62 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    nullary main_c_22 (constantI S_ 32 0#32),
    unary main_c_22 main_v63 (broadcastInDim S28 ![] bcast_S_S28 : (⟨S_, .i32⟩ : BufTy).Contents (Elt F) → (⟨S28, .i32⟩ : BufTy).Contents (Elt F)),
    binary main_v57 main_v63 main_v64 (cmpi .slt : (⟨S28, .i32⟩ : BufTy).Contents (Elt F) → (⟨S28, .i32⟩ : BufTy).Contents (Elt F) → (⟨S28, .i1⟩ : BufTy).Contents (Elt F)),
    nullary main_c_23 (constantI S_ 32 8#32),
    unary main_c_23 main_v65 (broadcastInDim S28 ![] bcast_S_S28 : (⟨S_, .i32⟩ : BufTy).Contents (Elt F) → (⟨S28, .i32⟩ : BufTy).Contents (Elt F)),
    binary main_v57 main_v65 main_v66 (addi : (⟨S28, .i32⟩ : BufTy).Contents (Elt F) → (⟨S28, .i32⟩ : BufTy).Contents (Elt F) → (⟨S28, .i32⟩ : BufTy).Contents (Elt F)),
    ternary main_v64 main_v66 main_v57 main_v67 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    unary main_v62 main_v68 (broadcastInDim S28x1 ![0] bcast_S28_S28x1_0 : (⟨S28, .i32⟩ : BufTy).Contents (Elt F) → (⟨S28x1, .i32⟩ : BufTy).Contents (Elt F)),
    unary main_v67 main_v69 (broadcastInDim S28x1 ![0] bcast_S28_S28x1_0 : (⟨S28, .i32⟩ : BufTy).Contents (Elt F) → (⟨S28x1, .i32⟩ : BufTy).Contents (Elt F)),
    binary main_v68 main_v69 main_v70 ((fun a b => concatenate S28x2 1 [⟨S28x1, a⟩, ⟨S28x1, b⟩] concatenates_S28x1_S28x1_S28x2_d1) : (⟨S28x1, .i32⟩ : BufTy).Contents (Elt F) → (⟨S28x1, .i32⟩ : BufTy).Contents (Elt F) → (⟨S28x2, .i32⟩ : BufTy).Contents (Elt F)),
    binary main_v37 main_v70 main_v71 ((fun x i => Host.gather gather_S64x8x8_S28x2_S64x28_0_12_n_n_12_1_6411 x i) : (⟨S64x8x8, .f32⟩ : BufTy).Contents (Elt F) → (⟨S28x2, .i32⟩ : BufTy).Contents (Elt F) → (⟨S64x28, .f32⟩ : BufTy).Contents (Elt F)),
    nullary main_cst_24 (constant S_ .f32 0x3F800000#32),
    binary main_v23 main_cst_24 main_v72 (maximumf : (⟨S_, .f32⟩ : BufTy).Contents (Elt F) → (⟨S_, .f32⟩ : BufTy).Contents (Elt F) → (⟨S_, .f32⟩ : BufTy).Contents (Elt F)),
    nullary main_cst_25 (constant S_ .f32 0x00000000#32),
    binary main_v71 main_cst_25 main_v73 ((fun x v => Host.reduceAdd x v reducesTo_S64x28_S64_d1 h_S_) : (⟨S64x28, .f32⟩ : BufTy).Contents (Elt F) → (⟨S_, .f32⟩ : BufTy).Contents (Elt F) → (⟨S64, .f32⟩ : BufTy).Contents (Elt F)),
    nullary main_cst_26 (constant S_ .f32 0x41E00000#32),
    unary main_cst_26 main_v74 (broadcastInDim S64 ![] bcast_S_S64 : (⟨S_, .f32⟩ : BufTy).Contents (Elt F) → (⟨S64, .f32⟩ : BufTy).Contents (Elt F)),
    binary main_v73 main_v74 main_v75 (Host.divf : (⟨S64, .f32⟩ : BufTy).Contents (Elt F) → (⟨S64, .f32⟩ : BufTy).Contents (Elt F) → (⟨S64, .f32⟩ : BufTy).Contents (Elt F)),
    nullary main_cst_27 (constant S_ .f32 0x00000000#32),
    TRef.unary (.of main_cst_27 : TRef sig ⟨S_, .f32⟩) main_call8.v0 id,
    TRef.unary main_call8.v0 main_call8.v1 (broadcastInDim S64 ![] bcast_S_S64),
    TRef.ternary (.of main_v21 : TRef sig ⟨S64, .i1⟩) (.of main_v75 : TRef sig ⟨S64, .f32⟩) main_call8.v1 main_call8.v2 select,
    nullary main_cst_28 (constant S_ .f32 0x00000000#32),
    binary main_v76 main_cst_28 main_v77 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v77 main_v72 main_v78 (Host.divf : (⟨S_, .f32⟩ : BufTy).Contents (Elt F) → (⟨S_, .f32⟩ : BufTy).Contents (Elt F) → (⟨S_, .f32⟩ : BufTy).Contents (Elt F)),
    nullary main_cst_29 (constant S_ .f32 0x3F800000#32),
    unary main_cst_29 main_v79 (broadcastInDim S64x28 ![] bcast_S_S64x28 : (⟨S_, .f32⟩ : BufTy).Contents (Elt F) → (⟨S64x28, .f32⟩ : BufTy).Contents (Elt F)),
    binary main_v79 main_v71 main_v80 (subf : (⟨S64x28, .f32⟩ : BufTy).Contents (Elt F) → (⟨S64x28, .f32⟩ : BufTy).Contents (Elt F) → (⟨S64x28, .f32⟩ : BufTy).Contents (Elt F)),
    TRef.nullary main_call9.cst (constant S_ .f32 0x00000000#32),
    TRef.unary main_call9.cst main_call9.v0 (broadcastInDim S64x28 ![] bcast_S_S64x28),
    TRef.binary (.of main_v80 : TRef sig ⟨S64x28, .f32⟩) main_call9.v0 main_call9.v1 maximumf,
    nullary main_cst_30 (constant S_ .f32 0x00000000#32),
    binary main_v81 main_cst_30 main_v82 ((fun x v => Host.reduceAdd x v reducesTo_S64x28_S64_d1 h_S_) : (⟨S64x28, .f32⟩ : BufTy).Contents (Elt F) → (⟨S_, .f32⟩ : BufTy).Contents (Elt F) → (⟨S64, .f32⟩ : BufTy).Contents (Elt F)),
    nullary main_cst_31 (constant S_ .f32 0x41E00000#32),
    unary main_cst_31 main_v83 (broadcastInDim S64 ![] bcast_S_S64 : (⟨S_, .f32⟩ : BufTy).Contents (Elt F) → (⟨S64, .f32⟩ : BufTy).Contents (Elt F)),
    binary main_v82 main_v83 main_v84 (Host.divf : (⟨S64, .f32⟩ : BufTy).Contents (Elt F) → (⟨S64, .f32⟩ : BufTy).Contents (Elt F) → (⟨S64, .f32⟩ : BufTy).Contents (Elt F)),
    nullary main_cst_32 (constant S_ .f32 0x00000000#32),
    TRef.unary (.of main_cst_32 : TRef sig ⟨S_, .f32⟩) main_call10.v0 id,
    TRef.unary main_call10.v0 main_call10.v1 (broadcastInDim S64 ![] bcast_S_S64),
    TRef.ternary (.of main_v21 : TRef sig ⟨S64, .i1⟩) (.of main_v84 : TRef sig ⟨S64, .f32⟩) main_call10.v1 main_call10.v2 select,
    nullary main_cst_33 (constant S_ .f32 0x00000000#32),
    binary main_v85 main_cst_33 main_v86 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v86 main_v72 main_v87 (Host.divf : (⟨S_, .f32⟩ : BufTy).Contents (Elt F) → (⟨S_, .f32⟩ : BufTy).Contents (Elt F) → (⟨S_, .f32⟩ : BufTy).Contents (Elt F)),
    unary main_v21 main_v88 (broadcastInDim S64x1x1 ![0] bcast_S64_S64x1x1_0 : (⟨S64, .i1⟩ : BufTy).Contents (Elt F) → (⟨S64x1x1, .i1⟩ : BufTy).Contents (Elt F)),
    nullary main_cst_34 (constant S_ .f32 0x3F666666#32),
    unary main_cst_34 main_v89 (broadcastInDim S64x8x4096 ![] bcast_S_S64x8x4096 : (⟨S_, .f32⟩ : BufTy).Contents (Elt F) → (⟨S64x8x4096, .f32⟩ : BufTy).Contents (Elt F)),
    binary main_v89 main_arg2 main_v90 (mulf : (⟨S64x8x4096, .f32⟩ : BufTy).Contents (Elt F) → (⟨S64x8x4096, .f32⟩ : BufTy).Contents (Elt F) → (⟨S64x8x4096, .f32⟩ : BufTy).Contents (Elt F)),
    nullary main_cst_35 (constant S_ .f32 0x3DCCCCCD#32),
    unary main_cst_35 main_v91 (broadcastInDim S64x8x4096 ![] bcast_S_S64x8x4096 : (⟨S_, .f32⟩ : BufTy).Contents (Elt F) → (⟨S64x8x4096, .f32⟩ : BufTy).Contents (Elt F)),
    binary main_v91 main_v19 main_v92 (mulf : (⟨S64x8x4096, .f32⟩ : BufTy).Contents (Elt F) → (⟨S64x8x4096, .f32⟩ : BufTy).Contents (Elt F) → (⟨S64x8x4096, .f32⟩ : BufTy).Contents (Elt F)),
    binary main_v90 main_v92 main_v93 (addf : (⟨S64x8x4096, .f32⟩ : BufTy).Contents (Elt F) → (⟨S64x8x4096, .f32⟩ : BufTy).Contents (Elt F) → (⟨S64x8x4096, .f32⟩ : BufTy).Contents (Elt F)),
    TRef.unary (.of main_v88 : TRef sig ⟨S64x1x1, .i1⟩) main_call11.v0 (broadcastInDim S64x8x4096 ![0, 1, 2] bcast_S64x1x1_S64x8x4096_0_1_2),
    TRef.ternary main_call11.v0 (.of main_v93 : TRef sig ⟨S64x8x4096, .f32⟩) (.of main_arg2 : TRef sig ⟨S64x8x4096, .f32⟩) main_call11.v1 select,
    binary main_v94 main_v94 main_v95 (mulf : (⟨S64x8x4096, .f32⟩ : BufTy).Contents (Elt F) → (⟨S64x8x4096, .f32⟩ : BufTy).Contents (Elt F) → (⟨S64x8x4096, .f32⟩ : BufTy).Contents (Elt F)),
    nullary main_cst_36 (constant S_ .f32 0x00000000#32),
    binary main_v95 main_cst_36 main_v96 ((fun x v => Host.reduceAdd x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    unary main_v96 main_v97 (broadcastInDim S64x8x1 ![0, 1] bcast_S64x8_S64x8x1_0_1 : (⟨S64x8, .f32⟩ : BufTy).Contents (Elt F) → (⟨S64x8x1, .f32⟩ : BufTy).Contents (Elt F)),
    unary main_v97 main_v98 (Host.sqrt : (⟨S64x8x1, .f32⟩ : BufTy).Contents (Elt F) → (⟨S64x8x1, .f32⟩ : BufTy).Contents (Elt F)),
    nullary main_cst_37 (constant S_ .f32 0x2B8CBCCC#32),
    unary main_cst_37 main_v99 (broadcastInDim S64x8x1 ![] bcast_S_S64x8x1 : (⟨S_, .f32⟩ : BufTy).Contents (Elt F) → (⟨S64x8x1, .f32⟩ : BufTy).Contents (Elt F)),
    binary main_v98 main_v99 main_v100 (maximumf : (⟨S64x8x1, .f32⟩ : BufTy).Contents (Elt F) → (⟨S64x8x1, .f32⟩ : BufTy).Contents (Elt F) → (⟨S64x8x1, .f32⟩ : BufTy).Contents (Elt F)),
    unary main_v100 main_v101 (broadcastInDim S64x8x4096 ![0, 1, 2] bcast_S64x8x1_S64x8x4096_0_1_2 : (⟨S64x8x1, .f32⟩ : BufTy).Contents (Elt F) → (⟨S64x8x4096, .f32⟩ : BufTy).Contents (Elt F)),
    binary main_v94 main_v101 main_v102 (Host.divf : (⟨S64x8x4096, .f32⟩ : BufTy).Contents (Elt F) → (⟨S64x8x4096, .f32⟩ : BufTy).Contents (Elt F) → (⟨S64x8x4096, .f32⟩ : BufTy).Contents (Elt F)),
    nullary main_c_38 (constantI S_ 32 0#32),
    unary main_c_38 main_v103 (broadcastInDim S1024 ![] bcast_S_S1024 : (⟨S_, .i32⟩ : BufTy).Contents (Elt F) → (⟨S1024, .i32⟩ : BufTy).Contents (Elt F)),
    binary main_arg1 main_v103 main_v104 (cmpi .slt : (⟨S1024, .i32⟩ : BufTy).Contents (Elt F) → (⟨S1024, .i32⟩ : BufTy).Contents (Elt F) → (⟨S1024, .i1⟩ : BufTy).Contents (Elt F)),
    nullary main_c_39 (constantI S_ 32 64#32),
    unary main_c_39 main_v105 (broadcastInDim S1024 ![] bcast_S_S1024 : (⟨S_, .i32⟩ : BufTy).Contents (Elt F) → (⟨S1024, .i32⟩ : BufTy).Contents (Elt F)),
    binary main_arg1 main_v105 main_v106 (addi : (⟨S1024, .i32⟩ : BufTy).Contents (Elt F) → (⟨S1024, .i32⟩ : BufTy).Contents (Elt F) → (⟨S1024, .i32⟩ : BufTy).Contents (Elt F)),
    ternary main_v104 main_v106 main_arg1 main_v107 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v107 main_v108 (broadcastInDim S1024x1 ![0] bcast_S1024_S1024x1_0 : (⟨S1024, .i32⟩ : BufTy).Contents (Elt F) → (⟨S1024x1, .i32⟩ : BufTy).Contents (Elt F)),
    binary main_v102 main_v108 main_v109 ((fun x i => Host.gather gather_S64x8x4096_S1024x1_S1024x8x4096_12_0_n_n_0_1_184096 x i) : (⟨S64x8x4096, .f32⟩ : BufTy).Contents (Elt F) → (⟨S1024x1, .i32⟩ : BufTy).Contents (Elt F) → (⟨S1024x8x4096, .f32⟩ : BufTy).Contents (Elt F)),
    binary main_v7 main_v109 main_v110 (subf : (⟨S1024x8x4096, .f32⟩ : BufTy).Contents (Elt F) → (⟨S1024x8x4096, .f32⟩ : BufTy).Contents (Elt F) → (⟨S1024x8x4096, .f32⟩ : BufTy).Contents (Elt F)),
    binary main_v110 main_v110 main_v111 (mulf : (⟨S1024x8x4096, .f32⟩ : BufTy).Contents (Elt F) → (⟨S1024x8x4096, .f32⟩ : BufTy).Contents (Elt F) → (⟨S1024x8x4096, .f32⟩ : BufTy).Contents (Elt F)),
    nullary main_cst_40 (constant S_ .f32 0x00000000#32),
    binary main_v111 main_cst_40 main_v112 ((fun x v => Host.reduceAdd x v reducesTo_S1024x8x4096_S1024_d1_2 h_S_) : (⟨S1024x8x4096, .f32⟩ : BufTy).Contents (Elt F) → (⟨S_, .f32⟩ : BufTy).Contents (Elt F) → (⟨S1024, .f32⟩ : BufTy).Contents (Elt F)),
    unary main_v112 main_v113 (Host.sqrt : (⟨S1024, .f32⟩ : BufTy).Contents (Elt F) → (⟨S1024, .f32⟩ : BufTy).Contents (Elt F)),
    nullary main_c_41 (constantI S_ 32 0#32),
    unary main_c_41 main_v114 (broadcastInDim S1024 ![] bcast_S_S1024 : (⟨S_, .i32⟩ : BufTy).Contents (Elt F) → (⟨S1024, .i32⟩ : BufTy).Contents (Elt F)),
    binary main_arg1 main_v114 main_v115 (cmpi .slt : (⟨S1024, .i32⟩ : BufTy).Contents (Elt F) → (⟨S1024, .i32⟩ : BufTy).Contents (Elt F) → (⟨S1024, .i1⟩ : BufTy).Contents (Elt F)),
    nullary main_c_42 (constantI S_ 32 64#32),
    unary main_c_42 main_v116 (broadcastInDim S1024 ![] bcast_S_S1024 : (⟨S_, .i32⟩ : BufTy).Contents (Elt F) → (⟨S1024, .i32⟩ : BufTy).Contents (Elt F)),
    binary main_arg1 main_v116 main_v117 (addi : (⟨S1024, .i32⟩ : BufTy).Contents (Elt F) → (⟨S1024, .i32⟩ : BufTy).Contents (Elt F) → (⟨S1024, .i32⟩ : BufTy).Contents (Elt F)),
    ternary main_v115 main_v117 main_arg1 main_v118 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v118 main_v119 (broadcastInDim S1024x1 ![0] bcast_S1024_S1024x1_0 : (⟨S1024, .i32⟩ : BufTy).Contents (Elt F) → (⟨S1024x1, .i32⟩ : BufTy).Contents (Elt F)),
    binary main_arg3 main_v119 main_v120 ((fun x i => Host.gather gather_S64_S1024x1_S1024_n_0_n_n_0_1_1 x i) : (⟨S64, .f32⟩ : BufTy).Contents (Elt F) → (⟨S1024x1, .i32⟩ : BufTy).Contents (Elt F) → (⟨S1024, .f32⟩ : BufTy).Contents (Elt F)),
    binary main_v113 main_v120 main_v121 (subf : (⟨S1024, .f32⟩ : BufTy).Contents (Elt F) → (⟨S1024, .f32⟩ : BufTy).Contents (Elt F) → (⟨S1024, .f32⟩ : BufTy).Contents (Elt F)),
    TRef.nullary main_call12.cst (constant S_ .f32 0x00000000#32),
    TRef.unary main_call12.cst main_call12.v0 (broadcastInDim S1024 ![] bcast_S_S1024),
    TRef.binary (.of main_v121 : TRef sig ⟨S1024, .f32⟩) main_call12.v0 main_call12.v1 maximumf,
    nullary main_cst_43 (constant S_ .f32 0x00000000#32),
    unary main_cst_43 main_v123 (broadcastInDim S64 ![] bcast_S_S64 : (⟨S_, .f32⟩ : BufTy).Contents (Elt F) → (⟨S64, .f32⟩ : BufTy).Contents (Elt F)),
    unary main_arg1 main_v124 (broadcastInDim S1024x1 ![0] bcast_S1024_S1024x1_0 : (⟨S1024, .i32⟩ : BufTy).Contents (Elt F) → (⟨S1024x1, .i32⟩ : BufTy).Contents (Elt F)),
    ternary main_v123 main_v124 main_v122 main_v125 ((fun x i u => Host.scatterAdd scatter_S64_S1024x1_S1024_n_0_0_1 x i u) : (⟨S64, .f32⟩ : BufTy).Contents (Elt F) → (⟨S1024x1, .i32⟩ : BufTy).Contents (Elt F) → (⟨S1024, .f32⟩ : BufTy).Contents (Elt F) → (⟨S64, .f32⟩ : BufTy).Contents (Elt F)),
    binary main_v125 main_v16 main_v126 (Host.divf : (⟨S64, .f32⟩ : BufTy).Contents (Elt F) → (⟨S64, .f32⟩ : BufTy).Contents (Elt F) → (⟨S64, .f32⟩ : BufTy).Contents (Elt F)),
    nullary main_cst_44 (constant S_ .f32 0x00000000#32),
    TRef.unary (.of main_cst_44 : TRef sig ⟨S_, .f32⟩) main_call13.v0 id,
    TRef.unary main_call13.v0 main_call13.v1 (broadcastInDim S64 ![] bcast_S_S64),
    TRef.ternary (.of main_v21 : TRef sig ⟨S64, .i1⟩) (.of main_v126 : TRef sig ⟨S64, .f32⟩) main_call13.v1 main_call13.v2 select,
    nullary main_cst_45 (constant S_ .f32 0x00000000#32),
    binary main_v127 main_cst_45 main_v128 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_46 (constant S_ .f32 0x42800000#32),
    binary main_v128 main_cst_46 main_v129 (Host.divf : (⟨S_, .f32⟩ : BufTy).Contents (Elt F) → (⟨S_, .f32⟩ : BufTy).Contents (Elt F) → (⟨S_, .f32⟩ : BufTy).Contents (Elt F)),
    binary main_v129 main_v87 main_v130 (addf : (⟨S_, .f32⟩ : BufTy).Contents (Elt F) → (⟨S_, .f32⟩ : BufTy).Contents (Elt F) → (⟨S_, .f32⟩ : BufTy).Contents (Elt F)) ]

end Cert.ReferenceIdeal.RefRun

end
-- ==== Proof.RefRun.lean ====
import proofs.«411162_j38354057953796_3_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem main_part0_eq (c : Dev nD) : main_part0 (F := F) c = seq (ops.take 74) := by
  simp only [List.take_succ_cons, List.take_zero, main_part0, fn_triu.body, fn_cumsum.body, fn_cumsum_0.body, fn_clip.body,
    seq, bind_assoc, pure_bind]

theorem main_part1_eq (c : Dev nD) : main_part1 (F := F) c = seq ((ops.drop 74).take 136) := by
  simp only [List.drop_succ_cons, List.drop_zero, List.take_succ_cons, List.take_zero, main_part1, fn_cumsum_1.body,
    fn_cumsum_2.body, fn_floor_divide.body, fn_where.body, fn_remainder.body, fn_where_3.body, fn_where_4.body, fn_relu.body,
    seq, bind_assoc, pure_bind]
  rfl

theorem main_part2_eq (c : Dev nD) : main_part2 (F := F) c = seq ((ops.drop 74).drop 136) := by
  simp only [List.drop_succ_cons, List.drop_zero, main_part2, fn_where_4.body, fn_where_5.body, fn_relu_6.body, seq,
    bind_assoc, pure_bind]
  rfl

-- the line is its three printed stretches one after the other
theorem main_eq (c : Dev nD) : main (F := F) c = seq ops := by
  have h : (ops : List (HloOp τ sig (Elt F))) = ops.take 74 ++ ((ops.drop 74).take 136 ++ (ops.drop 74).drop 136) := by
    rw [List.take_append_drop, List.take_append_drop]
  rw [h, seq_append, seq_append, ← main_part0_eq c, ← main_part1_eq c, ← main_part2_eq c]
  simp only [main, main_part3, bind_pure_unit]

theorem scopedRefs_eq : (Finset.univ.filter fun b : Ref sig .tc => b.isScoped) = ∅ := by decide
theorem scopedSems_eq : (Finset.univ.filter fun sm : SemLoc sig => sm.isScoped .tc) = ∅ := by decide

theorem forall_cons_of {α : Type} {p : α → Prop} {a : α} {l : List α} (h : p a) (t : l.Forall p) : (a :: l).Forall p :=
  (List.forall_cons p a l).mpr ⟨h, t⟩

theorem ops_sub : (ops : List (HloOp τ sig (Elt F))).Forall fun op => op.bufs ⊆ tcRefs τ sig := by
  repeat' first
    | refine forall_cons_of (by simp only [nullary_bufs_sub, unary_bufs_sub, binary_bufs_sub, ternary_bufs_sub, reshape_bufs_sub]) ?_
    | exact trivial

theorem ops_fresh : (ops : List (HloOp τ sig (Elt F))).Forall fun op => op.fresh = ∅ := by
  repeat' first
    | refine forall_cons_of rfl ?_
    | exact trivial

abbrev args : List (Ref sig .tc) := [main_arg0, main_arg1, main_arg2, main_arg3]

theorem devRef_ne_of_args {y r : Ref sig .tc} (hr : r ∈ args) (hy : y ∉ args) :
    Proc.devRef (τ := τ) .tc r ≠ Proc.devRef .tc y :=
  devRef_ne_of_ne fun e => hy (e ▸ hr)

theorem ops_writes {r : Ref sig .tc} (hr : r ∈ args) :
    (ops : List (HloOp τ sig (Elt F))).Forall fun op => Proc.devRef (τ := τ) .tc r ∉ op.writes := by
  repeat' first
    | refine forall_cons_of (by
        simp only [nullary_writes, unary_writes, binary_writes, ternary_writes, reshape_writes, Finset.mem_singleton]
        exact devRef_ne_of_args hr (by decide)) ?_
    | exact trivial

theorem ops_keep (V : Valuation τ sig (Elt F)) {r : Ref sig .tc} (hr : r ∈ args) :
    after ops V (Proc.devRef .tc r) = V (Proc.devRef .tc r) :=
  after_of_forall_not_mem ops V (List.forall_iff_forall_mem.mp (ops_writes hr))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130) = after ops (fun b => m (c, b)) (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v130,
      (h c main_arg0).trans (ops_keep _ (by decide)),
      (h c main_arg1).trans (ops_keep _ (by decide)),
      (h c main_arg2).trans (ops_keep _ (by decide)),
      (h c main_arg3).trans (ops_keep _ (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.RChain.lean ====
import proofs.«411162_j38354057953796_3_alg».proof.Proof.RefRun
import proofs.«411162_j38354057953796_3_alg».proof.Proof.Chain
import proofs.«411162_j38354057953796_3_alg».proof.Proof.LibTypedRef
import Idealize.ShloMosaic.Lib.StableHlo.Run
import Idealize.ShloMosaic.PureOps.Ideal

noncomputable section

namespace Cert.ReferenceIdeal.RChain

open Cert.ReferenceIdeal
open Idealize.ShloMosaic Idealize.ShloMosaic.TcCoe Idealize.SL.Sem Idealize.ShloMosaic.StableHlo

variable (V0 : Valuation τ sig (Elt Ideal))

abbrev W : Valuation τ sig (Elt Ideal) := StableHlo.after (RefRun.ops (F := Ideal)) V0

set_option maxHeartbeats 16000000 in

theorem result_eq :
    W V0 (Proc.devRef .tc main_v130)
      = Cert.KernelIdeal.Chain.result (W V0 (Proc.devRef .tc main_v11)) (W V0 (Proc.devRef .tc main_v14))
          (W V0 (Proc.devRef .tc main_v70)) (W V0 (Proc.devRef .tc main_v125)) := by
  dsimp only [W, RefRun.ops, TRef.unary, TRef.binary, TRef.ternary, TRef.nullary, TRef.quaternary, TRef.nary, TRef.unaryIndexed, TRef.binaryIndexed, TRef.reshape, TRef.of]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf_toBuf, TRef.toBuf_ofBuf]
  rfl

set_option maxHeartbeats 16000000 in

theorem cnorm_eq :
    W V0 (Proc.devRef .tc main_v102)
      = Cert.KernelIdeal.Chain.cnorm (W V0 (Proc.devRef .tc main_v11)) (W V0 (Proc.devRef .tc main_v14)) (V0 (Proc.devRef .tc main_arg2)) := by
  dsimp only [W, RefRun.ops, TRef.unary, TRef.binary, TRef.ternary, TRef.nullary, TRef.quaternary, TRef.nary, TRef.unaryIndexed, TRef.binaryIndexed, TRef.reshape, TRef.of]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf_toBuf, TRef.toBuf_ofBuf]
  rfl

end Cert.ReferenceIdeal.RChain

end
-- ==== Proof.LibScatterAddRows.lean ====
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i hc
    rw [Option.some_inj, funext_iff]
    refine forall_congr' fun a => ?_
    have := hc a
    rw [Fin.ext_iff]
    show (d.start j idx a + d.window j a).toNat = (i a).val ↔ _
    omega
  · rename_i hc
    refine iff_of_false (by simp) fun h => hc fun a => ?_
    have := h a
    have := (i a).isLt
    omega

/-- When the updates landing on `i` are exactly the `g n` with `c n`, for an injective `g`, the scatter adds those. -/
theorem scatterAdd_apply_of_fiber {s si u : Shape} (d : ScatterDims s si u) {w N : ℕ} (x : s.Idx → EReal) (idx : IVec si w)
    (upd : u.Idx → EReal) (i : s.Idx) (g : Fin N → u.Idx) (hg : Function.Injective g) (c : Fin N → Prop) [DecidablePred c]
    (h : ∀ j, d.resultIdx? j idx = some i ↔ ∃ n, c n ∧ g n = j) :
    Ideal.hostScatterAdd d x idx upd i = x i + ∑ n, if c n then upd (g n) else 0 := by
  unfold Ideal.hostScatterAdd
  rw [← Finset.sum_filter, ← Finset.sum_image fun a _ b _ e => hg e]
  congr 2
  ext j
  simp only [Finset.mem_filter, Finset.mem_image, Finset.mem_univ, true_and, h]

theorem col_eq {N : ℕ} (i : (⟨2, ![N, 1]⟩ : Shape).Idx) : i = ix2 (i 0) (0 : Fin 1) :=
  (eq_ix2 i).trans (congrArg (ix2 (i 0)) (Subsingleton.elim (α := Fin 1) _ _))

theorem scatterAdd_vec_apply_of {C N w : ℕ} (d : ScatterDims ⟨1, ![C]⟩ ⟨2, ![N, 1]⟩ ⟨1, ![N]⟩)
    (huw : d.updateWindowDims = []) (hiw : d.insertedWindowDims = [0]) (hsd : d.scatterDimsToOperandDims = [0])
    (hiv : d.indexVectorDim = 1)
    (x : (⟨1, ![C]⟩ : Shape).Idx → EReal) (idx : IVec ⟨2, ![N, 1]⟩ w) (upd : (⟨1, ![N]⟩ : Shape).Idx → EReal) (k : Fin C) :
    Ideal.hostScatterAdd d x idx upd (ix1 k)
      = x (ix1 k) + ∑ n : Fin N, if (idx (ix2 n (0 : Fin 1))).toInt = (k.val : ℤ) then upd (ix1 n) else 0 := by
  obtain ⟨uw, iw, sd, iv, wf⟩ := d
  simp only at huw hiw hsd hiv
  subst huw hiw hsd hiv
  refine scatterAdd_apply_of_fiber _ x idx upd _ ix1 (fun a b e => congrArg (· 0) e) _ fun j => ?_
  rw [resultIdx?_eq_some_iff, Fin.forall_fin_one]
  show (idx (ScatterDims.siIdx _ j _)).toInt + ((0 : ℕ) : ℤ) = (k.val : ℤ) ↔ _
  rw [col_eq (ScatterDims.siIdx _ j _), Nat.cast_zero, add_zero]
  exact ⟨fun h => ⟨j 0, h, (eq_ix1 j).symm⟩, by rintro ⟨n, h, rfl⟩; exact h⟩

end Idealize.ShloMosaic.ScatterAddRows

end
-- ==== Proof.LibScatterAddSlabs.lean ====
import proofs.«411162_j38354057953796_3_alg».proof.Proof.LibScatterAddRows

noncomputable section

open scoped BigOperators

namespace Idealize.ShloMosaic.ScatterAddSlabs

open Idealize.ShloMosaic Idealize.ShloMosaic.ValueIdx Idealize.ShloMosaic.ScatterAddRows

def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem scatterAdd_slabs_apply_of {C B D N w : ℕ} (d : ScatterDims ⟨3, ![C, B, D]⟩ ⟨2, ![N, 1]⟩ ⟨3, ![N, B, D]⟩)
    (huw : d.updateWindowDims = [1, 2]) (hiw : d.insertedWindowDims = [0]) (hsd : d.scatterDimsToOperandDims = [0])
    (hiv : d.indexVectorDim = 1)
    (x : (⟨3, ![C, B, D]⟩ : Shape).Idx → EReal) (idx : IVec ⟨2, ![N, 1]⟩ w)
    (upd : (⟨3, ![N, B, D]⟩ : Shape).Idx → EReal) (k : Fin C) (r : Fin B) (e : Fin D) :
    Ideal.hostScatterAdd d x idx upd (ix3 k r e)
      = x (ix3 k r e) + ∑ n : Fin N, if (idx (ix2 n (0 : Fin 1))).toInt = (k.val : ℤ) then upd (ix3 n r e) else 0 := by
  obtain ⟨uw, iw, sd, iv, wf⟩ := d
  simp only at huw hiw hsd hiv
  subst huw hiw hsd hiv
  refine scatterAdd_apply_of_fiber _ x idx upd _ (fun n => ix3 n r e) (fun a b h => congrArg (· 0) h) _ fun j => ?_
  rw [resultIdx?_eq_some_iff, Fin.forall_fin_succ, Fin.forall_fin_two]
  show (idx (ScatterDims.siIdx _ j _)).toInt + ((0 : ℕ) : ℤ) = (k.val : ℤ) ∧ (0 : ℤ) + ((j 1).val : ℤ) = (r.val : ℤ)
    ∧ (0 : ℤ) + ((j 2).val : ℤ) = (e.val : ℤ) ↔ _
  rw [col_eq (ScatterDims.siIdx _ j _), Nat.cast_zero, add_zero, zero_add, zero_add]
  constructor
  · rintro ⟨h0, h1, h2⟩
    obtain rfl : j 1 = r := Fin.ext (by omega)
    obtain rfl : j 2 = e := Fin.ext (by omega)
    exact ⟨j 0, h0, (eq_ix3 j).symm⟩
  · rintro ⟨n, h, rfl⟩
    exact ⟨h, rfl, rfl⟩

end Idealize.ShloMosaic.ScatterAddSlabs

end
-- ==== Proof.LibGatherHost3.lean ====
import Idealize.ShloMosaic.PureOps.ShapeOps
import Idealize.ShloMosaic.PureOps.Ideal.Laws
import Idealize.ShloMosaic.Lib.ValueIdx
import Idealize.ShloMosaic.Lib.IdealHost
import Idealize.ShloMosaic.Lib.Pipeline.Value

noncomputable section

namespace Idealize.ShloMosaic.GatherHost3

open Idealize.ShloMosaic Idealize.ShloMosaic.ValueIdx

theorem gather_slabs {α : Type} {N B C R w : Nat} (d : GatherDims ⟨3, ![N, B, C]⟩ ⟨2, ![R, 1]⟩ ⟨3, ![R, B, C]⟩)
    (hoff : d.offsetDims = [1, 2]) (hcoll : d.collapsedSliceDims = [0]) (hob : d.operandBatchingDims = [])
    (hsim : d.startIndexMap = [0]) (hivd : d.indexVectorDim = 1)
    (T : (⟨3, ![N, B, C]⟩ : Shape).Idx → α) (idx : IVec ⟨2, ![R, 1]⟩ w) (e : Fin R) (j : Fin B) (l : Fin C) (hN : 0 < N) :
    Host.gather d T idx (ix3 e j l) = T (ix3 ⟨min (idx (ix2 e 0)).toInt.toNat (N - 1), by omega⟩ j l) := by
  have hsl : d.sliceSizes 0 = 1 := d.slice_collapsed 0 (by rw [hcoll]; exact List.mem_singleton.mpr rfl)
  obtain ⟨off, coll, ob, sb, sim, ivd, sl, wf⟩ := d
  simp only at hoff hcoll hob hsim hivd hsl
  subst hoff hcoll hob hsim hivd
  unfold Host.gather
  refine congrArg T (funext fun a => Fin.ext ?_)
  match a with
  | ⟨0, _⟩ =>
    show min (idx (GatherDims.siIdx _ (ix3 e j l) _)).toInt.toNat (N - sl 0) = min (idx (ix2 e 0)).toInt.toNat (N - 1)
    rw [hsl]
    exact congrArg (fun i => min (idx i).toInt.toNat (N - 1))
      ((eq_ix2 _).trans (congrArg (ix2 e) (Subsingleton.elim (α := Fin 1) _ _)))
  | ⟨1, _⟩ => exact Nat.zero_add _
  | ⟨2, _⟩ => exact Nat.zero_add _

theorem reduces_of_reducesTo {a b c : ℕ} (h' : (⟨3, ![a, b, c]⟩ : Shape).ReducesTo [2] ⟨2, ![a, b]⟩) :
    (⟨3, ![a, b, c]⟩ : Shape).Reduces [2] ⟨2, ![a, b]⟩ :=
  ⟨h'.1, Nat.zero_lt_two, h'.2⟩

theorem lift_lastAxis {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

theorem hostReduceAdd_last {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩) (hu : 0 < u.numel)
    (i : Fin a) (j : Fin b) :
    Host.reduceAdd x init h' hu (ix2 i j) = init (Shape.Idx.first hu) + ∑ l : Fin c, x (ix3 i j l) := by
  have h := reduces_of_reducesTo h'
  show Ideal.hostReduceAdd h' x (init (Shape.Idx.first hu)) (ix2 i j) = _
  rw [Ideal.hostReduceAdd_single h' h]
  show _ + ∑ l : Fin c, x (h.lift (ix2 i j) l) = _
  exact congrArg _ (Finset.sum_congr rfl fun l _ => congrArg x (lift_lastAxis h i j l))

variable {α : Type}

theorem val_eq_ite {a : ℕ} (i : Fin a) : i.val = if a = 1 then 0 else i.val := by
  split
  · have := i.isLt; omega
  · rfl

theorem broadcastInDim_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) :=
  broadcastInDim_apply _ h x (ix3 i j u) (ix2 i j) fun | ⟨0, _⟩ => val_eq_ite i | ⟨1, _⟩ => val_eq_ite j

theorem broadcastInDim_ab1_abc_apply {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (l : Fin c) :
    broadcastInDim ⟨3, ![a, b, c]⟩ ![0, 1, 2] h x (ix3 i j l) = x (ix3 i j (0 : Fin 1)) :=
  broadcastInDim_apply _ h x (ix3 i j l) (ix3 i j (0 : Fin 1)) fun
    | ⟨0, _⟩ => val_eq_ite i | ⟨1, _⟩ => val_eq_ite j | ⟨2, _⟩ => rfl

end Idealize.ShloMosaic.GatherHost3

end
-- ==== Proof.LibGatherVec.lean ====
import Idealize.ShloMosaic.PureOps.ShapeOps
import Idealize.ShloMosaic.Lib.ValueIdx
import Idealize.ShloMosaic.Lib.StableHlo.Predicate

namespace Idealize.ShloMosaic.GatherVec

open Idealize.ShloMosaic Idealize.ShloMosaic.ValueIdx

theorem ix1_eq_ofFin {n : Nat} (e : Fin n) : (ix1 e : (⟨1, ![n]⟩ : Shape).Idx) = Shape.Idx.ofFin e := by
  funext a
  match a with
  | ⟨0, _⟩ => exact Fin.ext rfl

theorem ix2_zero_eq_ixP {n : Nat} (e : Fin n) :
    (ix2 e (0 : Fin 1) : (⟨2, ![n, 1]⟩ : Shape).Idx) = StableHlo.Predicate.ixP e := by
  funext a
  match a with
  | ⟨0, _⟩ => rfl
  | ⟨1, _⟩ => rfl

theorem gather_vec {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (T : (⟨1, ![N]⟩ : Shape).Idx → α) (idx : IVec ⟨2, ![R, 1]⟩ w) (e : Fin R) (hN : 0 < N) :
    Host.gather d T idx (ix1 e) = T (ix1 ⟨min (idx (ix2 e 0)).toInt.toNat (N - 1), by omega⟩) := by
  rw [ix1_eq_ofFin e, StableHlo.Predicate.gather_take d hcoll hob hsim hivd T idx e hN, ← ix1_eq_ofFin]
  refine congrArg (fun r => T (ix1 r)) (Fin.ext ?_)
  show min (idx (StableHlo.Predicate.ixP e)).toInt.toNat (N - 1) = min (idx (ix2 e 0)).toInt.toNat (N - 1)
  rw [ix2_zero_eq_ixP]

end Idealize.ShloMosaic.GatherVec
-- ==== Proof.LibHostReads.lean ====
import Idealize.ShloMosaic.PureOps.Reduce
import Idealize.ShloMosaic.Lib.ValueIdx
import Idealize.ShloMosaic.Lib.Pipeline.Value

namespace Idealize.ShloMosaic.HostReads

open Idealize.ShloMosaic Idealize.ShloMosaic.ValueIdx

variable {α : Type}

theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  refine broadcastInDim_apply _ h v (ix2 p u) (ix1 p) fun | ⟨0, _⟩ => ?_
  show p.val = if n = 1 then 0 else p.val
  split
  · have := p.isLt; omega
  · rfl

end Idealize.ShloMosaic.HostReads
-- ==== Proof.RefStages.lean ====
import proofs.«411162_j38354057953796_3_alg».proof.ReferenceIdeal
import proofs.«411162_j38354057953796_3_alg».proof.Proof.Spec
import proofs.«411162_j38354057953796_3_alg».proof.Proof.LibScatterAddSlabs
import proofs.«411162_j38354057953796_3_alg».proof.Proof.LibGatherHost3
import proofs.«411162_j38354057953796_3_alg».proof.Proof.LibGatherVec
import proofs.«411162_j38354057953796_3_alg».proof.Proof.LibHostReads
import Idealize.ShloMosaic.Lib.IdealHost

noncomputable section

open scoped BigOperators

namespace Cert.ReferenceIdeal.RefStages

open Cert.ReferenceIdeal Idealize.ShloMosaic Idealize.ShloMosaic.ValueIdx
open Idealize.ShloMosaic.ScatterAddRows Idealize.ShloMosaic.ScatterAddSlabs Idealize.ShloMosaic.GatherHost3
open Idealize.ShloMosaic.GatherVec Idealize.ShloMosaic.HostReads

variable [Facts]
open Facts₀ Facts

theorem hostSqrt_apply {s : Shape} {φ : FTy} (a : FVec Ideal s φ) (i : s.Idx) : Host.sqrt a i = Ideal.sqrt (a i) := rfl

theorem norm_apply (P : FVec Ideal S1024x8x4096 .f32) (b : Fin 1024) (h : Fin 8) (f : Fin 4096) :
    Host.divf P (broadcastInDim S1024x8x4096 ![0, 1, 2] bcast_S1024x8x1_S1024x8x4096_0_1_2
      (maximumf (Host.sqrt (broadcastInDim S1024x8x1 ![0, 1] bcast_S1024x8_S1024x8x1_0_1
          (Host.reduceAdd (mulf P P) (constant (F := Ideal) S_ .f32 0x00000000#32) reducesTo_S1024x8x4096_S1024x8_d2 h_S_)))
        (broadcastInDim S1024x8x1 ![] bcast_S_S1024x8x1 (constant (F := Ideal) S_ .f32 0x2B8CBCCC#32)))) (ix3 b h f)
      = Cert.Spec.pn P b h f := by
  rw [hostDivf_apply, broadcastInDim_ab1_abc_apply, maximumf_apply, hostSqrt_apply, broadcastInDim_ab_ab1_apply,
    hostReduceAdd_last, broadcastInDim_scalar_apply, constant_apply, constant_apply, Ideal.ofBits_zero_f32, zero_add]
  rfl

theorem hostScatterAdd_eq {s si u : Shape} {φ : FTy} {w : ℕ} (d : ScatterDims s si u) (x : FVec Ideal s φ) (idx : IVec si w)
    (upd : FVec Ideal u φ) : Host.scatterAdd d x idx upd = Ideal.hostScatterAdd d x idx upd := rfl

theorem scatterLab_apply (lab : IVec S1024 32) (upd : FVec Ideal S1024 .f32) (k : Fin 64) :
    Host.scatterAdd scatter_S64_S1024x1_S1024_n_0_0_1
      (broadcastInDim S64 ![] bcast_S_S64 (constant (F := Ideal) S_ .f32 0x00000000#32))
      (broadcastInDim S1024x1 ![0] bcast_S1024_S1024x1_0 lab) upd (ix1 k)
      = ∑ n : Fin 1024, if Cert.Spec.hit lab n k then upd (ix1 n) else 0 := by
  rw [hostScatterAdd_eq, scatterAdd_vec_apply_of _ rfl rfl rfl rfl, broadcastInDim_scalar_apply, constant_apply,
    Ideal.ofBits_zero_f32, zero_add]
  refine Finset.sum_congr rfl fun n _ => ?_
  rw [broadcastInDim_vec_col_apply]

theorem cnt_apply (lab : IVec S1024 32) (k : Fin 64) :
    Host.scatterAdd scatter_S64_S1024x1_S1024_n_0_0_1
      (broadcastInDim S64 ![] bcast_S_S64 (constant (F := Ideal) S_ .f32 0x00000000#32))
      (broadcastInDim S1024x1 ![0] bcast_S1024_S1024x1_0 lab)
      (broadcastInDim S1024 ![] bcast_S_S1024 (constant (F := Ideal) S_ .f32 0x3F800000#32)) (ix1 k)
      = Cert.Spec.cnt lab k := by
  rw [scatterLab_apply]
  unfold Cert.Spec.cnt
  refine Finset.sum_congr rfl fun n _ => ?_
  rw [broadcastInDim_scalar_apply, constant_apply, Ideal.ofBits_one_f32]

theorem hostReduceAdd_12 (x : FVec Ideal S1024x8x4096 .f32) (init : S_.Idx → Ideal .f32) (n : Fin 1024) :
    Host.reduceAdd x init reducesTo_S1024x8x4096_S1024_d1_2 h_S_ (ix1 n)
      = init (Shape.Idx.first h_S_) + ∑ h : Fin 8, ∑ f : Fin 4096, x (ix3 n h f) := by
  rw [hostReduceAdd_apply]
  unfold Ideal.hostReduceAdd
  congr 1
  rw [Finset.sum_filter, sum_idx3]
  have hd : ∀ (i : Fin 1024) (j : Fin 8) (l : Fin 4096),
      (reducesTo_S1024x8x4096_S1024_d1_2.drop (ix3 i j l) = ix1 n) ↔ i = n := by
    intro i j l
    have h0 : ((reducesTo_S1024x8x4096_S1024_d1_2.drop (ix3 i j l) 0 : Fin 1024) : ℕ) = i.val :=
      Shape.ReducesTo.drop_apply_val_of_eq reducesTo_S1024x8x4096_S1024_d1_2 (ix3 i j l) 0 0
    constructor
    · intro e
      apply Fin.ext
      rw [← h0, e]
    · intro e
      subst e
      funext a
      match a with
      | ⟨0, _⟩ => exact Fin.ext h0
  simp only [hd]
  rw [Fintype.sum_eq_single n fun i hi => by simp [hi]]
  simp

theorem clamp_of_hit (w : BitVec 32) (k : Fin 64) (hk : w.toInt = (k.val : ℤ)) (hlt : min w.toInt.toNat (64 - 1) < 64) :
    (⟨min w.toInt.toNat (64 - 1), hlt⟩ : Fin 64) = k := by
  apply Fin.ext
  show min w.toInt.toNat (64 - 1) = k.val
  rw [hk, Int.toNat_natCast]
  have := k.isLt
  omega

theorem gatherT_of_hit (T : FVec Ideal S64x8x4096 .f32) (icol : IVec S1024x1 32) (n : Fin 1024) (k : Fin 64)
    (hi : (icol (ix2 n 0)).toInt = (k.val : ℤ)) (h : Fin 8) (f : Fin 4096) :
    Host.gather gather_S64x8x4096_S1024x1_S1024x8x4096_12_0_n_n_0_1_184096 T icol (ix3 n h f) = T (ix3 k h f) := by
  rw [gather_slabs _ rfl rfl rfl rfl rfl T icol n h f (by decide), clamp_of_hit _ k hi]

theorem gatherD_of_hit (dlt : FVec Ideal S64 .f32) (icol : IVec S1024x1 32) (n : Fin 1024) (k : Fin 64)
    (hi : (icol (ix2 n 0)).toInt = (k.val : ℤ)) :
    Host.gather gather_S64_S1024x1_S1024_n_0_n_n_0_1_1 dlt icol (ix1 n) = dlt (ix1 k) := by
  rw [gather_vec _ rfl rfl rfl rfl dlt icol n (by decide), clamp_of_hit _ k hi]

theorem wrapCol_of_hit (lab : IVec S1024 32) (n : Fin 1024) (k : Fin 64) (hk : Cert.Spec.hit lab n k) :
    ((broadcastInDim S1024x1 ![0] bcast_S1024_S1024x1_0
      (select (cmpi .slt lab (broadcastInDim S1024 ![] bcast_S_S1024 (constantI S_ 32 0#32)))
        (addi lab (broadcastInDim S1024 ![] bcast_S_S1024 (constantI S_ 32 64#32))) lab) : IVec S1024x1 32) (ix2 n 0)).toInt
      = (k.val : ℤ) := by
  have hs : (lab (ix1 n)).slt 0#32 = false := by
    unfold BitVec.slt
    rw [show (lab (ix1 n)).toInt = (k.val : ℤ) from hk]
    simp
  have hc : cmpi .slt lab (broadcastInDim S1024 ![] bcast_S_S1024 (constantI S_ 32 0#32)) (ix1 n) = 0#1 := by
    show IntOp.cmpi .slt (lab (ix1 n)) (broadcastInDim S1024 ![] bcast_S_S1024 (constantI S_ 32 0#32) (ix1 n)) = 0#1
    rw [broadcastInDim_scalar_apply]
    show BitVec.ofBool ((lab (ix1 n)).slt 0#32) = 0#1
    rw [hs]
    rfl
  rw [broadcastInDim_vec_col_apply, select_apply, hc, select_zero]
  exact hk

theorem within_apply (P : FVec Ideal S1024x8x4096 .f32) (PN : FVec Ideal S1024x8x4096 .f32)
    (hPN : ∀ b h f, PN (ix3 b h f) = Cert.Spec.pn P b h f)
    (T : FVec Ideal S64x8x4096 .f32) (dlt : FVec Ideal S64 .f32) (lab : IVec S1024 32) (k : Fin 64) :
    Host.scatterAdd scatter_S64_S1024x1_S1024_n_0_0_1
      (broadcastInDim S64 ![] bcast_S_S64 (constant (F := Ideal) S_ .f32 0x00000000#32))
      (broadcastInDim S1024x1 ![0] bcast_S1024_S1024x1_0 lab)
      (maximumf
        (subf
          (Host.sqrt (Host.reduceAdd
            (mulf
              (subf PN (Host.gather gather_S64x8x4096_S1024x1_S1024x8x4096_12_0_n_n_0_1_184096 T
                (broadcastInDim S1024x1 ![0] bcast_S1024_S1024x1_0
                  (select (cmpi .slt lab (broadcastInDim S1024 ![] bcast_S_S1024 (constantI S_ 32 0#32)))
                    (addi lab (broadcastInDim S1024 ![] bcast_S_S1024 (constantI S_ 32 64#32))) lab))))
              (subf PN (Host.gather gather_S64x8x4096_S1024x1_S1024x8x4096_12_0_n_n_0_1_184096 T
                (broadcastInDim S1024x1 ![0] bcast_S1024_S1024x1_0
                  (select (cmpi .slt lab (broadcastInDim S1024 ![] bcast_S_S1024 (constantI S_ 32 0#32)))
                    (addi lab (broadcastInDim S1024 ![] bcast_S_S1024 (constantI S_ 32 64#32))) lab)))))
            (constant (F := Ideal) S_ .f32 0x00000000#32) reducesTo_S1024x8x4096_S1024_d1_2 h_S_))
          (Host.gather gather_S64_S1024x1_S1024_n_0_n_n_0_1_1 dlt
            (broadcastInDim S1024x1 ![0] bcast_S1024_S1024x1_0
              (select (cmpi .slt lab (broadcastInDim S1024 ![] bcast_S_S1024 (constantI S_ 32 0#32)))
                (addi lab (broadcastInDim S1024 ![] bcast_S_S1024 (constantI S_ 32 64#32))) lab))))
        (broadcastInDim S1024 ![] bcast_S_S1024 (constant (F := Ideal) S_ .f32 0x00000000#32))) (ix1 k)
      = Cert.Spec.within P lab T dlt k := by
  rw [scatterLab_apply]
  unfold Cert.Spec.within
  refine Finset.sum_congr rfl fun n _ => ?_
  by_cases hk : Cert.Spec.hit lab n k
  · have hi := wrapCol_of_hit lab n k hk
    rw [if_pos hk, if_pos hk, maximumf_apply, subf_apply, hostSqrt_apply, hostReduceAdd_12, gatherD_of_hit dlt _ n k hi,
      broadcastInDim_scalar_apply, constant_apply, constant_apply, Ideal.ofBits_zero_f32, zero_add]
    simp only [mulf_apply, subf_apply, gatherT_of_hit T _ n k hi, hPN]
    rfl
  · rw [if_neg hk, if_neg hk]

theorem sums_norm_apply (P : FVec Ideal S1024x8x4096 .f32) (lab : IVec S1024 32) (k : Fin 64) (h : Fin 8) (f : Fin 4096) :
    Host.scatterAdd scatter_S64x8x4096_S1024x1_S1024x8x4096_12_0_0_1
      (broadcastInDim S64x8x4096 ![] bcast_S_S64x8x4096 (constant (F := Ideal) S_ .f32 0x00000000#32))
      (broadcastInDim S1024x1 ![0] bcast_S1024_S1024x1_0 lab)
      (Host.divf P (broadcastInDim S1024x8x4096 ![0, 1, 2] bcast_S1024x8x1_S1024x8x4096_0_1_2
        (maximumf (Host.sqrt (broadcastInDim S1024x8x1 ![0, 1] bcast_S1024x8_S1024x8x1_0_1
            (Host.reduceAdd (mulf P P) (constant (F := Ideal) S_ .f32 0x00000000#32) reducesTo_S1024x8x4096_S1024x8_d2 h_S_)))
          (broadcastInDim S1024x8x1 ![] bcast_S_S1024x8x1 (constant (F := Ideal) S_ .f32 0x2B8CBCCC#32))))) (ix3 k h f)
      = Cert.Spec.sums P lab k h f := by
  rw [hostScatterAdd_eq, scatterAdd_slabs_apply_of _ rfl rfl rfl rfl, broadcastInDim_scalar_apply, constant_apply,
    Ideal.ofBits_zero_f32, zero_add]
  unfold Cert.Spec.sums
  refine Finset.sum_congr rfl fun n _ => ?_
  rw [broadcastInDim_vec_col_apply, norm_apply]

end Cert.ReferenceIdeal.RefStages
end
-- ==== Proof.RefVal.lean ====
import proofs.«411162_j38354057953796_3_alg».proof.Proof.RefRun
import proofs.«411162_j38354057953796_3_alg».proof.Proof.RefStages

noncomputable section

open scoped BigOperators

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefStages

variable (V0 : Valuation τ sig (Elt Ideal))

set_option maxHeartbeats 4000000 in

theorem cnt_eq (k : Fin 64) :
    (after (RefRun.ops (F := Ideal)) V0 (Proc.devRef .tc main_v11) : S64.Idx → EReal) (ix1 k)
      = Cert.Spec.cnt (V0 (Proc.devRef .tc main_arg1)) k := by
  after_results_simp
  exact cnt_apply _ k

set_option maxHeartbeats 4000000 in

theorem sums_eq (k : Fin 64) (h : Fin 8) (f : Fin 4096) :
    (after (RefRun.ops (F := Ideal)) V0 (Proc.devRef .tc main_v14) : S64x8x4096.Idx → EReal) (ix3 k h f)
      = Cert.Spec.sums (V0 (Proc.devRef .tc main_arg0)) (V0 (Proc.devRef .tc main_arg1)) k h f := by
  after_results_simp
  exact sums_norm_apply _ _ k h f

set_option maxHeartbeats 4000000 in

theorem within_eq (k : Fin 64) :
    (after (RefRun.ops (F := Ideal)) V0 (Proc.devRef .tc main_v125) : S64.Idx → EReal) (ix1 k)
      = Cert.Spec.within (V0 (Proc.devRef .tc main_arg0)) (V0 (Proc.devRef .tc main_arg1))
          (after (RefRun.ops (F := Ideal)) V0 (Proc.devRef .tc main_v102)) (V0 (Proc.devRef .tc main_arg3)) k := by
  rw [← List.take_append_drop 236 (RefRun.ops (F := Ideal)), RefRun.after_append]
  generalize hX : after ((RefRun.ops (F := Ideal)).take 236) V0 = X
  simp only [List.take_succ_cons, List.take_zero] at hX
  have h1 : X (Proc.devRef .tc main_arg1) = V0 (Proc.devRef .tc main_arg1) := by
    rw [← hX]
    after_results_simp
  have h3 : X (Proc.devRef .tc main_arg3) = V0 (Proc.devRef .tc main_arg3) := by
    rw [← hX]
    after_results_simp
  have h7 : ∀ (b : Fin 1024) (h : Fin 8) (f : Fin 4096),
      (X (Proc.devRef .tc main_v7) : S1024x8x4096.Idx → EReal) (ix3 b h f)
        = Cert.Spec.pn (V0 (Proc.devRef .tc main_arg0)) b h f := by
    intro b h f
    rw [← hX]
    after_results_simp
    exact norm_apply _ b h f
  simp only [List.drop_succ_cons, List.drop_zero]
  after_results_simp
  simp only [TRef.ofBuf, TRef.toBuf, cast_eq]
  rw [h1, h3]
  exact within_apply (V0 (Proc.devRef .tc main_arg0)) (X (Proc.devRef .tc main_v7)) h7 (X (Proc.devRef .tc main_v102))
    (V0 (Proc.devRef .tc main_arg3)) (V0 (Proc.devRef .tc main_arg1)) k

end Cert.ReferenceIdeal.RefVal

end
-- ==== Proof.RefIdx.lean ====
import proofs.«411162_j38354057953796_3_alg».proof.Proof.RefRunOps
import proofs.«411162_j38354057953796_3_alg».proof.Proof.IdxTab
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefIdx

open Cert.ReferenceIdeal Cert.ReferenceIdeal.Gen Cert.ReferenceIdeal.RefRun Cert.IdxTab
open Idealize.ShloMosaic Idealize.ShloMosaic.TcCoe Idealize.ShloMosaic.ValueIdx Idealize.ShloMosaic.StableHlo

theorem after_seg {τ' : Topo} {sig' : RefSig} {Val : EltTy → Type} (l : List (HloOp τ' sig' Val)) (a n b : Nat) (h : a + n = b)
    (V : Valuation τ' sig' Val) :
    after (l.drop a) V = after (l.drop b) (after ((l.drop a).take n) V) := by
  subst h
  rw [← after_append, ← List.drop_drop, List.take_append_drop]

theorem ext1 {n : ℕ} {α : Type} {f g : (⟨1, ![n]⟩ : Shape).Idx → α} (h : ∀ k, f (ix1 k) = g (ix1 k)) : f = g :=
  funext fun j => eq_ix1 j ▸ h (j 0)

theorem ext1c {n : ℕ} {α : Type} {f g : (⟨2, ![n, 1]⟩ : Shape).Idx → α} (h : ∀ k, f (ix2 k 0) = g (ix2 k 0)) : f = g :=
  funext fun j => by rw [eq_ix2 j, Subsingleton.elim (α := Fin 1) (j 1) 0]; exact h (j 0)

def pre64 (n : Fin 64) : BitVec 32 := BitVec.ofNat 32 ([0, 1, 2, 3, 4, 5, 6, 7, 7, 7, 8, 9, 10, 11, 12, 13, 13, 13, 13, 14, 15, 16, 17, 18, 18, 18, 18, 18, 19, 20, 21, 22, 22, 22, 22, 22, 22, 23, 24, 25, 25, 25, 25, 25, 25, 25, 26, 27, 27, 27, 27, 27, 27, 27, 27, 28, 28, 28, 28, 28, 28, 28, 28, 28].getD n.val 0)

def hist28 (k : Fin 28) : BitVec 32 := BitVec.ofNat 32 ([1, 1, 1, 1, 1, 1, 1, 3, 1, 1, 1, 1, 1, 4, 1, 1, 1, 1, 5, 1, 1, 1, 6, 1, 1, 7, 1, 8].getD k.val 0)

def pos28 (k : Fin 28) : BitVec 32 := BitVec.ofNat 32 ([1, 2, 3, 4, 5, 6, 7, 10, 11, 12, 13, 14, 15, 19, 20, 21, 22, 23, 28, 29, 30, 31, 37, 38, 39, 46, 47, 55].getD k.val 0)

def maskB : S8x8.Idx → BitVec 1 := fun j => BitVec.ofBool (decide ((j 0).val < (j 1).val))

theorem cmp_ge (a b : Fin 8) :
    IntOp.cmpi .sge (IntOp.addi (BitVec.ofNat 32 a.val) 0#32) (BitVec.ofNat 32 b.val) = BitVec.ofBool (decide (b.val ≤ a.val)) := by
  revert a b; decide

theorem mask_eq :
    (cmpf (F := Ideal) .une
      (select (cmpi .sge (addi (iotaInDim S8x8 32 0) (broadcastInDim S8x8 ![] bcast_S_S8x8 (constantI S_ 32 0#32))) (iotaInDim S8x8 32 1))
        (broadcastInDim S8x8 ![] bcast_S_S8x8 (constant S_ .f32 0x00000000#32))
        (broadcastInDim S8x8 ![] bcast_S_S8x8 (constant S_ .f32 0x3F800000#32)))
      (broadcastInDim S8x8 ![] bcast_S_S8x8 (constant S_ .f32 0x00000000#32)) : S8x8.Idx → BitVec 1) = maskB := by
  funext j
  obtain ⟨a, b, rfl⟩ : ∃ (a b : Fin 8), j = ix2 a b := ⟨j 0, j 1, eq_ix2 j⟩
  show Ideal.cmp .une (Scalar.select (IntOp.cmpi .sge (IntOp.addi (BitVec.ofNat 32 a.val) 0#32) (BitVec.ofNat 32 b.val))
      (Ideal.ofBits .f32 0x00000000#32) (Ideal.ofBits .f32 0x3F800000#32)) (Ideal.ofBits .f32 0x00000000#32)
    = BitVec.ofBool (decide (a.val < b.val))
  rw [cmp_ge, Ideal.ofBits_zero_f32, Ideal.ofBits_one_f32]
  by_cases h : b.val ≤ a.val
  · have h' : ¬ a.val < b.val := by omega
    simp [h, h', Scalar.select, Ideal.cmp]
  · have h' : a.val < b.val := by omega
    simp [h, h', Scalar.select, Ideal.cmp]

theorem cum64 : ∀ n : Fin 64,
    Host.reduceWindow IntOp.addi ![64] ![1] ![63] ![0] (extui 32 (shapeCast S64 maskB shapeCasts_S8x8_S64) natLt_1_32)
      (broadcastInDim S_ ![] bcast_S_S_ (constantI S_ 32 0#32)) reduceWindows_S64_S64_w64s1p63_0 h_S_ (ix1 n) = pre64 n := by
  decide +kernel

variable (W : Valuation τ sig (Elt Ideal))

theorem stage1 :
    (after (((ops (F := Ideal)).drop 49).take 19) W (Proc.devRef .tc main_v42) : S64.Idx → BitVec 32) = fun i => pre64 (i 0) := by
  simp only [List.drop_succ_cons, List.drop_zero, List.take_succ_cons, List.take_zero]
  after_results_simp
  simp only [TRef.ofBuf, TRef.toBuf, cast_eq]
  rw [mask_eq]
  exact ext1 cum64

theorem stage2
    (hin : (W (Proc.devRef .tc main_v42) : S64.Idx → BitVec 32) = fun i => pre64 (i 0)) :
    (after (((ops (F := Ideal)).drop 68).take 17) W (Proc.devRef .tc main_v52) : S28.Idx → BitVec 32) = fun i => hist28 (i 0) := by
  simp only [List.drop_succ_cons, List.drop_zero, List.take_succ_cons, List.take_zero]
  after_results_simp
  rw [hin]
  refine ext1 fun k => ?_
  revert k
  decide +kernel

theorem stage3
    (hin : (W (Proc.devRef .tc main_v52) : S28.Idx → BitVec 32) = fun i => hist28 (i 0)) :
    (after (((ops (F := Ideal)).drop 85).take 3) W (Proc.devRef .tc main_v53) : S28.Idx → BitVec 32) = fun i => pos28 (i 0) := by
  simp only [List.drop_succ_cons, List.drop_zero, List.take_succ_cons, List.take_zero]
  after_results_simp
  rw [hin]
  refine ext1 fun k => ?_
  revert k
  decide +kernel

theorem stage4
    (hin : (W (Proc.devRef .tc main_v53) : S28.Idx → BitVec 32) = fun i => pos28 (i 0)) :
    (after (((ops (F := Ideal)).drop 88).take 17) W (Proc.devRef .tc main_v54) : S28.Idx → BitVec 32) = fun i => rowT (i 0) := by
  simp only [List.drop_succ_cons, List.drop_zero, List.take_succ_cons, List.take_zero]
  after_results_simp
  rw [hin]
  refine ext1 fun k => ?_
  revert k
  decide +kernel

theorem stage5
    (hin : (W (Proc.devRef .tc main_v54) : S28.Idx → BitVec 32) = fun i => rowT (i 0)) :
    (after (((ops (F := Ideal)).drop 105).take 22) W (Proc.devRef .tc main_v55) : S28.Idx → BitVec 32) = fun i => rowT (i 0) := by
  simp only [List.drop_succ_cons, List.drop_zero, List.take_succ_cons, List.take_zero]
  after_results_simp
  rw [hin]
  refine ext1 fun k => ?_
  revert k
  decide +kernel

theorem stage6
    (hin : (W (Proc.devRef .tc main_v53) : S28.Idx → BitVec 32) = fun i => pos28 (i 0)) :
    (after (((ops (F := Ideal)).drop 127).take 17) W (Proc.devRef .tc main_v56) : S28.Idx → BitVec 32) = fun i => pos28 (i 0) := by
  simp only [List.drop_succ_cons, List.drop_zero, List.take_succ_cons, List.take_zero]
  after_results_simp
  rw [hin]
  refine ext1 fun k => ?_
  revert k
  decide +kernel

theorem stage7
    (hin : (W (Proc.devRef .tc main_v56) : S28.Idx → BitVec 32) = fun i => pos28 (i 0)) :
    (after (((ops (F := Ideal)).drop 144).take 22) W (Proc.devRef .tc main_v57) : S28.Idx → BitVec 32) = fun i => colT (i 0) := by
  simp only [List.drop_succ_cons, List.drop_zero, List.take_succ_cons, List.take_zero]
  after_results_simp
  rw [hin]
  refine ext1 fun k => ?_
  revert k
  decide +kernel

theorem keep53 :
    after (((ops (F := Ideal)).drop 105).take 22) (after (((ops (F := Ideal)).drop 88).take 17) W) (Proc.devRef .tc main_v53)
      = W (Proc.devRef .tc main_v53) := by
  simp only [List.drop_succ_cons, List.drop_zero, List.take_succ_cons, List.take_zero]
  after_results_simp

theorem keep55 :
    after (((ops (F := Ideal)).drop 144).take 22) (after (((ops (F := Ideal)).drop 127).take 17) W) (Proc.devRef .tc main_v55)
      = W (Proc.devRef .tc main_v55) := by
  simp only [List.drop_succ_cons, List.drop_zero, List.take_succ_cons, List.take_zero]
  after_results_simp

theorem stage8_row
    (h55 : (W (Proc.devRef .tc main_v55) : S28.Idx → BitVec 32) = fun i => rowT (i 0)) :
    (after (((ops (F := Ideal)).drop 166).take 16) W (Proc.devRef .tc main_v68) : S28x1.Idx → BitVec 32) = fun j => rowT (j 0) := by
  simp only [List.drop_succ_cons, List.drop_zero, List.take_succ_cons, List.take_zero]
  after_results_simp
  rw [h55]
  refine ext1c fun k => ?_
  revert k
  decide +kernel

theorem stage8_col
    (h57 : (W (Proc.devRef .tc main_v57) : S28.Idx → BitVec 32) = fun i => colT (i 0)) :
    (after (((ops (F := Ideal)).drop 166).take 16) W (Proc.devRef .tc main_v69) : S28x1.Idx → BitVec 32) = fun j => colT (j 0) := by
  simp only [List.drop_succ_cons, List.drop_zero, List.take_succ_cons, List.take_zero]
  after_results_simp
  rw [h57]
  refine ext1c fun k => ?_
  revert k
  decide +kernel

theorem stage9
    (h68 : (W (Proc.devRef .tc main_v68) : S28x1.Idx → BitVec 32) = fun j => rowT (j 0))
    (h69 : (W (Proc.devRef .tc main_v69) : S28x1.Idx → BitVec 32) = fun j => colT (j 0)) :
    (after (((ops (F := Ideal)).drop 182).take 1) W (Proc.devRef .tc main_v70) : S28x2.Idx → BitVec 32) = IdxTab.T := by
  simp only [List.drop_succ_cons, List.drop_zero, List.take_succ_cons, List.take_zero]
  after_results
  rw [h68, h69]
  funext j
  obtain ⟨p, q, rfl⟩ : ∃ (p : Fin 28) (q : Fin 2), j = ix2 p q := ⟨j 0, j 1, eq_ix2 j⟩
  fin_cases q
  · exact concatenate_pair_apply_left (t := S28x2) (s₁ := S28x1) (s₂ := S28x1) 1 _ _ _ (ix2 p (0 : Fin 2)) rfl (ix2 p (0 : Fin 1))
      (by intro b; fin_cases b <;> rfl)
  · exact concatenate_pair_apply_right (t := S28x2) (s₁ := S28x1) (s₂ := S28x1) 1 _ _ _ (ix2 p (1 : Fin 2)) rfl rfl (ix2 p (0 : Fin 1))
      (by intro b hb; fin_cases b; exacts [rfl, absurd rfl hb]) rfl

theorem tail_keep :
    after ((ops (F := Ideal)).drop 183) W (Proc.devRef .tc main_v70) = W (Proc.devRef .tc main_v70) := by
  simp only [List.drop_succ_cons, List.drop_zero]
  after_results_simp

theorem ref_tab (V0 : Valuation τ sig (Elt Ideal)) :
    (after (ops (F := Ideal)) V0 (Proc.devRef .tc main_v70) : S28x2.Idx → BitVec 32) = IdxTab.T := by
  show after ((ops (F := Ideal)).drop 0) V0 (Proc.devRef .tc main_v70) = _
  rw [after_seg _ 0 49 49 rfl, after_seg _ 49 19 68 rfl, after_seg _ 68 17 85 rfl, after_seg _ 85 3 88 rfl,
    after_seg _ 88 17 105 rfl, after_seg _ 105 22 127 rfl, after_seg _ 127 17 144 rfl, after_seg _ 144 22 166 rfl,
    after_seg _ 166 16 182 rfl, after_seg _ 182 1 183 rfl, tail_keep]
  have h53 := stage3 _ (stage2 _ (stage1 (after (((ops (F := Ideal)).drop 0).take 49) V0)))
  exact stage9 _ (stage8_row _ ((keep55 _).trans (stage5 _ (stage4 _ h53))))
    (stage8_col _ (stage7 _ (stage6 _ ((keep53 _).trans h53))))

end Cert.ReferenceIdeal.RefIdx

end
-- ==== Proof.RVal.lean ====
import proofs.«411162_j38354057953796_3_alg».proof.Proof.BridgeDefs
import proofs.«411162_j38354057953796_3_alg».proof.Proof.RChain
import proofs.«411162_j38354057953796_3_alg».proof.Proof.RefVal
import proofs.«411162_j38354057953796_3_alg».proof.Proof.RefIdx

noncomputable section

namespace Cert.ReferenceIdeal.RVal

open Cert.ReferenceIdeal Cert.Bridge
open Idealize.ShloMosaic Idealize.ShloMosaic.TcCoe Idealize.SL.Sem Idealize.ShloMosaic.ValueIdx

variable (V0 : Valuation τ sig (Elt Ideal))

theorem cnt_eq : RChain.W V0 (Proc.devRef .tc main_v11) = cntArr (V0 (Proc.devRef .tc main_arg1)) := by
  funext i
  obtain ⟨k, rfl⟩ : ∃ k : Fin 64, i = ix1 k := ⟨i 0, eq_ix1 i⟩
  exact RefVal.cnt_eq V0 k

theorem sums_eq : RChain.W V0 (Proc.devRef .tc main_v14)
    = sumsArr (V0 (Proc.devRef .tc main_arg0)) (V0 (Proc.devRef .tc main_arg1)) := by
  funext i
  obtain ⟨k, h, f, rfl⟩ : ∃ (k : Fin 64) (h : Fin 8) (f : Fin 4096), i = ix3 k h f := ⟨i 0, i 1, i 2, eq_ix3 i⟩
  exact RefVal.sums_eq V0 k h f

theorem cn_eq : RChain.W V0 (Proc.devRef .tc main_v102)
    = Cert.KernelIdeal.Chain.cnorm (cntArr (V0 (Proc.devRef .tc main_arg1)))
        (sumsArr (V0 (Proc.devRef .tc main_arg0)) (V0 (Proc.devRef .tc main_arg1))) (V0 (Proc.devRef .tc main_arg2)) := by
  rw [RChain.cnorm_eq V0, cnt_eq V0, sums_eq V0]

theorem within_eq : RChain.W V0 (Proc.devRef .tc main_v125)
    = withinArr (V0 (Proc.devRef .tc main_arg0)) (V0 (Proc.devRef .tc main_arg1))
        (Cert.KernelIdeal.Chain.cnorm (cntArr (V0 (Proc.devRef .tc main_arg1)))
          (sumsArr (V0 (Proc.devRef .tc main_arg0)) (V0 (Proc.devRef .tc main_arg1))) (V0 (Proc.devRef .tc main_arg2)))
        (V0 (Proc.devRef .tc main_arg3)) := by
  funext i
  obtain ⟨k, rfl⟩ : ∃ k : Fin 64, i = ix1 k := ⟨i 0, eq_ix1 i⟩
  refine (RefVal.within_eq V0 k).trans ?_
  show Cert.Spec.within _ _ (RChain.W V0 (Proc.devRef .tc main_v102)) _ k = _
  rw [cn_eq V0]
  rfl

theorem result_eq : StableHlo.after (RefRun.ops (F := Ideal)) V0 (Proc.devRef .tc main_v130)
    = Cert.Bridge.value (V0 (Proc.devRef .tc main_arg0)) (V0 (Proc.devRef .tc main_arg1))
        (V0 (Proc.devRef .tc main_arg2)) (V0 (Proc.devRef .tc main_arg3)) := by
  have tab : RChain.W V0 (Proc.devRef .tc main_v70) = Cert.IdxTab.T := RefIdx.ref_tab V0
  show RChain.W V0 (Proc.devRef .tc main_v130) = _
  rw [RChain.result_eq V0, cnt_eq V0, sums_eq V0, within_eq V0, tab]
  rfl

end Cert.ReferenceIdeal.RVal

end
-- ==== Proof.lean ====
import proofs.«411162_j38354057953796_3_alg».proof.Defs
import proofs.«411162_j38354057953796_3_alg».proof.Proof.Gen.Kernel
import proofs.«411162_j38354057953796_3_alg».proof.Proof.Gen.KernelIdeal
import proofs.«411162_j38354057953796_3_alg».proof.Proof.Gen.ReferenceIdeal
import proofs.«411162_j38354057953796_3_alg».proof.Proof.Gen.Pre_finite_inputs
import proofs.«411162_j38354057953796_3_alg».proof.Proof.Bits.RunK
import proofs.«411162_j38354057953796_3_alg».proof.Proof.RunKVal
import proofs.«411162_j38354057953796_3_alg».proof.Proof.KVal
import proofs.«411162_j38354057953796_3_alg».proof.Proof.RefRun
import proofs.«411162_j38354057953796_3_alg».proof.Proof.RVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.RunK.frame (F := Bits) m ρ

theorem frame_ki : Cert.frame_KernelIdeal := fun m ρ _ => Cert.KernelIdeal.RunK.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

-- both runs end at ONE function of the four arguments (class counts, class sums of the normalised samples, residuals), so the results agree
theorem algebraic : Cert.algebraic_KernelIdeal_ReferenceIdeal := by
  intro m ρ m' ρ' _ hagree
  refine ⟨fun c => Cert.KernelIdeal.Gen.V15 m (Cert.KernelIdeal.RunK.outs m) c (Proc.devRef .tc Cert.KernelIdeal.main_v78),
    Cert.KernelIdeal.RunK.run_val (F := Ideal) m ρ, ?_⟩
  refine (θ_run Cert.ReferenceIdeal.defs _ _).mono (fun _ h c => ⟨(h c).1.trans ?_, (h c).2⟩)
    (Cert.ReferenceIdeal.RefRun.run (F := Ideal) m' ρ')
  refine (Cert.ReferenceIdeal.RVal.result_eq (fun b => m' (c, b))).trans ?_
  refine Eq.trans ?_ (Cert.KernelIdeal.KVal.result_eq m c).symm
  show Cert.Bridge.value (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
